-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S524288x32 : Shape := ⟨2, ![524288, 32]⟩
abbrev S2x524288 : Shape := ⟨2, ![2, 524288]⟩
abbrev S65536 : Shape := ⟨1, ![65536]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S524288x32 : S_.BroadcastsInDim S524288x32 (![] : Fin 0 → Fin S524288x32.rank)
  reducesTo_S524288x32_S_d0_1 : S524288x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x524288 : S_.BroadcastsInDim S2x524288 (![] : Fin 0 → Fin S2x524288.rank)
  reducesTo_S2x524288_S_d0_1 : S2x524288.ReducesTo [0, 1] S_

variable [Facts]

def fn_part10 {F : FTy → Type} [FloatOps F] (main_arg2 : IVec S2x524288 32) (main_v168 : IVec S_ 1) (main_v170 : IVec S2x524288 1) : IVec S_ 1 :=
  let main_c_67 : IVec S_ 32 := constantI S_ 32 65536#32
  let main_v171 : IVec S2x524288 32 := broadcastInDim S2x524288 ![] bcast_S_S2x524288 main_c_67
  let main_v172 : IVec S2x524288 1 := cmpi .slt main_arg2 main_v171
  let main_v173 : IVec S2x524288 1 := andi main_v170 main_v172
  let main_c_68 : IVec S_ 1 := constantI S_ 1 1#1
  let main_v174 : IVec S_ 1 := (fun x v => Host.reduce IntOp.andi x v reducesTo_S2x524288_S_d0_1 h_S_) main_v173 main_c_68
  let main_v175 : IVec S_ 1 := andi main_v168 main_v174
  main_v175

def fn_part9 {F : FTy → Type} [FloatOps F] (main_arg2 : IVec S2x524288 32) (main_arg33 : FVec F S128 .f32) (main_arg34 : FVec F S128x1 .f32) (main_arg35 : FVec F S1 .f32) (main_v153 : IVec S_ 1) : IVec S_ 1 :=
  let main_v154 : FVec F S128 .f32 := Host.absf main_arg33
  let main_cst_60 : FVec F S_ .f32 := constant S_ .f32 0x7F800000#32
  let main_v155 : FVec F S128 .f32 := broadcastInDim S128 ![] bcast_S_S128 main_cst_60
  let main_v156 : IVec S128 1 := cmpf .olt main_v154 main_v155
  let main_c_61 : IVec S_ 1 := constantI S_ 1 1#1
  let main_v157 : IVec S_ 1 := (fun x v => Host.reduce IntOp.andi x v reducesTo_S128_S_d0 h_S_) main_v156 main_c_61
  let main_v158 : IVec S_ 1 := andi main_v153 main_v157
  let main_v159 : FVec F S128x1 .f32 := Host.absf main_arg34
  let main_cst_62 : FVec F S_ .f32 := constant S_ .f32 0x7F800000#32
  let main_v160 : FVec F S128x1 .f32 := broadcastInDim S128x1 ![] bcast_S_S128x1 main_cst_62
  let main_v161 : IVec S128x1 1 := cmpf .olt main_v159 main_v160
  let main_c_63 : IVec S_ 1 := constantI S_ 1 1#1
  let main_v162 : IVec S_ 1 := (fun x v => Host.reduce IntOp.andi x v reducesTo_S128x1_S_d0_1 h_S_) main_v161 main_c_63
  let main_v163 : IVec S_ 1 := andi main_v158 main_v162
  let main_v164 : FVec F S1 .f32 := Host.absf main_arg35
  let main_cst_64 : FVec F S_ .f32 := constant S_ .f32 0x7F800000#32
  let main_v165 : FVec F S1 .f32 := broadcastInDim S1 ![] bcast_S_S1 main_cst_64
  let main_v166 : IVec S1 1 := cmpf .olt main_v164 main_v165
  let main_c_65 : IVec S_ 1 := constantI S_ 1 1#1
  let main_v167 : IVec S_ 1 := (fun x v => Host.reduce IntOp.andi x v reducesTo_S1_S_d0 h_S_) main_v166 main_c_65
  let main_v168 : IVec S_ 1 := andi main_v163 main_v167
  let main_c_66 : IVec S_ 32 := constantI S_ 32 0#32
  let main_v169 : IVec S2x524288 32 := broadcastInDim S2x524288 ![] bcast_S_S2x524288 main_c_66
  let main_v170 : IVec S2x524288 1 := cmpi .sge main_arg2 main_v169
  fn_part10 (F := F) main_arg2 main_v168 main_v170

def fn_part8 {F : FTy → Type} [FloatOps F] (main_arg2 : IVec S2x524288 32) (main_arg30 : FVec F S128 .f32) (main_arg31 : FVec F S128 .f32) (main_arg32 : FVec F S256x128 .f32) (main_arg33 : FVec F S128 .f32) (main_arg34 : FVec F S128x1 .f32) (main_arg35 : FVec F S1 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg30
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128 .f32 := Host.absf main_arg31
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S256x128 .f32 := Host.absf main_arg32
  let main_cst_58 : FVec F S_ .f32 := constant S_ .f32 0x7F800000#32
  let main_v150 : FVec F S256x128 .f32 := broadcastInDim S256x128 ![] bcast_S_S256x128 main_cst_58
  let main_v151 : IVec S256x128 1 := cmpf .olt main_v149 main_v150
  let main_c_59 : IVec S_ 1 := constantI S_ 1 1#1
  let main_v152 : IVec S_ 1 := (fun x v => Host.reduce IntOp.andi x v reducesTo_S256x128_S_d0_1 h_S_) main_v151 main_c_59
  let main_v153 : IVec S_ 1 := andi main_v148 main_v152
  fn_part9 (F := F) main_arg2 main_arg33 main_arg34 main_arg35 main_v153

def fn_part7 {F : FTy → Type} [FloatOps F] (main_arg2 : IVec S2x524288 32) (main_arg27 : FVec F S128 .f32) (main_arg28 : FVec F S128 .f32) (main_arg29 : FVec F S128 .f32) (main_arg30 : FVec F S128 .f32) (main_arg31 : FVec F S128 .f32) (main_arg32 : FVec F S256x128 .f32) (main_arg33 : FVec F S128 .f32) (main_arg34 : FVec F S128x1 .f32) (main_arg35 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg2 main_arg30 main_arg31 main_arg32 main_arg33 main_arg34 main_arg35 main_v133 main_v136

def fn_part6 {F : FTy → Type} [FloatOps F] (main_arg2 : IVec S2x524288 32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S256x128 .f32) (main_arg33 : FVec F S128 .f32) (main_arg34 : FVec F S128x1 .f32) (main_arg35 : FVec F S1 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg26
  fn_part7 (F := F) main_arg2 main_arg27 main_arg28 main_arg29 main_arg30 main_arg31 main_arg32 main_arg33 main_arg34 main_arg35 main_v118 main_v119

def fn_part5 {F : FTy → Type} [FloatOps F] (main_arg2 : IVec S2x524288 32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S256x128 .f32) (main_arg33 : FVec F S128 .f32) (main_arg34 : FVec F S128x1 .f32) (main_arg35 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg22
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg2 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg2 : IVec S2x524288 32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S256x128 .f32) (main_arg33 : FVec F S128 .f32) (main_arg34 : FVec F S128x1 .f32) (main_arg35 : FVec F S1 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg2 : IVec S2x524288 32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S256x128 .f32) (main_arg33 : FVec F S128 .f32) (main_arg34 : FVec F S128x1 .f32) (main_arg35 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg2 : IVec S2x524288 32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S256x128 .f32) (main_arg33 : FVec F S128 .f32) (main_arg34 : FVec F S128x1 .f32) (main_arg35 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg2 : IVec S2x524288 32) (main_arg6 : FVec F S32x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S256x128 .f32) (main_arg33 : FVec F S128 .f32) (main_arg34 : FVec F S128x1 .f32) (main_arg35 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg6
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S65536x64 .f32) (main_arg1 : FVec F S524288x32 .f32) (main_arg2 : IVec S2x524288 32) (main_arg3 : IVec S65536 32) (main_arg4 : FVec F S64x128 .f32) (main_arg5 : FVec F S128 .f32) (main_arg6 : FVec F S32x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_arg31 : FVec F S128 .f32) (main_arg32 : FVec F S256x128 .f32) (main_arg33 : FVec F S128 .f32) (main_arg34 : FVec F S128x1 .f32) (main_arg35 : FVec F S1 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S524288x32 .f32 := Host.absf main_arg1
  let main_cst_0 : FVec F S_ .f32 := constant S_ .f32 0x7F800000#32
  let main_v5 : FVec F S524288x32 .f32 := broadcastInDim S524288x32 ![] bcast_S_S524288x32 main_cst_0
  let main_v6 : IVec S524288x32 1 := cmpf .olt main_v4 main_v5
  let main_c_1 : IVec S_ 1 := constantI S_ 1 1#1
  let main_v7 : IVec S_ 1 := (fun x v => Host.reduce IntOp.andi x v reducesTo_S524288x32_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S65536x64 : Shape := ⟨2, ![65536, 64]⟩
abbrev S524288x32 : Shape := ⟨2, ![524288, 32]⟩
abbrev S2x524288 : Shape := ⟨2, ![2, 524288]⟩
abbrev S65536 : Shape := ⟨1, ![65536]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x524288 : Shape := ⟨2, ![1, 524288]⟩
abbrev S524288 : Shape := ⟨1, ![524288]⟩
abbrev S1x65536 : Shape := ⟨2, ![1, 65536]⟩
abbrev S1x128 : Shape := ⟨2, ![1, 128]⟩
abbrev S65536x128 : Shape := ⟨2, ![65536, 128]⟩
abbrev S8192x64 : Shape := ⟨2, ![8192, 64]⟩
abbrev S8192x128 : Shape := ⟨2, ![8192, 128]⟩
abbrev S524288x128 : Shape := ⟨2, ![524288, 128]⟩
abbrev S8192x32 : Shape := ⟨2, ![8192, 32]⟩
abbrev S_ : Shape := ⟨0, ![]⟩
abbrev S524288x1 : Shape := ⟨2, ![524288, 1]⟩
abbrev S1x1 : Shape := ⟨2, ![1, 1]⟩
abbrev S4096x128 : Shape := ⟨2, ![4096, 128]⟩
abbrev S16x64x256 : Shape := ⟨3, ![16, 64, 256]⟩
abbrev S1x4096 : Shape := ⟨2, ![1, 4096]⟩
abbrev S1x64x256 : Shape := ⟨3, ![1, 64, 256]⟩
abbrev S64x4096 : Shape := ⟨2, ![64, 4096]⟩
abbrev S64x256 : Shape := ⟨2, ![64, 256]⟩
abbrev S64x1 : Shape := ⟨2, ![64, 1]⟩
abbrev S64 : Shape := ⟨1, ![64]⟩

abbrev nBuf : Space → Nat
  | .hbm => 348
  | .vmem => 84
  | .smem => 0
  | _ => 0

abbrev hbmTy0_0 (i : Nat) : BufTy := match i % 128 with
  | 0 => ⟨S65536x64, .f32⟩
  | 1 => ⟨S524288x32, .f32⟩
  | 2 => ⟨S2x524288, .i32⟩
  | 3 => ⟨S65536, .i32⟩
  | 4 => ⟨S64x128, .f32⟩
  | 5 => ⟨S128, .f32⟩
  | 6 => ⟨S32x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128, .f32⟩
  | 25 => ⟨S128, .f32⟩
  | 26 => ⟨S128, .f32⟩
  | 27 => ⟨S128, .f32⟩
  | 28 => ⟨S128, .f32⟩
  | 29 => ⟨S128, .f32⟩
  | 30 => ⟨S128, .f32⟩
  | 31 => ⟨S128, .f32⟩
  | 32 => ⟨S256x128, .f32⟩
  | 33 => ⟨S128, .f32⟩
  | 34 => ⟨S128x1, .f32⟩
  | 35 => ⟨S1, .f32⟩
  | 36 => ⟨S1x524288, .i32⟩
  | 37 => ⟨S524288, .i32⟩
  | 38 => ⟨S1x524288, .i32⟩
  | 39 => ⟨S524288, .i32⟩
  | 40 => ⟨S1x65536, .i32⟩
  | 41 => ⟨S1x128, .f32⟩
  | 42 => ⟨S65536x128, .f32⟩
  | 43 => ⟨S1x128, .f32⟩
  | 44 => ⟨S524288x128, .f32⟩
  | 45 => ⟨S_, .i32⟩
  | 46 => ⟨S524288, .i32⟩
  | 47 => ⟨S524288, .i1⟩
  | 48 => ⟨S_, .i32⟩
  | 49 => ⟨S524288, .i32⟩
  | 50 => ⟨S524288, .i32⟩
  | 51 => ⟨S524288, .i32⟩
  | 52 => ⟨S524288x1, .i32⟩
  | 53 => ⟨S1, .i32⟩
  | 54 => ⟨S_, .i32⟩
  | 55 => ⟨S524288x1, .i32⟩
  | 56 => ⟨S524288x1, .i1⟩
  | 57 => ⟨S1x1, .i32⟩
  | 58 => ⟨S524288x1, .i32⟩
  | 59 => ⟨S524288x1, .i1⟩
  | 60 => ⟨S524288x1, .i1⟩
  | 61 => ⟨S_, .i1⟩
  | 62 => ⟨S524288, .i1⟩
  | 63 => ⟨S524288x128, .f32⟩
  | 64 => ⟨S524288x128, .i1⟩
  | 65 => ⟨S_, .f32⟩
  | 66 => ⟨S524288x128, .f32⟩
  | 67 => ⟨S524288x128, .f32⟩
  | 68 => ⟨S524288x128, .f32⟩
  | 69 => ⟨S_, .f32⟩
  | 70 => ⟨S524288x128, .f32⟩
  | 71 => ⟨S524288x128, .f32⟩
  | 72 => ⟨S_, .f32⟩
  | 73 => ⟨S65536x128, .f32⟩
  | 74 => ⟨S524288x1, .i32⟩
  | 75 => ⟨S65536x128, .f32⟩
  | 76 => ⟨S1x128, .f32⟩
  | 77 => ⟨S1x128, .f32⟩
  | 78 => ⟨S65536x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S65536x128, .f32⟩
  | 92 => ⟨S65536x128, .f32⟩
  | 93 => ⟨S65536x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S_, .f32⟩
  | 108 => ⟨S128, .f32⟩
  | 109 => ⟨S128, .f32⟩
  | 110 => ⟨S128, .f32⟩
  | 111 => ⟨S128, .f32⟩
  | 112 => ⟨S128, .f32⟩
  | 113 => ⟨S128, .f32⟩
  | 114 => ⟨S1x128, .f32⟩
  | 115 => ⟨S1x128, .f32⟩
  | 116 => ⟨S65536x128, .f32⟩
  | 117 => ⟨S_, .i32⟩
  | 118 => ⟨S524288, .i32⟩
  | 119 => ⟨S524288, .i1⟩
  | 120 => ⟨S_, .i32⟩
  | 121 => ⟨S524288, .i32⟩
  | 122 => ⟨S524288, .i32⟩
  | 123 => ⟨S524288, .i32⟩
  | 124 => ⟨S524288x1, .i32⟩
  | 125 => ⟨S1, .i32⟩
  | 126 => ⟨S_, .i32⟩
  | 127 => ⟨S524288x1, .i32⟩
  | _ => ⟨S65536x64, .f32⟩

abbrev hbmTy0_1 (i : Nat) : BufTy := match i % 128 with
  | 0 => ⟨S524288x1, .i1⟩
  | 1 => ⟨S1x1, .i32⟩
  | 2 => ⟨S524288x1, .i32⟩
  | 3 => ⟨S524288x1, .i1⟩
  | 4 => ⟨S524288x1, .i1⟩
  | 5 => ⟨S_, .i1⟩
  | 6 => ⟨S524288, .i1⟩
  | 7 => ⟨S524288x128, .f32⟩
  | 8 => ⟨S524288x128, .i1⟩
  | 9 => ⟨S_, .f32⟩
  | 10 => ⟨S524288x128, .f32⟩
  | 11 => ⟨S524288x128, .f32⟩
  | 12 => ⟨S524288x128, .f32⟩
  | 13 => ⟨S_, .f32⟩
  | 14 => ⟨S524288x128, .f32⟩
  | 15 => ⟨S524288x128, .f32⟩
  | 16 => ⟨S_, .f32⟩
  | 17 => ⟨S65536x128, .f32⟩
  | 18 => ⟨S524288x1, .i32⟩
  | 19 => ⟨S65536x128, .f32⟩
  | 20 => ⟨S1x128, .f32⟩
  | 21 => ⟨S1x128, .f32⟩
  | 22 => ⟨S65536x128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S65536x128, .f32⟩
  | 36 => ⟨S65536x128, .f32⟩
  | 37 => ⟨S65536x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S_, .f32⟩
  | 52 => ⟨S128, .f32⟩
  | 53 => ⟨S128, .f32⟩
  | 54 => ⟨S128, .f32⟩
  | 55 => ⟨S128, .f32⟩
  | 56 => ⟨S128, .f32⟩
  | 57 => ⟨S128, .f32⟩
  | 58 => ⟨S1x128, .f32⟩
  | 59 => ⟨S1x128, .f32⟩
  | 60 => ⟨S65536x128, .f32⟩
  | 61 => ⟨S_, .i32⟩
  | 62 => ⟨S524288, .i32⟩
  | 63 => ⟨S524288, .i1⟩
  | 64 => ⟨S_, .i32⟩
  | 65 => ⟨S524288, .i32⟩
  | 66 => ⟨S524288, .i32⟩
  | 67 => ⟨S524288, .i32⟩
  | 68 => ⟨S524288x1, .i32⟩
  | 69 => ⟨S1, .i32⟩
  | 70 => ⟨S_, .i32⟩
  | 71 => ⟨S524288x1, .i32⟩
  | 72 => ⟨S524288x1, .i1⟩
  | 73 => ⟨S1x1, .i32⟩
  | 74 => ⟨S524288x1, .i32⟩
  | 75 => ⟨S524288x1, .i1⟩
  | 76 => ⟨S524288x1, .i1⟩
  | 77 => ⟨S_, .i1⟩
  | 78 => ⟨S524288, .i1⟩
  | 79 => ⟨S524288x128, .f32⟩
  | 80 => ⟨S524288x128, .i1⟩
  | 81 => ⟨S_, .f32⟩
  | 82 => ⟨S524288x128, .f32⟩
  | 83 => ⟨S524288x128, .f32⟩
  | 84 => ⟨S524288x128, .f32⟩
  | 85 => ⟨S_, .f32⟩
  | 86 => ⟨S524288x128, .f32⟩
  | 87 => ⟨S524288x128, .f32⟩
  | 88 => ⟨S_, .f32⟩
  | 89 => ⟨S65536x128, .f32⟩
  | 90 => ⟨S524288x1, .i32⟩
  | 91 => ⟨S65536x128, .f32⟩
  | 92 => ⟨S1x128, .f32⟩
  | 93 => ⟨S1x128, .f32⟩
  | 94 => ⟨S65536x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S65536x128, .f32⟩
  | 108 => ⟨S65536x128, .f32⟩
  | 109 => ⟨S65536x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S_, .f32⟩
  | 124 => ⟨S128, .f32⟩
  | 125 => ⟨S128, .f32⟩
  | 126 => ⟨S128, .f32⟩
  | 127 => ⟨S128, .f32⟩
  | _ => ⟨S65536x64, .f32⟩

abbrev hbmTy0_2 (i : Nat) : BufTy := match i % 128 with
  | 0 => ⟨S128, .f32⟩
  | 1 => ⟨S128, .f32⟩
  | 2 => ⟨S1x128, .f32⟩
  | 3 => ⟨S1x128, .f32⟩
  | 4 => ⟨S65536x128, .f32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S524288x1, .i32⟩
  | 13 => ⟨S1, .i32⟩
  | 14 => ⟨S_, .i32⟩
  | 15 => ⟨S524288x1, .i32⟩
  | 16 => ⟨S524288x1, .i1⟩
  | 17 => ⟨S1x1, .i32⟩
  | 18 => ⟨S524288x1, .i32⟩
  | 19 => ⟨S524288x1, .i1⟩
  | 20 => ⟨S524288x1, .i1⟩
  | 21 => ⟨S_, .i1⟩
  | 22 => ⟨S524288, .i1⟩
  | 23 => ⟨S524288x128, .f32⟩
  | 24 => ⟨S524288x128, .i1⟩
  | 25 => ⟨S_, .f32⟩
  | 26 => ⟨S524288x128, .f32⟩
  | 27 => ⟨S524288x128, .f32⟩
  | 28 => ⟨S524288x128, .f32⟩
  | 29 => ⟨S_, .f32⟩
  | 30 => ⟨S524288x128, .f32⟩
  | 31 => ⟨S524288x128, .f32⟩
  | 32 => ⟨S_, .f32⟩
  | 33 => ⟨S65536x128, .f32⟩
  | 34 => ⟨S524288x1, .i32⟩
  | 35 => ⟨S65536x128, .f32⟩
  | 36 => ⟨S1x128, .f32⟩
  | 37 => ⟨S1x128, .f32⟩
  | 38 => ⟨S65536x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S65536x128, .f32⟩
  | 52 => ⟨S65536x128, .f32⟩
  | 53 => ⟨S65536x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S_, .f32⟩
  | 68 => ⟨S128, .f32⟩
  | 69 => ⟨S128, .f32⟩
  | 70 => ⟨S128, .f32⟩
  | 71 => ⟨S128, .f32⟩
  | 72 => ⟨S128, .f32⟩
  | 73 => ⟨S128, .f32⟩
  | 74 => ⟨S1x128, .f32⟩
  | 75 => ⟨S1x128, .f32⟩
  | 76 => ⟨S65536x128, .f32⟩
  | 77 => ⟨S16x64x256, .f32⟩
  | 78 => ⟨S_, .f32⟩
  | 79 => ⟨S64x256, .f32⟩
  | 80 => ⟨S64x128, .f32⟩
  | 81 => ⟨S1x128, .f32⟩
  | 82 => ⟨S64x128, .f32⟩
  | 83 => ⟨S64x128, .f32⟩
  | 84 => ⟨S_, .f32⟩
  | 85 => ⟨S64x128, .f32⟩
  | 86 => ⟨S64x128, .f32⟩
  | 87 => ⟨S64x1, .f32⟩
  | 88 => ⟨S1x1, .f32⟩
  | 89 => ⟨S64x1, .f32⟩
  | 90 => ⟨S64x1, .f32⟩
  | 91 => ⟨S64, .f32⟩
  | _ => ⟨S65536x64, .f32⟩

abbrev hbmTy (i : Nat) : BufTy := match i / 128 with
  | 0 => hbmTy0_0 i
  | 1 => hbmTy0_1 i
  | 2 => hbmTy0_2 i
  | _ => ⟨S65536x64, .f32⟩

abbrev bufTy : (tb : Table) → Fin (tcTables nBuf tb) → BufTy
  | .hbm, ⟨i, _⟩ => hbmTy i
  | .local _ .vmem, ⟨0, _⟩ => ⟨S8192x64, .f32⟩
  | .local _ .vmem, ⟨1, _⟩ => ⟨S8192x64, .f32⟩
  | .local _ .vmem, ⟨2, _⟩ => ⟨S64x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | .local _ .vmem, ⟨6, _⟩ => ⟨S8192x32, .f32⟩
  | .local _ .vmem, ⟨7, _⟩ => ⟨S8192x32, .f32⟩
  | .local _ .vmem, ⟨8, _⟩ => ⟨S32x128, .f32⟩
  | .local _ .vmem, ⟨9, _⟩ => ⟨S1x128, .f32⟩
  | .local _ .vmem, ⟨10, _⟩ => ⟨S8192x128, .f32⟩
  | .local _ .vmem, ⟨11, _⟩ => ⟨S8192x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S4096x128, .f32⟩
  | .local _ .vmem, ⟨21, _⟩ => ⟨S4096x128, .f32⟩
  | .local _ .vmem, ⟨22, _⟩ => ⟨S8192x128, .f32⟩
  | .local _ .vmem, ⟨23, _⟩ => ⟨S8192x128, .f32⟩
  | .local _ .vmem, ⟨24, _⟩ => ⟨S1x128, .f32⟩
  | .local _ .vmem, ⟨25, _⟩ => ⟨S1x128, .f32⟩
  | .local _ .vmem, ⟨26, _⟩ => ⟨S8192x128, .f32⟩
  | .local _ .vmem, ⟨27, _⟩ => ⟨S8192x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S4096x128, .f32⟩
  | .local _ .vmem, ⟨37, _⟩ => ⟨S4096x128, .f32⟩
  | .local _ .vmem, ⟨38, _⟩ => ⟨S8192x128, .f32⟩
  | .local _ .vmem, ⟨39, _⟩ => ⟨S8192x128, .f32⟩
  | .local _ .vmem, ⟨40, _⟩ => ⟨S1x128, .f32⟩
  | .local _ .vmem, ⟨41, _⟩ => ⟨S1x128, .f32⟩
  | .local _ .vmem, ⟨42, _⟩ => ⟨S8192x128, .f32⟩
  | .local _ .vmem, ⟨43, _⟩ => ⟨S8192x128, .f32⟩
  | .local _ .vmem, ⟨44, _⟩ => ⟨S4096x128, .f32⟩
  | .local _ .vmem, ⟨45, _⟩ => ⟨S4096x128, .f32⟩
  | .local _ .vmem, ⟨46, _⟩ => ⟨S4096x128, .f32⟩
  | .local _ .vmem, ⟨47, _⟩ => ⟨S4096x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S4096x128, .f32⟩
  | .local _ .vmem, ⟨53, _⟩ => ⟨S4096x128, .f32⟩
  | .local _ .vmem, ⟨54, _⟩ => ⟨S8192x128, .f32⟩
  | .local _ .vmem, ⟨55, _⟩ => ⟨S8192x128, .f32⟩
  | .local _ .vmem, ⟨56, _⟩ => ⟨S1x128, .f32⟩
  | .local _ .vmem, ⟨57, _⟩ => ⟨S1x128, .f32⟩
  | .local _ .vmem, ⟨58, _⟩ => ⟨S8192x128, .f32⟩
  | .local _ .vmem, ⟨59, _⟩ => ⟨S8192x128, .f32⟩
  | .local _ .vmem, ⟨60, _⟩ => ⟨S4096x128, .f32⟩
  | .local _ .vmem, ⟨61, _⟩ => ⟨S4096x128, .f32⟩
  | .local _ .vmem, ⟨62, _⟩ => ⟨S4096x128, .f32⟩
  | .local _ .vmem, ⟨63, _⟩ => ⟨S4096x128, .f32⟩
  | .local _ .vmem, ⟨64, _⟩ => ⟨S128x128, .f32⟩
  | .local _ .vmem, ⟨65, _⟩ => ⟨S1x128, .f32⟩
  | .local _ .vmem, ⟨66, _⟩ => ⟨S128x128, .f32⟩
  | .local _ .vmem, ⟨67, _⟩ => ⟨S1x128, .f32⟩
  | .local _ .vmem, ⟨68, _⟩ => ⟨S4096x128, .f32⟩
  | .local _ .vmem, ⟨69, _⟩ => ⟨S4096x128, .f32⟩
  | .local _ .vmem, ⟨70, _⟩ => ⟨S8192x128, .f32⟩
  | .local _ .vmem, ⟨71, _⟩ => ⟨S8192x128, .f32⟩
  | .local _ .vmem, ⟨72, _⟩ => ⟨S1x128, .f32⟩
  | .local _ .vmem, ⟨73, _⟩ => ⟨S1x128, .f32⟩
  | .local _ .vmem, ⟨74, _⟩ => ⟨S8192x128, .f32⟩
  | .local _ .vmem, ⟨75, _⟩ => ⟨S8192x128, .f32⟩
  | .local _ .vmem, ⟨76, _⟩ => ⟨S4096x128, .f32⟩
  | .local _ .vmem, ⟨77, _⟩ => ⟨S4096x128, .f32⟩
  | .local _ .vmem, ⟨78, _⟩ => ⟨S4096x128, .f32⟩
  | .local _ .vmem, ⟨79, _⟩ => ⟨S4096x128, .f32⟩
  | .local _ .vmem, ⟨80, _⟩ => ⟨S1x4096, .i32⟩
  | .local _ .vmem, ⟨81, _⟩ => ⟨S1x4096, .i32⟩
  | .local _ .vmem, ⟨82, _⟩ => ⟨S1x64x256, .f32⟩
  | .local _ .vmem, ⟨83, _⟩ => ⟨S1x64x256, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v9 : Ref sig .tc := ⟨.hbm, 67, rfl⟩
abbrev main_v10 : Ref sig .tc := ⟨.hbm, 68, rfl⟩
abbrev main_call1_cst : Ref sig .tc := ⟨.hbm, 69, rfl⟩
abbrev main_call1_v0 : Ref sig .tc := ⟨.hbm, 70, rfl⟩
abbrev main_v11 : Ref sig .tc := ⟨.hbm, 71, rfl⟩
abbrev main_cst : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_cst_0 : Ref sig .tc := ⟨.hbm, 79, rfl⟩
abbrev main_v18 : Ref sig .tc := ⟨.hbm, 80, rfl⟩
abbrev main_cst_1 : Ref sig .tc := ⟨.hbm, 81, rfl⟩
abbrev main_v19 : Ref sig .tc := ⟨.hbm, 82, rfl⟩
abbrev main_v20 : Ref sig .tc := ⟨.hbm, 83, rfl⟩
abbrev main_c : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_cst_1 : Ref sig .tc := ⟨.hbm, 95, rfl⟩
abbrev main_call2_v8 : Ref sig .tc := ⟨.hbm, 96, rfl⟩
abbrev main_call2_cst_2 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_cst_3 : Ref sig .tc := ⟨.hbm, 101, rfl⟩
abbrev main_call2_v12 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v21 : Ref sig .tc := ⟨.hbm, 106, rfl⟩
abbrev main_cst_2 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_call3_cst : Ref sig .tc := ⟨.hbm, 137, rfl⟩
abbrev main_call3_v15 : Ref sig .tc := ⟨.hbm, 138, rfl⟩
abbrev main_v31 : Ref sig .tc := ⟨.hbm, 139, rfl⟩
abbrev main_v32 : Ref sig .tc := ⟨.hbm, 140, rfl⟩
abbrev main_call4_cst : Ref sig .tc := ⟨.hbm, 141, rfl⟩
abbrev main_call4_v0 : Ref sig .tc := ⟨.hbm, 142, rfl⟩
abbrev main_v33 : Ref sig .tc := ⟨.hbm, 143, rfl⟩
abbrev main_cst_3 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_cst_4 : Ref sig .tc := ⟨.hbm, 151, rfl⟩
abbrev main_v40 : Ref sig .tc := ⟨.hbm, 152, rfl⟩
abbrev main_cst_5 : Ref sig .tc := ⟨.hbm, 153, rfl⟩
abbrev main_v41 : Ref sig .tc := ⟨.hbm, 154, rfl⟩
abbrev main_v42 : Ref sig .tc := ⟨.hbm, 155, rfl⟩
abbrev main_c_6 : Ref sig .tc := ⟨.hbm, 156, rfl⟩
abbrev main_call5_cst : Ref sig .tc := ⟨.hbm, 157, rfl⟩
abbrev main_call5_v0 : Ref sig .tc := ⟨.hbm, 158, rfl⟩
abbrev main_call5_v1 : Ref sig .tc := ⟨.hbm, 159, rfl⟩
abbrev main_call5_cst_0 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_v6 : Ref sig .tc := ⟨.hbm, 165, rfl⟩
abbrev main_call5_v7 : Ref sig .tc := ⟨.hbm, 166, rfl⟩
abbrev main_call5_cst_1 : Ref sig .tc := ⟨.hbm, 167, rfl⟩
abbrev main_call5_v8 : Ref sig .tc := ⟨.hbm, 168, rfl⟩
abbrev main_call5_cst_2 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_cst_3 : Ref sig .tc := ⟨.hbm, 173, rfl⟩
abbrev main_call5_v12 : Ref sig .tc := ⟨.hbm, 174, rfl⟩
abbrev main_call5_cst_4 : Ref sig .tc := ⟨.hbm, 175, rfl⟩
abbrev main_call5_call0_v0 : Ref sig .tc := ⟨.hbm, 176, rfl⟩
abbrev main_call5_call0_v1 : Ref sig .tc := ⟨.hbm, 177, rfl⟩
abbrev main_v43 : Ref sig .tc := ⟨.hbm, 178, rfl⟩
abbrev main_cst_7 : Ref sig .tc := ⟨.hbm, 179, rfl⟩
abbrev main_v44 : Ref sig .tc := ⟨.hbm, 180, rfl⟩
abbrev main_v45 : Ref sig .tc := ⟨.hbm, 181, rfl⟩
abbrev main_v46 : Ref sig .tc := ⟨.hbm, 182, rfl⟩
abbrev main_v47 : Ref sig .tc := ⟨.hbm, 183, rfl⟩
abbrev main_v48 : Ref sig .tc := ⟨.hbm, 184, rfl⟩
abbrev main_v49 : Ref sig .tc := ⟨.hbm, 185, rfl⟩
abbrev main_v50 : Ref sig .tc := ⟨.hbm, 186, rfl⟩
abbrev main_v51 : Ref sig .tc := ⟨.hbm, 187, rfl⟩
abbrev main_v52 : Ref sig .tc := ⟨.hbm, 188, rfl⟩
abbrev main_call6_c : Ref sig .tc := ⟨.hbm, 189, rfl⟩
abbrev main_call6_v0 : Ref sig .tc := ⟨.hbm, 190, rfl⟩
abbrev main_call6_v1 : Ref sig .tc := ⟨.hbm, 191, rfl⟩
abbrev main_call6_c_0 : Ref sig .tc := ⟨.hbm, 192, rfl⟩
abbrev main_call6_v2 : Ref sig .tc := ⟨.hbm, 193, rfl⟩
abbrev main_call6_v3 : Ref sig .tc := ⟨.hbm, 194, rfl⟩
abbrev main_call6_v4 : Ref sig .tc := ⟨.hbm, 195, rfl⟩
abbrev main_call6_v5 : Ref sig .tc := ⟨.hbm, 196, rfl⟩
abbrev main_call6_c_1 : Ref sig .tc := ⟨.hbm, 197, rfl⟩
abbrev main_call6_c_2 : Ref sig .tc := ⟨.hbm, 198, rfl⟩
abbrev main_call6_v6 : Ref sig .tc := ⟨.hbm, 199, rfl⟩
abbrev main_call6_v7 : Ref sig .tc := ⟨.hbm, 200, rfl⟩
abbrev main_call6_v8 : Ref sig .tc := ⟨.hbm, 201, rfl⟩
abbrev main_call6_v9 : Ref sig .tc := ⟨.hbm, 202, rfl⟩
abbrev main_call6_v10 : Ref sig .tc := ⟨.hbm, 203, rfl⟩
abbrev main_call6_v11 : Ref sig .tc := ⟨.hbm, 204, rfl⟩
abbrev main_call6_c_3 : Ref sig .tc := ⟨.hbm, 205, rfl⟩
abbrev main_call6_v12 : Ref sig .tc := ⟨.hbm, 206, rfl⟩
abbrev main_call6_v13 : Ref sig .tc := ⟨.hbm, 207, rfl⟩
abbrev main_call6_v14 : Ref sig .tc := ⟨.hbm, 208, rfl⟩
abbrev main_call6_cst : Ref sig .tc := ⟨.hbm, 209, rfl⟩
abbrev main_call6_v15 : Ref sig .tc := ⟨.hbm, 210, rfl⟩
abbrev main_v53 : Ref sig .tc := ⟨.hbm, 211, rfl⟩
abbrev main_v54 : Ref sig .tc := ⟨.hbm, 212, rfl⟩
abbrev main_call7_cst : Ref sig .tc := ⟨.hbm, 213, rfl⟩
abbrev main_call7_v0 : Ref sig .tc := ⟨.hbm, 214, rfl⟩
abbrev main_v55 : Ref sig .tc := ⟨.hbm, 215, rfl⟩
abbrev main_cst_8 : Ref sig .tc := ⟨.hbm, 216, rfl⟩
abbrev main_v56 : Ref sig .tc := ⟨.hbm, 217, rfl⟩
abbrev main_v57 : Ref sig .tc := ⟨.hbm, 218, rfl⟩
abbrev main_v58 : Ref sig .tc := ⟨.hbm, 219, rfl⟩
abbrev main_v59 : Ref sig .tc := ⟨.hbm, 220, rfl⟩
abbrev main_v60 : Ref sig .tc := ⟨.hbm, 221, rfl⟩
abbrev main_v61 : Ref sig .tc := ⟨.hbm, 222, rfl⟩
abbrev main_cst_9 : Ref sig .tc := ⟨.hbm, 223, rfl⟩
abbrev main_v62 : Ref sig .tc := ⟨.hbm, 224, rfl⟩
abbrev main_cst_10 : Ref sig .tc := ⟨.hbm, 225, rfl⟩
abbrev main_v63 : Ref sig .tc := ⟨.hbm, 226, rfl⟩
abbrev main_v64 : Ref sig .tc := ⟨.hbm, 227, rfl⟩
abbrev main_c_11 : Ref sig .tc := ⟨.hbm, 228, rfl⟩
abbrev main_call8_cst : Ref sig .tc := ⟨.hbm, 229, rfl⟩
abbrev main_call8_v0 : Ref sig .tc := ⟨.hbm, 230, rfl⟩
abbrev main_call8_v1 : Ref sig .tc := ⟨.hbm, 231, rfl⟩
abbrev main_call8_cst_0 : Ref sig .tc := ⟨.hbm, 232, rfl⟩
abbrev main_call8_v2 : Ref sig .tc := ⟨.hbm, 233, rfl⟩
abbrev main_call8_v3 : Ref sig .tc := ⟨.hbm, 234, rfl⟩
abbrev main_call8_v4 : Ref sig .tc := ⟨.hbm, 235, rfl⟩
abbrev main_call8_v5 : Ref sig .tc := ⟨.hbm, 236, rfl⟩
abbrev main_call8_v6 : Ref sig .tc := ⟨.hbm, 237, rfl⟩
abbrev main_call8_v7 : Ref sig .tc := ⟨.hbm, 238, rfl⟩
abbrev main_call8_cst_1 : Ref sig .tc := ⟨.hbm, 239, rfl⟩
abbrev main_call8_v8 : Ref sig .tc := ⟨.hbm, 240, rfl⟩
abbrev main_call8_cst_2 : Ref sig .tc := ⟨.hbm, 241, rfl⟩
abbrev main_call8_v9 : Ref sig .tc := ⟨.hbm, 242, rfl⟩
abbrev main_call8_v10 : Ref sig .tc := ⟨.hbm, 243, rfl⟩
abbrev main_call8_v11 : Ref sig .tc := ⟨.hbm, 244, rfl⟩
abbrev main_call8_cst_3 : Ref sig .tc := ⟨.hbm, 245, rfl⟩
abbrev main_call8_v12 : Ref sig .tc := ⟨.hbm, 246, rfl⟩
abbrev main_call8_cst_4 : Ref sig .tc := ⟨.hbm, 247, rfl⟩
abbrev main_call8_call0_v0 : Ref sig .tc := ⟨.hbm, 248, rfl⟩
abbrev main_call8_call0_v1 : Ref sig .tc := ⟨.hbm, 249, rfl⟩
abbrev main_v65 : Ref sig .tc := ⟨.hbm, 250, rfl⟩
abbrev main_cst_12 : Ref sig .tc := ⟨.hbm, 251, rfl⟩
abbrev main_v66 : Ref sig .tc := ⟨.hbm, 252, rfl⟩
abbrev main_v67 : Ref sig .tc := ⟨.hbm, 253, rfl⟩
abbrev main_v68 : Ref sig .tc := ⟨.hbm, 254, rfl⟩
abbrev main_v69 : Ref sig .tc := ⟨.hbm, 255, rfl⟩
abbrev main_v70 : Ref sig .tc := ⟨.hbm, 256, rfl⟩
abbrev main_v71 : Ref sig .tc := ⟨.hbm, 257, rfl⟩
abbrev main_v72 : Ref sig .tc := ⟨.hbm, 258, rfl⟩
abbrev main_v73 : Ref sig .tc := ⟨.hbm, 259, rfl⟩
abbrev main_v74 : Ref sig .tc := ⟨.hbm, 260, rfl⟩
abbrev main_call9_c : Ref sig .tc := ⟨.hbm, 261, rfl⟩
abbrev main_call9_v0 : Ref sig .tc := ⟨.hbm, 262, rfl⟩
abbrev main_call9_v1 : Ref sig .tc := ⟨.hbm, 263, rfl⟩
abbrev main_call9_c_0 : Ref sig .tc := ⟨.hbm, 264, rfl⟩
abbrev main_call9_v2 : Ref sig .tc := ⟨.hbm, 265, rfl⟩
abbrev main_call9_v3 : Ref sig .tc := ⟨.hbm, 266, rfl⟩
abbrev main_call9_v4 : Ref sig .tc := ⟨.hbm, 267, rfl⟩
abbrev main_call9_v5 : Ref sig .tc := ⟨.hbm, 268, rfl⟩
abbrev main_call9_c_1 : Ref sig .tc := ⟨.hbm, 269, rfl⟩
abbrev main_call9_c_2 : Ref sig .tc := ⟨.hbm, 270, rfl⟩
abbrev main_call9_v6 : Ref sig .tc := ⟨.hbm, 271, rfl⟩
abbrev main_call9_v7 : Ref sig .tc := ⟨.hbm, 272, rfl⟩
abbrev main_call9_v8 : Ref sig .tc := ⟨.hbm, 273, rfl⟩
abbrev main_call9_v9 : Ref sig .tc := ⟨.hbm, 274, rfl⟩
abbrev main_call9_v10 : Ref sig .tc := ⟨.hbm, 275, rfl⟩
abbrev main_call9_v11 : Ref sig .tc := ⟨.hbm, 276, rfl⟩
abbrev main_call9_c_3 : Ref sig .tc := ⟨.hbm, 277, rfl⟩
abbrev main_call9_v12 : Ref sig .tc := ⟨.hbm, 278, rfl⟩
abbrev main_call9_v13 : Ref sig .tc := ⟨.hbm, 279, rfl⟩
abbrev main_call9_v14 : Ref sig .tc := ⟨.hbm, 280, rfl⟩
abbrev main_call9_cst : Ref sig .tc := ⟨.hbm, 281, rfl⟩
abbrev main_call9_v15 : Ref sig .tc := ⟨.hbm, 282, rfl⟩
abbrev main_v75 : Ref sig .tc := ⟨.hbm, 283, rfl⟩
abbrev main_v76 : Ref sig .tc := ⟨.hbm, 284, rfl⟩
abbrev main_call10_cst : Ref sig .tc := ⟨.hbm, 285, rfl⟩
abbrev main_call10_v0 : Ref sig .tc := ⟨.hbm, 286, rfl⟩
abbrev main_v77 : Ref sig .tc := ⟨.hbm, 287, rfl⟩
abbrev main_cst_13 : Ref sig .tc := ⟨.hbm, 288, rfl⟩
abbrev main_v78 : Ref sig .tc := ⟨.hbm, 289, rfl⟩
abbrev main_v79 : Ref sig .tc := ⟨.hbm, 290, rfl⟩
abbrev main_v80 : Ref sig .tc := ⟨.hbm, 291, rfl⟩
abbrev main_v81 : Ref sig .tc := ⟨.hbm, 292, rfl⟩
abbrev main_v82 : Ref sig .tc := ⟨.hbm, 293, rfl⟩
abbrev main_v83 : Ref sig .tc := ⟨.hbm, 294, rfl⟩
abbrev main_cst_14 : Ref sig .tc := ⟨.hbm, 295, rfl⟩
abbrev main_v84 : Ref sig .tc := ⟨.hbm, 296, rfl⟩
abbrev main_cst_15 : Ref sig .tc := ⟨.hbm, 297, rfl⟩
abbrev main_v85 : Ref sig .tc := ⟨.hbm, 298, rfl⟩
abbrev main_v86 : Ref sig .tc := ⟨.hbm, 299, rfl⟩
abbrev main_c_16 : Ref sig .tc := ⟨.hbm, 300, rfl⟩
abbrev main_call11_cst : Ref sig .tc := ⟨.hbm, 301, rfl⟩
abbrev main_call11_v0 : Ref sig .tc := ⟨.hbm, 302, rfl⟩
abbrev main_call11_v1 : Ref sig .tc := ⟨.hbm, 303, rfl⟩
abbrev main_call11_cst_0 : Ref sig .tc := ⟨.hbm, 304, rfl⟩
abbrev main_call11_v2 : Ref sig .tc := ⟨.hbm, 305, rfl⟩
abbrev main_call11_v3 : Ref sig .tc := ⟨.hbm, 306, rfl⟩
abbrev main_call11_v4 : Ref sig .tc := ⟨.hbm, 307, rfl⟩
abbrev main_call11_v5 : Ref sig .tc := ⟨.hbm, 308, rfl⟩
abbrev main_call11_v6 : Ref sig .tc := ⟨.hbm, 309, rfl⟩
abbrev main_call11_v7 : Ref sig .tc := ⟨.hbm, 310, rfl⟩
abbrev main_call11_cst_1 : Ref sig .tc := ⟨.hbm, 311, rfl⟩
abbrev main_call11_v8 : Ref sig .tc := ⟨.hbm, 312, rfl⟩
abbrev main_call11_cst_2 : Ref sig .tc := ⟨.hbm, 313, rfl⟩
abbrev main_call11_v9 : Ref sig .tc := ⟨.hbm, 314, rfl⟩
abbrev main_call11_v10 : Ref sig .tc := ⟨.hbm, 315, rfl⟩
abbrev main_call11_v11 : Ref sig .tc := ⟨.hbm, 316, rfl⟩
abbrev main_call11_cst_3 : Ref sig .tc := ⟨.hbm, 317, rfl⟩
abbrev main_call11_v12 : Ref sig .tc := ⟨.hbm, 318, rfl⟩
abbrev main_call11_cst_4 : Ref sig .tc := ⟨.hbm, 319, rfl⟩
abbrev main_call11_call0_v0 : Ref sig .tc := ⟨.hbm, 320, rfl⟩
abbrev main_call11_call0_v1 : Ref sig .tc := ⟨.hbm, 321, rfl⟩
abbrev main_v87 : Ref sig .tc := ⟨.hbm, 322, rfl⟩
abbrev main_cst_17 : Ref sig .tc := ⟨.hbm, 323, rfl⟩
abbrev main_v88 : Ref sig .tc := ⟨.hbm, 324, rfl⟩
abbrev main_v89 : Ref sig .tc := ⟨.hbm, 325, rfl⟩
abbrev main_v90 : Ref sig .tc := ⟨.hbm, 326, rfl⟩
abbrev main_v91 : Ref sig .tc := ⟨.hbm, 327, rfl⟩
abbrev main_v92 : Ref sig .tc := ⟨.hbm, 328, rfl⟩
abbrev main_v93 : Ref sig .tc := ⟨.hbm, 329, rfl⟩
abbrev main_v94 : Ref sig .tc := ⟨.hbm, 330, rfl⟩
abbrev main_v95 : Ref sig .tc := ⟨.hbm, 331, rfl⟩
abbrev main_v96 : Ref sig .tc := ⟨.hbm, 332, rfl⟩
abbrev main_v97 : Ref sig .tc := ⟨.hbm, 333, rfl⟩
abbrev main_cst_18 : Ref sig .tc := ⟨.hbm, 334, rfl⟩
abbrev main_v98 : Ref sig .tc := ⟨.hbm, 335, rfl⟩
abbrev main_v99 : Ref sig .tc := ⟨.hbm, 336, rfl⟩
abbrev main_v100 : Ref sig .tc := ⟨.hbm, 337, rfl⟩
abbrev main_v101 : Ref sig .tc := ⟨.hbm, 338, rfl⟩
abbrev main_v102 : Ref sig .tc := ⟨.hbm, 339, rfl⟩
abbrev main_call12_cst : Ref sig .tc := ⟨.hbm, 340, rfl⟩
abbrev main_call12_v0 : Ref sig .tc := ⟨.hbm, 341, rfl⟩
abbrev main_v103 : Ref sig .tc := ⟨.hbm, 342, rfl⟩
abbrev main_v104 : Ref sig .tc := ⟨.hbm, 343, rfl⟩
abbrev main_v105 : Ref sig .tc := ⟨.hbm, 344, rfl⟩
abbrev main_v106 : Ref sig .tc := ⟨.hbm, 345, rfl⟩
abbrev main_v107 : Ref sig .tc := ⟨.hbm, 346, rfl⟩
abbrev main_v108 : Ref sig .tc := ⟨.hbm, 347, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg4_0 : Ref sig .tc := ⟨.vmem, 66, rfl⟩
abbrev cc8_stg5_0 : Ref sig .tc := ⟨.vmem, 67, rfl⟩
abbrev cc8_stg6_0 : Ref sig .tc := ⟨.vmem, 68, rfl⟩
abbrev cc8_stg6_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg2_0 : Ref sig .tc := ⟨.vmem, 73, rfl⟩
abbrev cc9_stg3_0 : Ref sig .tc := ⟨.vmem, 74, rfl⟩
abbrev cc9_stg3_1 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg1_1 : Ref sig .tc := ⟨.vmem, 79, rfl⟩
abbrev cc10_stg2_0 : Ref sig .tc := ⟨.vmem, 80, rfl⟩
abbrev cc10_stg2_1 : Ref sig .tc := ⟨.vmem, 81, rfl⟩
abbrev cc10_stg3_0 : Ref sig .tc := ⟨.vmem, 82, rfl⟩
abbrev cc10_stg3_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem3_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem3_0 : DmaSem sig := 65
abbrev cc8_sem4_0 : DmaSem sig := 66
abbrev cc8_sem5_0 : DmaSem sig := 67
abbrev cc8_sem6_0 : DmaSem sig := 68
abbrev cc8_sem6_1 : DmaSem sig := 69
abbrev cc9_sem0_0 : DmaSem sig := 70
abbrev cc9_sem0_1 : DmaSem sig := 71
abbrev cc9_sem1_0 : DmaSem sig := 72
abbrev cc9_sem2_0 : DmaSem sig := 73
abbrev cc9_sem3_0 : DmaSem sig := 74
abbrev cc9_sem3_1 : DmaSem sig := 75
abbrev cc10_sem0_0 : DmaSem sig := 76
abbrev cc10_sem0_1 : DmaSem sig := 77
abbrev cc10_sem1_0 : DmaSem sig := 78
abbrev cc10_sem1_1 : DmaSem sig := 79
abbrev cc10_sem2_0 : DmaSem sig := 80
abbrev cc10_sem2_1 : DmaSem sig := 81
abbrev cc10_sem3_0 : DmaSem sig := 82
abbrev cc10_sem3_1 : DmaSem sig := 83

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4096x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4096x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8192x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S4096x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S8192x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4096x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S4096x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S8192x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![16], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_3 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S4096x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4096x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1x4096 .i32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S1x64x256 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  shapeCasts_S65536_S1x65536 : S65536.ShapeCasts S1x65536
  shapeCasts_S128_S1x128 : S128.ShapeCasts S1x128
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  inb_S8192x32_S8192x32_0_0 : ∀ a, (![0, 0] : Fin 2 → Nat) a + S8192x32.size a ≤ S8192x32.size a
  h_S8192x32 : 0 < S8192x32.numel
  inb_S32x128_S32x128_0_0 : ∀ a, (![0, 0] : Fin 2 → Nat) a + S32x128.size a ≤ S32x128.size a
  h_S32x128 : 0 < S32x128.numel
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x128_0 : S524288.BroadcastsInDim S524288x128 (![0] : Fin 1 → Fin S524288x128.rank)
  bcast_S_S524288x128 : S_.BroadcastsInDim S524288x128 (![] : Fin 0 → Fin S524288x128.rank)
  bcast_S_S65536x128 : S_.BroadcastsInDim S65536x128 (![] : Fin 0 → Fin S65536x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  broadcasts_S1x128_S4096x128 : S1x128.Broadcasts S4096x128
  reducesTo_S65536x128_S128_d0 : S65536x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S65536x128_0_1 : S1x128.BroadcastsInDim S65536x128 (![0, 1] : Fin 2 → Fin S65536x128.rank)
  shapeCasts_S8192x128_S8192x128 : S8192x128.ShapeCasts S8192x128
  iota_S64x4096_d0_w32 : S64x4096.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  natLt_1_32 : 1 < 32
  concatenates_S64x128_S64x128_S64x256_d1 : Shape.Concatenates [S64x128, S64x128] S64x256 1
  shapeCasts_S64x256_S1x64x256 : S64x256.ShapeCasts S1x64x256
  inb_S1x64x256_S1x64x256_0_0_0 : ∀ a, (![0, 0, 0] : Fin 3 → Nat) a + S1x64x256.size a ≤ S1x64x256.size a
  h_S1x64x256 : 0 < S1x64x256.numel
  reducesTo_S16x64x256_S64x256_d0 : S16x64x256.ReducesTo [0] S64x256
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1x1_S64x1_0_1 : S1x1.BroadcastsInDim S64x1 (![0, 1] : Fin 2 → Fin S64x1.rank)
  shapeCasts_S64x1_S64 : S64x1.ShapeCasts S64
  dot_S8192x64_S64x128_S8192x128_1_0_0_1_n_n_wf : DotDims.WF S8192x64 S64x128 S8192x128 [1] [0] [0] [1] [] []
  dot_S8192x32_S32x128_S8192x128_1_0_0_1_n_n_wf : DotDims.WF S8192x32 S32x128 S8192x128 [1] [0] [0] [1] [] []
  gather_S65536x128_S524288x1_S524288x128_1_0_n_n_0_1_1128_wf : GatherDims.WF S65536x128 S524288x1 S524288x128 [1] [0] [] [0] [] 1 ![1, 128]
  scatter_S65536x128_S524288x1_S524288x128_1_0_0_1_wf : ScatterDims.WF S65536x128 S524288x1 S524288x128 [1] [0] [0] 1
  dot_S4096x128_S128x128_S4096x128_1_0_0_1_n_n_wf : DotDims.WF S4096x128 S128x128 S4096x128 [1] [0] [0] [1] [] []
  dot_S64x4096_S4096x128_S64x128_1_0_0_1_n_n_wf : DotDims.WF S64x4096 S4096x128 S64x128 [1] [0] [0] [1] [] []
  dot_S64x256_S256x128_S64x128_1_0_0_1_n_n_wf : DotDims.WF S64x256 S256x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S65536x64.size a
  hwx0_0 : ∀ i : grid0.Coords, EltTy.bits .f32 = 32 ∨ (Rect.block (s := S65536x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S65536x128.size a
  hwx0_3 : ∀ i : grid0.Coords, EltTy.bits .f32 = 32 ∨ (Rect.block (s := S65536x128) S8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S524288x32.size a
  hwx1_0 : ∀ i : grid1.Coords, EltTy.bits .f32 = 32 ∨ (Rect.block (s := S524288x32) S8192x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S524288x128.size a
  hwx1_3 : ∀ i : grid1.Coords, EltTy.bits .f32 = 32 ∨ (Rect.block (s := S524288x128) S8192x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S65536x128.size a
  hwx2_0 : ∀ i : grid2.Coords, EltTy.bits .f32 = 32 ∨ (Rect.block (s := S65536x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S65536x128.size a
  hwx2_1 : ∀ i : grid2.Coords, EltTy.bits .f32 = 32 ∨ (Rect.block (s := S65536x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4096x128.size a ≤ S65536x128.size a
  hwx2_6 : ∀ i : grid2.Coords, EltTy.bits .f32 = 32 ∨ (Rect.block (s := S65536x128) S4096x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S65536x128.size a
  hwx3_0 : ∀ i : grid3.Coords, EltTy.bits .f32 = 32 ∨ (Rect.block (s := S65536x128) S8192x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x128.size a ≤ S65536x128.size a
  hwx3_3 : ∀ i : grid3.Coords, EltTy.bits .f32 = 32 ∨ (Rect.block (s := S65536x128) S8192x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S65536x128.size a
  hwx4_0 : ∀ i : grid4.Coords, EltTy.bits .f32 = 32 ∨ (Rect.block (s := S65536x128) S4096x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S65536x128.size a
  hwx4_1 : ∀ i : grid4.Coords, EltTy.bits .f32 = 32 ∨ (Rect.block (s := S65536x128) S4096x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4096x128.size a ≤ S65536x128.size a
  hwx4_6 : ∀ i : grid4.Coords, EltTy.bits .f32 = 32 ∨ (Rect.block (s := S65536x128) S4096x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x128.size a ≤ S65536x128.size a
  hwx5_0 : ∀ i : grid5.Coords, EltTy.bits .f32 = 32 ∨ (Rect.block (s := S65536x128) S8192x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8192x128.size a ≤ S65536x128.size a
  hwx5_3 : ∀ i : grid5.Coords, EltTy.bits .f32 = 32 ∨ (Rect.block (s := S65536x128) S8192x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S65536x128.size a
  hwx6_0 : ∀ i : grid6.Coords, EltTy.bits .f32 = 32 ∨ (Rect.block (s := S65536x128) S4096x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S65536x128.size a
  hwx6_1 : ∀ i : grid6.Coords, EltTy.bits .f32 = 32 ∨ (Rect.block (s := S65536x128) S4096x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4096x128.size a ≤ S65536x128.size a
  hwx6_6 : ∀ i : grid6.Coords, EltTy.bits .f32 = 32 ∨ (Rect.block (s := S65536x128) S4096x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x128.size a ≤ S65536x128.size a
  hwx7_0 : ∀ i : grid7.Coords, EltTy.bits .f32 = 32 ∨ (Rect.block (s := S65536x128) S8192x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8192x128.size a ≤ S65536x128.size a
  hwx7_3 : ∀ i : grid7.Coords, EltTy.bits .f32 = 32 ∨ (Rect.block (s := S65536x128) S8192x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x128.size a ≤ S65536x128.size a
  hwx8_0 : ∀ i : grid8.Coords, EltTy.bits .f32 = 32 ∨ (Rect.block (s := S65536x128) S4096x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x128.size a ≤ S65536x128.size a
  hwx8_1 : ∀ i : grid8.Coords, EltTy.bits .f32 = 32 ∨ (Rect.block (s := S65536x128) S4096x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S4096x128.size a ≤ S65536x128.size a
  hwx8_6 : ∀ i : grid8.Coords, EltTy.bits .f32 = 32 ∨ (Rect.block (s := S65536x128) S4096x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x128.size a ≤ S65536x128.size a
  hwx9_0 : ∀ i : grid9.Coords, EltTy.bits .f32 = 32 ∨ (Rect.block (s := S65536x128) S8192x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S8192x128.size a ≤ S65536x128.size a
  hwx9_3 : ∀ i : grid9.Coords, EltTy.bits .f32 = 32 ∨ (Rect.block (s := S65536x128) S8192x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096x128.size a ≤ S65536x128.size a
  hwx10_0 : ∀ i : grid10.Coords, EltTy.bits .f32 = 32 ∨ (Rect.block (s := S65536x128) S4096x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4096x128.size a ≤ S65536x128.size a
  hwx10_1 : ∀ i : grid10.Coords, EltTy.bits .f32 = 32 ∨ (Rect.block (s := S65536x128) S4096x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x4096.size a ≤ S1x65536.size a
  hwx10_2 : ∀ i : grid10.Coords, EltTy.bits .i32 = 32 ∨ (Rect.block (s := S1x65536) S1x4096.size (cc10_transform_2 i) (hinb10_2 i)).WholeWords (EltTy.packing .i32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1x64x256.size a ≤ S16x64x256.size a
  hwx10_3 : ∀ i : grid10.Coords, EltTy.bits .f32 = 32 ∨ (Rect.block (s := S16x64x256) S1x64x256.size (cc10_transform_3 i) (hinb10_3 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S64x4096_S4096x128_S64x128_1_0_0_1_n_n : DotDims S64x4096 S4096x128 S64x128 where
  lhsContracting := [1]
  rhsContracting := [0]
  lhsNonContracting := [0]
  rhsNonContracting := [1]
  lhsBatch := []
  rhsBatch := []
  wf := dot_S64x4096_S4096x128_S64x128_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S4096x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v17) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S8192x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v30) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v38) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v39) S4096x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v39) S8192x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v51) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v52) S8192x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v6) S4096x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v58) S4096x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg16) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v59) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg18) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v60) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v61) S4096x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v61) S8192x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v72) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v73) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v74) S8192x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v74) S4096x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v80) S4096x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg20) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v81) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg22) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v82) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v83) S4096x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v83) S8192x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v94) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v95) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v96) S8192x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v52) S4096x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v96) S4096x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v4) S1x4096.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v97) S1x64x256.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S65536x64 : Shape := ⟨2, ![65536, 64]⟩
abbrev S524288x32 : Shape := ⟨2, ![524288, 32]⟩
abbrev S2x524288 : Shape := ⟨2, ![2, 524288]⟩
abbrev S65536 : Shape := ⟨1, ![65536]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S65536x128 : Shape := ⟨2, ![65536, 128]⟩
abbrev S1x128 : Shape := ⟨2, ![1, 128]⟩
abbrev S524288x128 : Shape := ⟨2, ![524288, 128]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S65536x256 : Shape := ⟨2, ![65536, 256]⟩
abbrev S64x256 : Shape := ⟨2, ![64, 256]⟩
abbrev S65536x1 : Shape := ⟨2, ![65536, 1]⟩
abbrev S64x1 : Shape := ⟨2, ![64, 1]⟩
abbrev S1x1 : Shape := ⟨2, ![1, 1]⟩
abbrev S64 : Shape := ⟨1, ![64]⟩

abbrev nBuf : Space → Nat
  | .hbm => 369
  | .vmem => 0
  | .smem => 0
  | _ => 0

abbrev hbmTy0_0 (i : Nat) : BufTy := match i % 128 with
  | 0 => ⟨S65536x64, .f32⟩
  | 1 => ⟨S524288x32, .f32⟩
  | 2 => ⟨S2x524288, .i32⟩
  | 3 => ⟨S65536, .i32⟩
  | 4 => ⟨S64x128, .f32⟩
  | 5 => ⟨S128, .f32⟩
  | 6 => ⟨S32x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128, .f32⟩
  | 25 => ⟨S128, .f32⟩
  | 26 => ⟨S128, .f32⟩
  | 27 => ⟨S128, .f32⟩
  | 28 => ⟨S128, .f32⟩
  | 29 => ⟨S128, .f32⟩
  | 30 => ⟨S128, .f32⟩
  | 31 => ⟨S128, .f32⟩
  | 32 => ⟨S256x128, .f32⟩
  | 33 => ⟨S128, .f32⟩
  | 34 => ⟨S128x1, .f32⟩
  | 35 => ⟨S1, .f32⟩
  | 36 => ⟨S65536x128, .f32⟩
  | 37 => ⟨S1x128, .f32⟩
  | 38 => ⟨S65536x128, .f32⟩
  | 39 => ⟨S65536x128, .f32⟩
  | 40 => ⟨S524288x128, .f32⟩
  | 41 => ⟨S1x128, .f32⟩
  | 42 => ⟨S524288x128, .f32⟩
  | 43 => ⟨S524288x128, .f32⟩
  | 44 => ⟨S1x524288, .i32⟩
  | 45 => ⟨S524288, .i32⟩
  | 46 => ⟨S1x524288, .i32⟩
  | 47 => ⟨S524288, .i32⟩
  | 48 => ⟨S_, .i32⟩
  | 49 => ⟨S524288, .i32⟩
  | 50 => ⟨S524288, .i1⟩
  | 51 => ⟨S_, .i32⟩
  | 52 => ⟨S524288, .i32⟩
  | 53 => ⟨S524288, .i32⟩
  | 54 => ⟨S524288, .i32⟩
  | 55 => ⟨S524288x1, .i32⟩
  | 56 => ⟨S524288x128, .f32⟩
  | 57 => ⟨S524288x128, .f32⟩
  | 58 => ⟨S_, .f32⟩
  | 59 => ⟨S524288x128, .f32⟩
  | 60 => ⟨S524288x128, .f32⟩
  | 61 => ⟨S_, .f32⟩
  | 62 => ⟨S65536x128, .f32⟩
  | 63 => ⟨S524288x1, .i32⟩
  | 64 => ⟨S65536x128, .f32⟩
  | 65 => ⟨S65536x128, .f32⟩
  | 66 => ⟨S65536x128, .f32⟩
  | 67 => ⟨S1x128, .f32⟩
  | 68 => ⟨S65536x128, .f32⟩
  | 69 => ⟨S65536x128, .f32⟩
  | 70 => ⟨S_, .f32⟩
  | 71 => ⟨S65536x128, .f32⟩
  | 72 => ⟨S65536x128, .f32⟩
  | 73 => ⟨S65536x128, .f32⟩
  | 74 => ⟨S1x128, .f32⟩
  | 75 => ⟨S65536x128, .f32⟩
  | 76 => ⟨S65536x128, .f32⟩
  | 77 => ⟨S_, .f32⟩
  | 78 => ⟨S128, .f32⟩
  | 79 => ⟨S_, .f32⟩
  | 80 => ⟨S128, .f32⟩
  | 81 => ⟨S128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S65536x128, .f32⟩
  | 90 => ⟨S65536x128, .f32⟩
  | 91 => ⟨S65536x128, .f32⟩
  | 92 => ⟨S_, .f32⟩
  | 93 => ⟨S_, .f32⟩
  | 94 => ⟨S_, .f32⟩
  | 95 => ⟨S_, .f32⟩
  | 96 => ⟨S128, .f32⟩
  | 97 => ⟨S128, .f32⟩
  | 98 => ⟨S128, .f32⟩
  | 99 => ⟨S_, .f32⟩
  | 100 => ⟨S_, .i1⟩
  | 101 => ⟨S_, .f32⟩
  | 102 => ⟨S_, .f32⟩
  | 103 => ⟨S128, .f32⟩
  | 104 => ⟨S128, .f32⟩
  | 105 => ⟨S1x128, .f32⟩
  | 106 => ⟨S65536x128, .f32⟩
  | 107 => ⟨S65536x128, .f32⟩
  | 108 => ⟨S_, .f32⟩
  | 109 => ⟨S128, .f32⟩
  | 110 => ⟨S128, .f32⟩
  | 111 => ⟨S128, .f32⟩
  | 112 => ⟨S1x128, .f32⟩
  | 113 => ⟨S65536x128, .f32⟩
  | 114 => ⟨S65536x128, .f32⟩
  | 115 => ⟨S1x128, .f32⟩
  | 116 => ⟨S65536x128, .f32⟩
  | 117 => ⟨S65536x128, .f32⟩
  | 118 => ⟨S1x128, .f32⟩
  | 119 => ⟨S65536x128, .f32⟩
  | 120 => ⟨S65536x128, .f32⟩
  | 121 => ⟨S_, .f32⟩
  | 122 => ⟨S65536x128, .f32⟩
  | 123 => ⟨S65536x128, .f32⟩
  | 124 => ⟨S_, .i32⟩
  | 125 => ⟨S524288, .i32⟩
  | 126 => ⟨S524288, .i1⟩
  | 127 => ⟨S_, .i32⟩
  | _ => ⟨S65536x64, .f32⟩

abbrev hbmTy0_1 (i : Nat) : BufTy := match i % 128 with
  | 0 => ⟨S524288, .i32⟩
  | 1 => ⟨S524288, .i32⟩
  | 2 => ⟨S524288, .i32⟩
  | 3 => ⟨S524288x1, .i32⟩
  | 4 => ⟨S524288x128, .f32⟩
  | 5 => ⟨S524288x128, .f32⟩
  | 6 => ⟨S_, .f32⟩
  | 7 => ⟨S524288x128, .f32⟩
  | 8 => ⟨S524288x128, .f32⟩
  | 9 => ⟨S_, .f32⟩
  | 10 => ⟨S65536x128, .f32⟩
  | 11 => ⟨S524288x1, .i32⟩
  | 12 => ⟨S65536x128, .f32⟩
  | 13 => ⟨S65536x128, .f32⟩
  | 14 => ⟨S65536x128, .f32⟩
  | 15 => ⟨S1x128, .f32⟩
  | 16 => ⟨S65536x128, .f32⟩
  | 17 => ⟨S65536x128, .f32⟩
  | 18 => ⟨S_, .f32⟩
  | 19 => ⟨S65536x128, .f32⟩
  | 20 => ⟨S65536x128, .f32⟩
  | 21 => ⟨S65536x128, .f32⟩
  | 22 => ⟨S1x128, .f32⟩
  | 23 => ⟨S65536x128, .f32⟩
  | 24 => ⟨S65536x128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S65536x128, .f32⟩
  | 38 => ⟨S65536x128, .f32⟩
  | 39 => ⟨S65536x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S65536x128, .f32⟩
  | 55 => ⟨S65536x128, .f32⟩
  | 56 => ⟨S_, .f32⟩
  | 57 => ⟨S128, .f32⟩
  | 58 => ⟨S128, .f32⟩
  | 59 => ⟨S128, .f32⟩
  | 60 => ⟨S1x128, .f32⟩
  | 61 => ⟨S65536x128, .f32⟩
  | 62 => ⟨S65536x128, .f32⟩
  | 63 => ⟨S1x128, .f32⟩
  | 64 => ⟨S65536x128, .f32⟩
  | 65 => ⟨S65536x128, .f32⟩
  | 66 => ⟨S1x128, .f32⟩
  | 67 => ⟨S65536x128, .f32⟩
  | 68 => ⟨S65536x128, .f32⟩
  | 69 => ⟨S_, .f32⟩
  | 70 => ⟨S65536x128, .f32⟩
  | 71 => ⟨S65536x128, .f32⟩
  | 72 => ⟨S_, .i32⟩
  | 73 => ⟨S524288, .i32⟩
  | 74 => ⟨S524288, .i1⟩
  | 75 => ⟨S_, .i32⟩
  | 76 => ⟨S524288, .i32⟩
  | 77 => ⟨S524288, .i32⟩
  | 78 => ⟨S524288, .i32⟩
  | 79 => ⟨S524288x1, .i32⟩
  | 80 => ⟨S524288x128, .f32⟩
  | 81 => ⟨S524288x128, .f32⟩
  | 82 => ⟨S_, .f32⟩
  | 83 => ⟨S524288x128, .f32⟩
  | 84 => ⟨S524288x128, .f32⟩
  | 85 => ⟨S_, .f32⟩
  | 86 => ⟨S65536x128, .f32⟩
  | 87 => ⟨S524288x1, .i32⟩
  | 88 => ⟨S65536x128, .f32⟩
  | 89 => ⟨S65536x128, .f32⟩
  | 90 => ⟨S65536x128, .f32⟩
  | 91 => ⟨S1x128, .f32⟩
  | 92 => ⟨S65536x128, .f32⟩
  | 93 => ⟨S65536x128, .f32⟩
  | 94 => ⟨S_, .f32⟩
  | 95 => ⟨S65536x128, .f32⟩
  | 96 => ⟨S65536x128, .f32⟩
  | 97 => ⟨S65536x128, .f32⟩
  | 98 => ⟨S1x128, .f32⟩
  | 99 => ⟨S65536x128, .f32⟩
  | 100 => ⟨S65536x128, .f32⟩
  | 101 => ⟨S_, .f32⟩
  | 102 => ⟨S128, .f32⟩
  | 103 => ⟨S_, .f32⟩
  | 104 => ⟨S128, .f32⟩
  | 105 => ⟨S128, .f32⟩
  | 106 => ⟨S_, .i32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S65536x128, .f32⟩
  | 114 => ⟨S65536x128, .f32⟩
  | 115 => ⟨S65536x128, .f32⟩
  | 116 => ⟨S_, .f32⟩
  | 117 => ⟨S_, .f32⟩
  | 118 => ⟨S_, .f32⟩
  | 119 => ⟨S_, .f32⟩
  | 120 => ⟨S128, .f32⟩
  | 121 => ⟨S128, .f32⟩
  | 122 => ⟨S128, .f32⟩
  | 123 => ⟨S_, .f32⟩
  | 124 => ⟨S_, .i1⟩
  | 125 => ⟨S_, .f32⟩
  | 126 => ⟨S_, .f32⟩
  | 127 => ⟨S128, .f32⟩
  | _ => ⟨S65536x64, .f32⟩

abbrev hbmTy0_2 (i : Nat) : BufTy := match i % 128 with
  | 0 => ⟨S128, .f32⟩
  | 1 => ⟨S1x128, .f32⟩
  | 2 => ⟨S65536x128, .f32⟩
  | 3 => ⟨S65536x128, .f32⟩
  | 4 => ⟨S_, .f32⟩
  | 5 => ⟨S128, .f32⟩
  | 6 => ⟨S128, .f32⟩
  | 7 => ⟨S128, .f32⟩
  | 8 => ⟨S1x128, .f32⟩
  | 9 => ⟨S65536x128, .f32⟩
  | 10 => ⟨S65536x128, .f32⟩
  | 11 => ⟨S1x128, .f32⟩
  | 12 => ⟨S65536x128, .f32⟩
  | 13 => ⟨S65536x128, .f32⟩
  | 14 => ⟨S1x128, .f32⟩
  | 15 => ⟨S65536x128, .f32⟩
  | 16 => ⟨S65536x128, .f32⟩
  | 17 => ⟨S_, .f32⟩
  | 18 => ⟨S65536x128, .f32⟩
  | 19 => ⟨S65536x128, .f32⟩
  | 20 => ⟨S_, .i32⟩
  | 21 => ⟨S524288, .i32⟩
  | 22 => ⟨S524288, .i1⟩
  | 23 => ⟨S_, .i32⟩
  | 24 => ⟨S524288, .i32⟩
  | 25 => ⟨S524288, .i32⟩
  | 26 => ⟨S524288, .i32⟩
  | 27 => ⟨S524288x1, .i32⟩
  | 28 => ⟨S524288x128, .f32⟩
  | 29 => ⟨S524288x128, .f32⟩
  | 30 => ⟨S_, .f32⟩
  | 31 => ⟨S524288x128, .f32⟩
  | 32 => ⟨S524288x128, .f32⟩
  | 33 => ⟨S_, .f32⟩
  | 34 => ⟨S65536x128, .f32⟩
  | 35 => ⟨S524288x1, .i32⟩
  | 36 => ⟨S65536x128, .f32⟩
  | 37 => ⟨S65536x128, .f32⟩
  | 38 => ⟨S65536x128, .f32⟩
  | 39 => ⟨S1x128, .f32⟩
  | 40 => ⟨S65536x128, .f32⟩
  | 41 => ⟨S65536x128, .f32⟩
  | 42 => ⟨S_, .f32⟩
  | 43 => ⟨S65536x128, .f32⟩
  | 44 => ⟨S65536x128, .f32⟩
  | 45 => ⟨S65536x128, .f32⟩
  | 46 => ⟨S1x128, .f32⟩
  | 47 => ⟨S65536x128, .f32⟩
  | 48 => ⟨S65536x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S65536x128, .f32⟩
  | 62 => ⟨S65536x128, .f32⟩
  | 63 => ⟨S65536x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S65536x128, .f32⟩
  | 79 => ⟨S65536x128, .f32⟩
  | 80 => ⟨S_, .f32⟩
  | 81 => ⟨S128, .f32⟩
  | 82 => ⟨S128, .f32⟩
  | 83 => ⟨S128, .f32⟩
  | 84 => ⟨S1x128, .f32⟩
  | 85 => ⟨S65536x128, .f32⟩
  | 86 => ⟨S65536x128, .f32⟩
  | 87 => ⟨S1x128, .f32⟩
  | 88 => ⟨S65536x128, .f32⟩
  | 89 => ⟨S65536x128, .f32⟩
  | 90 => ⟨S1x128, .f32⟩
  | 91 => ⟨S65536x128, .f32⟩
  | 92 => ⟨S65536x128, .f32⟩
  | 93 => ⟨S_, .f32⟩
  | 94 => ⟨S65536x128, .f32⟩
  | 95 => ⟨S65536x128, .f32⟩
  | 96 => ⟨S65536x256, .f32⟩
  | 97 => ⟨S_, .f32⟩
  | 98 => ⟨S64x256, .f32⟩
  | 99 => ⟨S65536x1, .i32⟩
  | 100 => ⟨S64x256, .f32⟩
  | 101 => ⟨S64x128, .f32⟩
  | 102 => ⟨S1x128, .f32⟩
  | 103 => ⟨S64x128, .f32⟩
  | 104 => ⟨S64x128, .f32⟩
  | 105 => ⟨S_, .f32⟩
  | 106 => ⟨S64x128, .f32⟩
  | 107 => ⟨S64x128, .f32⟩
  | 108 => ⟨S64x1, .f32⟩
  | 109 => ⟨S1x1, .f32⟩
  | 110 => ⟨S64x1, .f32⟩
  | 111 => ⟨S64x1, .f32⟩
  | 112 => ⟨S64, .f32⟩
  | _ => ⟨S65536x64, .f32⟩

abbrev hbmTy (i : Nat) : BufTy := match i / 128 with
  | 0 => hbmTy0_0 i
  | 1 => hbmTy0_1 i
  | 2 => hbmTy0_2 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_c : Ref sig .tc := ⟨.hbm, 48, rfl⟩
abbrev main_v12 : Ref sig .tc := ⟨.hbm, 49, rfl⟩
abbrev main_v13 : Ref sig .tc := ⟨.hbm, 50, rfl⟩
abbrev main_c_0 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_call0_cst : Ref sig .tc := ⟨.hbm, 58, rfl⟩
abbrev main_call0_v0 : Ref sig .tc := ⟨.hbm, 59, rfl⟩
abbrev main_v20 : Ref sig .tc := ⟨.hbm, 60, rfl⟩
abbrev main_cst : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_call1_cst : Ref sig .tc := ⟨.hbm, 70, rfl⟩
abbrev main_call1_v0 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_1 : Ref sig .tc := ⟨.hbm, 77, rfl⟩
abbrev main_v34 : Ref sig .tc := ⟨.hbm, 78, rfl⟩
abbrev main_cst_2 : Ref sig .tc := ⟨.hbm, 79, rfl⟩
abbrev main_v35 : Ref sig .tc := ⟨.hbm, 80, rfl⟩
abbrev main_v36 : Ref sig .tc := ⟨.hbm, 81, rfl⟩
abbrev main_c_3 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_cst_1 : Ref sig .tc := ⟨.hbm, 93, rfl⟩
abbrev main_call2_v8 : Ref sig .tc := ⟨.hbm, 94, rfl⟩
abbrev main_call2_cst_2 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_cst_3 : Ref sig .tc := ⟨.hbm, 99, rfl⟩
abbrev main_call2_v12 : Ref sig .tc := ⟨.hbm, 100, rfl⟩
abbrev main_call2_cst_4 : Ref sig .tc := ⟨.hbm, 101, rfl⟩
abbrev main_call2_call0_v0 : Ref sig .tc := ⟨.hbm, 102, rfl⟩
abbrev main_call2_call0_v1 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst_4 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_call3_cst : Ref sig .tc := ⟨.hbm, 121, rfl⟩
abbrev main_call3_v0 : Ref sig .tc := ⟨.hbm, 122, rfl⟩
abbrev main_v53 : Ref sig .tc := ⟨.hbm, 123, rfl⟩
abbrev main_c_5 : Ref sig .tc := ⟨.hbm, 124, rfl⟩
abbrev main_v54 : Ref sig .tc := ⟨.hbm, 125, rfl⟩
abbrev main_v55 : Ref sig .tc := ⟨.hbm, 126, rfl⟩
abbrev main_c_6 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_call4_cst : Ref sig .tc := ⟨.hbm, 134, rfl⟩
abbrev main_call4_v0 : Ref sig .tc := ⟨.hbm, 135, rfl⟩
abbrev main_v62 : Ref sig .tc := ⟨.hbm, 136, rfl⟩
abbrev main_cst_7 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_call5_cst : Ref sig .tc := ⟨.hbm, 146, rfl⟩
abbrev main_call5_v0 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_cst_8 : Ref sig .tc := ⟨.hbm, 153, rfl⟩
abbrev main_v76 : Ref sig .tc := ⟨.hbm, 154, rfl⟩
abbrev main_cst_9 : Ref sig .tc := ⟨.hbm, 155, rfl⟩
abbrev main_v77 : Ref sig .tc := ⟨.hbm, 156, rfl⟩
abbrev main_v78 : Ref sig .tc := ⟨.hbm, 157, rfl⟩
abbrev main_c_10 : Ref sig .tc := ⟨.hbm, 158, rfl⟩
abbrev main_call6_cst : Ref sig .tc := ⟨.hbm, 159, rfl⟩
abbrev main_call6_v0 : Ref sig .tc := ⟨.hbm, 160, rfl⟩
abbrev main_call6_v1 : Ref sig .tc := ⟨.hbm, 161, rfl⟩
abbrev main_call6_cst_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_v6 : Ref sig .tc := ⟨.hbm, 167, rfl⟩
abbrev main_call6_v7 : Ref sig .tc := ⟨.hbm, 168, rfl⟩
abbrev main_call6_cst_1 : Ref sig .tc := ⟨.hbm, 169, rfl⟩
abbrev main_call6_v8 : Ref sig .tc := ⟨.hbm, 170, rfl⟩
abbrev main_call6_cst_2 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_cst_3 : Ref sig .tc := ⟨.hbm, 175, rfl⟩
abbrev main_call6_v12 : Ref sig .tc := ⟨.hbm, 176, rfl⟩
abbrev main_call6_cst_4 : Ref sig .tc := ⟨.hbm, 177, rfl⟩
abbrev main_call6_call0_v0 : Ref sig .tc := ⟨.hbm, 178, rfl⟩
abbrev main_call6_call0_v1 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_cst_11 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_call7_cst : Ref sig .tc := ⟨.hbm, 197, rfl⟩
abbrev main_call7_v0 : Ref sig .tc := ⟨.hbm, 198, rfl⟩
abbrev main_v95 : Ref sig .tc := ⟨.hbm, 199, rfl⟩
abbrev main_c_12 : Ref sig .tc := ⟨.hbm, 200, rfl⟩
abbrev main_v96 : Ref sig .tc := ⟨.hbm, 201, rfl⟩
abbrev main_v97 : Ref sig .tc := ⟨.hbm, 202, rfl⟩
abbrev main_c_13 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_call8_cst : Ref sig .tc := ⟨.hbm, 210, rfl⟩
abbrev main_call8_v0 : Ref sig .tc := ⟨.hbm, 211, rfl⟩
abbrev main_v104 : Ref sig .tc := ⟨.hbm, 212, rfl⟩
abbrev main_cst_14 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_call9_cst : Ref sig .tc := ⟨.hbm, 222, rfl⟩
abbrev main_call9_v0 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_cst_15 : Ref sig .tc := ⟨.hbm, 229, rfl⟩
abbrev main_v118 : Ref sig .tc := ⟨.hbm, 230, rfl⟩
abbrev main_cst_16 : Ref sig .tc := ⟨.hbm, 231, rfl⟩
abbrev main_v119 : Ref sig .tc := ⟨.hbm, 232, rfl⟩
abbrev main_v120 : Ref sig .tc := ⟨.hbm, 233, rfl⟩
abbrev main_c_17 : Ref sig .tc := ⟨.hbm, 234, rfl⟩
abbrev main_call10_cst : Ref sig .tc := ⟨.hbm, 235, rfl⟩
abbrev main_call10_v0 : Ref sig .tc := ⟨.hbm, 236, rfl⟩
abbrev main_call10_v1 : Ref sig .tc := ⟨.hbm, 237, rfl⟩
abbrev main_call10_cst_0 : Ref sig .tc := ⟨.hbm, 238, rfl⟩
abbrev main_call10_v2 : Ref sig .tc := ⟨.hbm, 239, rfl⟩
abbrev main_call10_v3 : Ref sig .tc := ⟨.hbm, 240, rfl⟩
abbrev main_call10_v4 : Ref sig .tc := ⟨.hbm, 241, rfl⟩
abbrev main_call10_v5 : Ref sig .tc := ⟨.hbm, 242, rfl⟩
abbrev main_call10_v6 : Ref sig .tc := ⟨.hbm, 243, rfl⟩
abbrev main_call10_v7 : Ref sig .tc := ⟨.hbm, 244, rfl⟩
abbrev main_call10_cst_1 : Ref sig .tc := ⟨.hbm, 245, rfl⟩
abbrev main_call10_v8 : Ref sig .tc := ⟨.hbm, 246, rfl⟩
abbrev main_call10_cst_2 : Ref sig .tc := ⟨.hbm, 247, rfl⟩
abbrev main_call10_v9 : Ref sig .tc := ⟨.hbm, 248, rfl⟩
abbrev main_call10_v10 : Ref sig .tc := ⟨.hbm, 249, rfl⟩
abbrev main_call10_v11 : Ref sig .tc := ⟨.hbm, 250, rfl⟩
abbrev main_call10_cst_3 : Ref sig .tc := ⟨.hbm, 251, rfl⟩
abbrev main_call10_v12 : Ref sig .tc := ⟨.hbm, 252, rfl⟩
abbrev main_call10_cst_4 : Ref sig .tc := ⟨.hbm, 253, rfl⟩
abbrev main_call10_call0_v0 : Ref sig .tc := ⟨.hbm, 254, rfl⟩
abbrev main_call10_call0_v1 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_cst_18 : Ref sig .tc := ⟨.hbm, 260, rfl⟩
abbrev main_v125 : Ref sig .tc := ⟨.hbm, 261, rfl⟩
abbrev main_v126 : Ref sig .tc := ⟨.hbm, 262, rfl⟩
abbrev main_v127 : Ref sig .tc := ⟨.hbm, 263, rfl⟩
abbrev main_v128 : Ref sig .tc := ⟨.hbm, 264, rfl⟩
abbrev main_v129 : Ref sig .tc := ⟨.hbm, 265, rfl⟩
abbrev main_v130 : Ref sig .tc := ⟨.hbm, 266, rfl⟩
abbrev main_v131 : Ref sig .tc := ⟨.hbm, 267, rfl⟩
abbrev main_v132 : Ref sig .tc := ⟨.hbm, 268, rfl⟩
abbrev main_v133 : Ref sig .tc := ⟨.hbm, 269, rfl⟩
abbrev main_v134 : Ref sig .tc := ⟨.hbm, 270, rfl⟩
abbrev main_v135 : Ref sig .tc := ⟨.hbm, 271, rfl⟩
abbrev main_v136 : Ref sig .tc := ⟨.hbm, 272, rfl⟩
abbrev main_call11_cst : Ref sig .tc := ⟨.hbm, 273, rfl⟩
abbrev main_call11_v0 : Ref sig .tc := ⟨.hbm, 274, rfl⟩
abbrev main_v137 : Ref sig .tc := ⟨.hbm, 275, rfl⟩
abbrev main_c_19 : Ref sig .tc := ⟨.hbm, 276, rfl⟩
abbrev main_v138 : Ref sig .tc := ⟨.hbm, 277, rfl⟩
abbrev main_v139 : Ref sig .tc := ⟨.hbm, 278, rfl⟩
abbrev main_c_20 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩
abbrev main_v143 : Ref sig .tc := ⟨.hbm, 283, rfl⟩
abbrev main_v144 : Ref sig .tc := ⟨.hbm, 284, rfl⟩
abbrev main_v145 : Ref sig .tc := ⟨.hbm, 285, rfl⟩
abbrev main_call12_cst : Ref sig .tc := ⟨.hbm, 286, rfl⟩
abbrev main_call12_v0 : Ref sig .tc := ⟨.hbm, 287, rfl⟩
abbrev main_v146 : Ref sig .tc := ⟨.hbm, 288, rfl⟩
abbrev main_cst_21 : Ref sig .tc := ⟨.hbm, 289, rfl⟩
abbrev main_v147 : Ref sig .tc := ⟨.hbm, 290, rfl⟩
abbrev main_v148 : Ref sig .tc := ⟨.hbm, 291, rfl⟩
abbrev main_v149 : Ref sig .tc := ⟨.hbm, 292, rfl⟩
abbrev main_v150 : Ref sig .tc := ⟨.hbm, 293, rfl⟩
abbrev main_v151 : Ref sig .tc := ⟨.hbm, 294, rfl⟩
abbrev main_v152 : Ref sig .tc := ⟨.hbm, 295, rfl⟩
abbrev main_v153 : Ref sig .tc := ⟨.hbm, 296, rfl⟩
abbrev main_v154 : Ref sig .tc := ⟨.hbm, 297, rfl⟩
abbrev main_call13_cst : Ref sig .tc := ⟨.hbm, 298, rfl⟩
abbrev main_call13_v0 : Ref sig .tc := ⟨.hbm, 299, rfl⟩
abbrev main_v155 : Ref sig .tc := ⟨.hbm, 300, rfl⟩
abbrev main_v156 : Ref sig .tc := ⟨.hbm, 301, rfl⟩
abbrev main_v157 : Ref sig .tc := ⟨.hbm, 302, rfl⟩
abbrev main_v158 : Ref sig .tc := ⟨.hbm, 303, rfl⟩
abbrev main_v159 : Ref sig .tc := ⟨.hbm, 304, rfl⟩
abbrev main_cst_22 : Ref sig .tc := ⟨.hbm, 305, rfl⟩
abbrev main_v160 : Ref sig .tc := ⟨.hbm, 306, rfl⟩
abbrev main_cst_23 : Ref sig .tc := ⟨.hbm, 307, rfl⟩
abbrev main_v161 : Ref sig .tc := ⟨.hbm, 308, rfl⟩
abbrev main_v162 : Ref sig .tc := ⟨.hbm, 309, rfl⟩
abbrev main_c_24 : Ref sig .tc := ⟨.hbm, 310, rfl⟩
abbrev main_call14_cst : Ref sig .tc := ⟨.hbm, 311, rfl⟩
abbrev main_call14_v0 : Ref sig .tc := ⟨.hbm, 312, rfl⟩
abbrev main_call14_v1 : Ref sig .tc := ⟨.hbm, 313, rfl⟩
abbrev main_call14_cst_0 : Ref sig .tc := ⟨.hbm, 314, rfl⟩
abbrev main_call14_v2 : Ref sig .tc := ⟨.hbm, 315, rfl⟩
abbrev main_call14_v3 : Ref sig .tc := ⟨.hbm, 316, rfl⟩
abbrev main_call14_v4 : Ref sig .tc := ⟨.hbm, 317, rfl⟩
abbrev main_call14_v5 : Ref sig .tc := ⟨.hbm, 318, rfl⟩
abbrev main_call14_v6 : Ref sig .tc := ⟨.hbm, 319, rfl⟩
abbrev main_call14_v7 : Ref sig .tc := ⟨.hbm, 320, rfl⟩
abbrev main_call14_cst_1 : Ref sig .tc := ⟨.hbm, 321, rfl⟩
abbrev main_call14_v8 : Ref sig .tc := ⟨.hbm, 322, rfl⟩
abbrev main_call14_cst_2 : Ref sig .tc := ⟨.hbm, 323, rfl⟩
abbrev main_call14_v9 : Ref sig .tc := ⟨.hbm, 324, rfl⟩
abbrev main_call14_v10 : Ref sig .tc := ⟨.hbm, 325, rfl⟩
abbrev main_call14_v11 : Ref sig .tc := ⟨.hbm, 326, rfl⟩
abbrev main_call14_cst_3 : Ref sig .tc := ⟨.hbm, 327, rfl⟩
abbrev main_call14_v12 : Ref sig .tc := ⟨.hbm, 328, rfl⟩
abbrev main_call14_cst_4 : Ref sig .tc := ⟨.hbm, 329, rfl⟩
abbrev main_call14_call0_v0 : Ref sig .tc := ⟨.hbm, 330, rfl⟩
abbrev main_call14_call0_v1 : Ref sig .tc := ⟨.hbm, 331, rfl⟩
abbrev main_v163 : Ref sig .tc := ⟨.hbm, 332, rfl⟩
abbrev main_v164 : Ref sig .tc := ⟨.hbm, 333, rfl⟩
abbrev main_v165 : Ref sig .tc := ⟨.hbm, 334, rfl⟩
abbrev main_v166 : Ref sig .tc := ⟨.hbm, 335, rfl⟩
abbrev main_cst_25 : Ref sig .tc := ⟨.hbm, 336, rfl⟩
abbrev main_v167 : Ref sig .tc := ⟨.hbm, 337, rfl⟩
abbrev main_v168 : Ref sig .tc := ⟨.hbm, 338, rfl⟩
abbrev main_v169 : Ref sig .tc := ⟨.hbm, 339, rfl⟩
abbrev main_v170 : Ref sig .tc := ⟨.hbm, 340, rfl⟩
abbrev main_v171 : Ref sig .tc := ⟨.hbm, 341, rfl⟩
abbrev main_v172 : Ref sig .tc := ⟨.hbm, 342, rfl⟩
abbrev main_v173 : Ref sig .tc := ⟨.hbm, 343, rfl⟩
abbrev main_v174 : Ref sig .tc := ⟨.hbm, 344, rfl⟩
abbrev main_v175 : Ref sig .tc := ⟨.hbm, 345, rfl⟩
abbrev main_v176 : Ref sig .tc := ⟨.hbm, 346, rfl⟩
abbrev main_v177 : Ref sig .tc := ⟨.hbm, 347, rfl⟩
abbrev main_v178 : Ref sig .tc := ⟨.hbm, 348, rfl⟩
abbrev main_call15_cst : Ref sig .tc := ⟨.hbm, 349, rfl⟩
abbrev main_call15_v0 : Ref sig .tc := ⟨.hbm, 350, rfl⟩
abbrev main_v179 : Ref sig .tc := ⟨.hbm, 351, rfl⟩
abbrev main_v180 : Ref sig .tc := ⟨.hbm, 352, rfl⟩
abbrev main_cst_26 : Ref sig .tc := ⟨.hbm, 353, rfl⟩
abbrev main_v181 : Ref sig .tc := ⟨.hbm, 354, rfl⟩
abbrev main_v182 : Ref sig .tc := ⟨.hbm, 355, rfl⟩
abbrev main_v183 : Ref sig .tc := ⟨.hbm, 356, rfl⟩
abbrev main_v184 : Ref sig .tc := ⟨.hbm, 357, rfl⟩
abbrev main_v185 : Ref sig .tc := ⟨.hbm, 358, rfl⟩
abbrev main_v186 : Ref sig .tc := ⟨.hbm, 359, rfl⟩
abbrev main_v187 : Ref sig .tc := ⟨.hbm, 360, rfl⟩
abbrev main_call16_cst : Ref sig .tc := ⟨.hbm, 361, rfl⟩
abbrev main_call16_v0 : Ref sig .tc := ⟨.hbm, 362, rfl⟩
abbrev main_v188 : Ref sig .tc := ⟨.hbm, 363, rfl⟩
abbrev main_v189 : Ref sig .tc := ⟨.hbm, 364, rfl⟩
abbrev main_v190 : Ref sig .tc := ⟨.hbm, 365, rfl⟩
abbrev main_v191 : Ref sig .tc := ⟨.hbm, 366, rfl⟩
abbrev main_v192 : Ref sig .tc := ⟨.hbm, 367, rfl⟩
abbrev main_v193 : Ref sig .tc := ⟨.hbm, 368, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S1x128_S524288x128_0_1 : S1x128.BroadcastsInDim S524288x128 (![0, 1] : Fin 2 → Fin S524288x128.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S524288x128 : S_.BroadcastsInDim S524288x128 (![] : Fin 0 → Fin S524288x128.rank)
  bcast_S_S65536x128 : S_.BroadcastsInDim S65536x128 (![] : Fin 0 → Fin S65536x128.rank)
  reducesTo_S65536x128_S128_d0 : S65536x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  concatenates_S65536x128_S65536x128_S65536x256_d1 : Shape.Concatenates [S65536x128, S65536x128] S65536x256 1
  bcast_S_S64x256 : S_.BroadcastsInDim S64x256 (![] : Fin 0 → Fin S64x256.rank)
  bcast_S65536_S65536x1_0 : S65536.BroadcastsInDim S65536x1 (![0] : Fin 1 → Fin S65536x1.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S65536x64_S64x128_S65536x128_1_0_0_1_n_n_wf : DotDims.WF S65536x64 S64x128 S65536x128 [1] [0] [0] [1] [] []
  dot_S524288x32_S32x128_S524288x128_1_0_0_1_n_n_wf : DotDims.WF S524288x32 S32x128 S524288x128 [1] [0] [0] [1] [] []
  gather_S65536x128_S524288x1_S524288x128_1_0_n_n_0_1_1128_wf : GatherDims.WF S65536x128 S524288x1 S524288x128 [1] [0] [] [0] [] 1 ![1, 128]
  scatter_S65536x128_S524288x1_S524288x128_1_0_0_1_wf : ScatterDims.WF S65536x128 S524288x1 S524288x128 [1] [0] [0] 1
  dot_S65536x128_S128x128_S65536x128_1_0_0_1_n_n_wf : DotDims.WF S65536x128 S128x128 S65536x128 [1] [0] [0] [1] [] []
  scatter_S64x256_S65536x1_S65536x256_1_0_0_1_wf : ScatterDims.WF S64x256 S65536x1 S65536x256 [1] [0] [0] 1
  dot_S64x256_S256x128_S64x128_1_0_0_1_n_n_wf : DotDims.WF S64x256 S256x128 S64x128 [1] [0] [0] [1] [] []
  dot_S64x128_S128x1_S64x1_1_0_0_1_n_n_wf : DotDims.WF S64x128 S128x1 S64x1 [1] [0] [0] [1] [] []

variable [Facts₀]

def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf
def dot_S524288x32_S32x128_S524288x128_1_0_0_1_n_n : DotDims S524288x32 S32x128 S524288x128 where
  lhsContracting := [1]
  rhsContracting := [0]
  lhsNonContracting := [0]
  rhsNonContracting := [1]
  lhsBatch := []
  rhsBatch := []
  wf := dot_S524288x32_S32x128_S524288x128_1_0_0_1_n_n_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def scatter_S64x256_S65536x1_S65536x256_1_0_0_1 : ScatterDims S64x256 S65536x1 S65536x256 where
  updateWindowDims := [1]
  insertedWindowDims := [0]
  scatterDimsToOperandDims := [0]
  indexVectorDim := 1
  wf := scatter_S64x256_S65536x1_S65536x256_1_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Spec.lean ====
import proofs.«426861_j66571993088626_2_alg».proof.Proof.Gen.ReferenceIdeal

noncomputable section

namespace Cert.Spec

open Idealize.ShloMosaic Cert.ReferenceIdeal Cert.ReferenceIdeal.Gen

variable {F : FTy → Type} [FloatOps F]

def zeroS : FVec F S_ .f32 := constant S_ .f32 0x00000000#32

def rowsN (b : FVec F S128 .f32) : FVec F S65536x128 .f32 :=
  broadcastInDim S65536x128 ![0, 1] bcast_S1x128_S65536x128_0_1 (broadcastInDim S1x128 ![1] bcast_S128_S1x128_1 b)

def rowsE (b : FVec F S128 .f32) : FVec F S524288x128 .f32 :=
  broadcastInDim S524288x128 ![0, 1] bcast_S1x128_S524288x128_0_1 (broadcastInDim S1x128 ![1] bcast_S128_S1x128_1 b)

def reluN (x : FVec F S65536x128 .f32) : FVec F S65536x128 .f32 :=
  maximumf x (broadcastInDim S65536x128 ![] bcast_S_S65536x128 zeroS)
def reluE (x : FVec F S524288x128 .f32) : FVec F S524288x128 .f32 :=
  maximumf x (broadcastInDim S524288x128 ![] bcast_S_S524288x128 zeroS)

def linN (x : FVec F S65536x64 .f32) (w : FVec F S64x128 .f32) (b : FVec F S128 .f32) : FVec F S65536x128 .f32 :=
  addf (Host.dotGeneral dot_S65536x64_S64x128_S65536x128_1_0_0_1_n_n none x w) (rowsN b)
def linE (a : FVec F S524288x32 .f32) (w : FVec F S32x128 .f32) (b : FVec F S128 .f32) : FVec F S524288x128 .f32 :=
  addf (Host.dotGeneral dot_S524288x32_S32x128_S524288x128_1_0_0_1_n_n none a w) (rowsE b)

def srcOf (ei : IVec S2x524288 32) : IVec S524288 32 :=
  shapeCast S524288 (extractStridedSlice S1x524288 ![0, 0] ei slices_S2x524288_S1x524288_0_0) shapeCasts_S1x524288_S524288
def dstOf (ei : IVec S2x524288 32) : IVec S524288 32 :=
  shapeCast S524288 (extractStridedSlice S1x524288 ![1, 0] ei slices_S2x524288_S1x524288_1_0) shapeCasts_S1x524288_S524288

def wrap (i : IVec S524288 32) : IVec S524288 32 :=
  select (cmpi .slt i (broadcastInDim S524288 ![] bcast_S_S524288 (constantI S_ 32 0#32)))
    (addi i (broadcastInDim S524288 ![] bcast_S_S524288 (constantI S_ 32 65536#32))) i

def col (i : IVec S524288 32) : IVec S524288x1 32 := broadcastInDim S524288x1 ![0] bcast_S524288_S524288x1_0 i

def rowsAt (h : FVec F S65536x128 .f32) (i : IVec S524288 32) : FVec F S524288x128 .f32 :=
  Host.gather gather_S65536x128_S524288x1_S524288x128_1_0_n_n_0_1_1128 h (col (wrap i))

def msg (h : FVec F S65536x128 .f32) (ea : FVec F S524288x128 .f32) (s : IVec S524288 32) : FVec F S524288x128 .f32 :=
  reluE (addf (rowsAt h s) ea)

def agg (h : FVec F S65536x128 .f32) (ea : FVec F S524288x128 .f32) (s d : IVec S524288 32) : FVec F S65536x128 .f32 :=
  Host.scatterAdd scatter_S65536x128_S524288x1_S524288x128_1_0_0_1
    (broadcastInDim S65536x128 ![] bcast_S_S65536x128 zeroS) (col d) (msg h ea s)

def mlp (h a : FVec F S65536x128 .f32) (w1 : FVec F S128x128 .f32) (b1 : FVec F S128 .f32)
    (w2 : FVec F S128x128 .f32) (b2 : FVec F S128 .f32) : FVec F S65536x128 .f32 :=
  addf (Host.dotGeneral dot_S65536x128_S128x128_S65536x128_1_0_0_1_n_n none
    (reluN (addf (Host.dotGeneral dot_S65536x128_S128x128_S65536x128_1_0_0_1_n_n none (addf h a) w1) (rowsN b1))) w2) (rowsN b2)

def colSum (z : FVec F S65536x128 .f32) : FVec F S128 .f32 :=
  Host.reduceAdd z (zeroS (F := F)) reducesTo_S65536x128_S128_d0 h_S_

def mean (z : FVec F S65536x128 .f32) : FVec F S128 .f32 :=
  Host.divf (colSum z) (broadcastInDim S128 ![] bcast_S_S128 (constant S_ .f32 0x47800000#32))

def var (z : FVec F S65536x128 .f32) (ddof : IVec S_ 32) : FVec F S128 .f32 :=
  let cnt : FVec F S_ .f32 := subf (constant S_ .f32 0x47800000#32) (sitofp .f32 ddof)
  let ctr : FVec F S65536x128 .f32 := subf z (broadcastInDim S65536x128 ![0, 1] bcast_S1x128_S65536x128_0_1
    (Host.divf (broadcastInDim S1x128 ![1] bcast_S128_S1x128_1 (colSum z))
      (broadcastInDim S1x128 ![] bcast_S_S1x128 (constant S_ .f32 0x47800000#32))))
  select (broadcastInDim S128 ![] bcast_S_S128 (cmpf .ogt cnt (zeroS (F := F))))
    (Host.divf (colSum (mulf ctr ctr)) (broadcastInDim S128 ![] bcast_S_S128 cnt))
    (broadcastInDim S128 ![] bcast_S_S128 (id (constant S_ .f32 0x7FC00000#32)))

def rstd (z : FVec F S65536x128 .f32) : FVec F S128 .f32 :=
  Host.rsqrt (addf (var z (constantI S_ 32 0#32)) (broadcastInDim S128 ![] bcast_S_S128 (constant S_ .f32 0x3727C5AC#32)))

def bn (z : FVec F S65536x128 .f32) (g b : FVec F S128 .f32) : FVec F S65536x128 .f32 :=
  reluN (addf (mulf (mulf (subf z (rowsN (mean z))) (rowsN (rstd z))) (rowsN g)) (rowsN b))

def affRelu (z : FVec F S65536x128 .f32) (sc sh : FVec F S128 .f32) : FVec F S65536x128 .f32 :=
  reluN (addf (mulf z (rowsN sc)) (rowsN sh))

def layer (h : FVec F S65536x128 .f32) (ea : FVec F S524288x128 .f32) (s d : IVec S524288 32)
    (w1 : FVec F S128x128 .f32) (b1 : FVec F S128 .f32) (w2 : FVec F S128x128 .f32) (b2 : FVec F S128 .f32)
    (g b : FVec F S128 .f32) : FVec F S65536x128 .f32 :=
  bn (mlp h (agg h ea s d) w1 b1 w2 b2) g b

def pool (xf xb : FVec F S65536x128 .f32) (batch : IVec S65536 32) : FVec F S64x256 .f32 :=
  Host.scatterAdd scatter_S64x256_S65536x1_S65536x256_1_0_0_1
    (broadcastInDim S64x256 ![] bcast_S_S64x256 zeroS)
    (broadcastInDim S65536x1 ![0] bcast_S65536_S65536x1_0 batch)
    (concatenate S65536x256 1 [⟨S65536x128, xf⟩, ⟨S65536x128, xb⟩] concatenates_S65536x128_S65536x128_S65536x256_d1)

def head (p : FVec F S64x256 .f32) (w1 : FVec F S256x128 .f32) (b1 : FVec F S128 .f32)
    (w2 : FVec F S128x1 .f32) (b2 : FVec F S1 .f32) : FVec F S64 .f32 :=
  shapeCast S64
    (addf (Host.dotGeneral dot_S64x128_S128x1_S64x1_1_0_0_1_n_n none
      (maximumf (addf (Host.dotGeneral dot_S64x256_S256x128_S64x128_1_0_0_1_n_n none p w1)
          (broadcastInDim S64x128 ![0, 1] bcast_S1x128_S64x128_0_1 (broadcastInDim S1x128 ![1] bcast_S128_S1x128_1 b1)))
        (broadcastInDim S64x128 ![] bcast_S_S64x128 zeroS)) w2)
      (broadcastInDim S64x1 ![0, 1] bcast_S1x1_S64x1_0_1 (broadcastInDim S1x1 ![1] bcast_S1_S1x1_1 b2)))
    shapeCasts_S64x1_S64

def G (a0 : FVec F S65536x64 .f32) (a1 : FVec F S524288x32 .f32) (a2 : IVec S2x524288 32) (a3 : IVec S65536 32) (a4 : FVec F S64x128 .f32) (a5 : FVec F S128 .f32) (a6 : FVec F S32x128 .f32) (a7 : FVec F S128 .f32)
    (a8 : FVec F S128x128 .f32) (a9 : FVec F S128 .f32) (a10 : FVec F S128x128 .f32) (a11 : FVec F S128 .f32) (a12 : FVec F S128x128 .f32) (a13 : FVec F S128 .f32) (a14 : FVec F S128x128 .f32) (a15 : FVec F S128 .f32)
    (a16 : FVec F S128x128 .f32) (a17 : FVec F S128 .f32) (a18 : FVec F S128x128 .f32) (a19 : FVec F S128 .f32) (a20 : FVec F S128x128 .f32) (a21 : FVec F S128 .f32) (a22 : FVec F S128x128 .f32) (a23 : FVec F S128 .f32)
    (a24 : FVec F S128 .f32) (a25 : FVec F S128 .f32) (a26 : FVec F S128 .f32) (a27 : FVec F S128 .f32) (a28 : FVec F S128 .f32) (a29 : FVec F S128 .f32) (a30 : FVec F S128 .f32) (a31 : FVec F S128 .f32)
    (a32 : FVec F S256x128 .f32) (a33 : FVec F S128 .f32) (a34 : FVec F S128x1 .f32) (a35 : FVec F S1 .f32) : FVec F S64 .f32 :=
  head (pool
      (layer (layer (linN a0 a4 a5) (linE a1 a6 a7) (srcOf a2) (dstOf a2) a8 a9 a10 a11 a24 a25)
        (linE a1 a6 a7) (srcOf a2) (dstOf a2) a12 a13 a14 a15 a26 a27)
      (layer (layer (linN a0 a4 a5) (linE a1 a6 a7) (dstOf a2) (srcOf a2) a16 a17 a18 a19 a28 a29)
        (linE a1 a6 a7) (dstOf a2) (srcOf a2) a20 a21 a22 a23 a30 a31)
      a3) a32 a33 a34 a35

end Cert.Spec

end
-- ==== Proof.Basic.lean ====
import Idealize.ShloMosaic.PureOps.Ideal

namespace Cert.Basic

open Idealize.ShloMosaic

def Real {s : Shape} (x : s.Idx → EReal) : Prop := ∀ i, ∃ r : ℝ, x i = (r : EReal)

def Below {s : Shape} (n : Int) (i : IVec s 32) : Prop := ∀ j, 0 ≤ (i j).toInt ∧ (i j).toInt < n

end Cert.Basic
-- ==== Proof.SpecReal.lean ====
import proofs.«426861_j66571993088626_2_alg».proof.Proof.Spec
import proofs.«426861_j66571993088626_2_alg».proof.Proof.Basic
import Idealize.ShloMosaic.PureOps.Ideal.Laws

noncomputable section

namespace Cert.SpecReal

open Idealize.ShloMosaic Cert.ReferenceIdeal Cert.Basic

theorem sum_coe {ι : Type} (t : Finset ι) (f : ι → EReal) (hf : ∀ i, ∃ r : ℝ, f i = (r : EReal)) :
    ∃ r : ℝ, ∑ i ∈ t, f i = (r : EReal) := by
  classical
  induction t using Finset.induction_on with
  | empty => exact ⟨0, by rw [Finset.sum_empty, EReal.coe_zero]⟩
  | insert a t ha ih =>
    obtain ⟨r, hr⟩ := ih
    obtain ⟨q, hq⟩ := hf a
    exact ⟨q + r, by rw [Finset.sum_insert ha, hq, hr, EReal.coe_add]⟩

section Arrays

variable {s t : Shape} {φ : FTy}

theorem real_addf {x y : FVec Ideal s φ} (hx : Real x) (hy : Real y) : Real (addf x y) := by
  intro i
  obtain ⟨a, ha⟩ := hx i
  obtain ⟨b, hb⟩ := hy i
  exact ⟨a + b, by unfold addf; rw [Ideal.addf_def, ha, hb, EReal.coe_add]⟩

theorem real_mulf {x y : FVec Ideal s φ} (hx : Real x) (hy : Real y) : Real (mulf x y) := by
  intro i
  obtain ⟨a, ha⟩ := hx i
  obtain ⟨b, hb⟩ := hy i
  exact ⟨a * b, by unfold mulf; rw [Ideal.mulf_def, ha, hb, EReal.coe_mul]⟩

theorem real_maximumf {x y : FVec Ideal s φ} (hx : Real x) (hy : Real y) : Real (maximumf x y) := by
  intro i
  obtain ⟨a, ha⟩ := hx i
  obtain ⟨b, hb⟩ := hy i
  exact ⟨max a b, by
    unfold maximumf; rw [Ideal.maximumf_def, ha, hb]; exact (EReal.coe_strictMono.monotone.map_max).symm⟩

theorem real_bcast (dims : Fin s.rank → Fin t.rank) (h : s.BroadcastsInDim t dims) {x : s.Idx → EReal}
    (hx : Real x) : Real (broadcastInDim t dims h x) := by
  intro j
  unfold broadcastInDim
  exact hx _

theorem real_gather {si : Shape} {w : Nat} (d : GatherDims s si t) {x : s.Idx → EReal} (idx : IVec si w)
    (hx : Real x) : Real (Host.gather d x idx) := by
  intro j
  unfold Host.gather
  exact hx _

theorem real_dot {sl sr so : Shape} {φ₁ φ₂ : FTy} (d : DotDims sl sr so) (prec : Option ContractPrecision)
    {x : FVec Ideal sl φ₁} {w : FVec Ideal sr φ₂} (hx : Real x) (hw : Real w) :
    Real (Host.dotGeneral d prec x w) := by
  intro j
  show ∃ r : ℝ, FloatOps.dotGeneral d prec .single x w j = (r : EReal)
  rw [Ideal.dotGeneral_apply]
  refine sum_coe _ _ fun k => ?_
  obtain ⟨a, ha⟩ := hx (d.lhsIdx j k)
  obtain ⟨b, hb⟩ := hw (d.rhsIdx j k)
  exact ⟨a * b, by rw [ha, hb, EReal.coe_mul]⟩

theorem real_scatterAdd {si su : Shape} {w : Nat} (d : ScatterDims s si su) {x : FVec Ideal s φ} (idx : IVec si w)
    {upd : FVec Ideal su φ} (hx : Real x) (hu : Real upd) : Real (Host.scatterAdd d x idx upd) := by
  intro i
  show ∃ r : ℝ, Ideal.hostScatterAdd d x idx upd i = (r : EReal)
  unfold Ideal.hostScatterAdd
  obtain ⟨a, ha⟩ := hx i
  obtain ⟨b, hb⟩ := sum_coe (Finset.univ.filter (fun j => d.resultIdx? j idx = some i)) upd hu
  exact ⟨a + b, by rw [ha, hb, EReal.coe_add]⟩

end Arrays

theorem real_zeroS : Real (Spec.zeroS (F := Ideal)) := by
  intro i
  exact ⟨0, by unfold Spec.zeroS constant; rw [Ideal.ofBits_def, Ideal.ofBits_zero_f32, EReal.coe_zero]⟩

theorem real_rowsN {b : FVec Ideal S128 .f32} (hb : Real b) : Real (Spec.rowsN (F := Ideal) b) :=
  real_bcast _ _ (real_bcast _ _ hb)
theorem real_rowsE {b : FVec Ideal S128 .f32} (hb : Real b) : Real (Spec.rowsE (F := Ideal) b) :=
  real_bcast _ _ (real_bcast _ _ hb)

theorem real_reluN {x : FVec Ideal S65536x128 .f32} (hx : Real x) : Real (Spec.reluN (F := Ideal) x) :=
  real_maximumf hx (real_bcast _ _ real_zeroS)
theorem real_reluE {x : FVec Ideal S524288x128 .f32} (hx : Real x) : Real (Spec.reluE (F := Ideal) x) :=
  real_maximumf hx (real_bcast _ _ real_zeroS)

theorem real_linN {x : FVec Ideal S65536x64 .f32} {w : FVec Ideal S64x128 .f32} {b : FVec Ideal S128 .f32}
    (hx : Real x) (hw : Real w) (hb : Real b) : Real (Spec.linN (F := Ideal) x w b) :=
  real_addf (real_dot _ _ hx hw) (real_rowsN hb)

theorem real_linE {a : FVec Ideal S524288x32 .f32} {w : FVec Ideal S32x128 .f32} {b : FVec Ideal S128 .f32}
    (ha : Real a) (hw : Real w) (hb : Real b) : Real (Spec.linE (F := Ideal) a w b) :=
  real_addf (real_dot _ _ ha hw) (real_rowsE hb)

theorem real_rowsAt {h : FVec Ideal S65536x128 .f32} {i : IVec S524288 32} (hh : Real h) :
    Real (Spec.rowsAt (F := Ideal) h i) :=
  real_gather _ _ hh

theorem real_msg {h : FVec Ideal S65536x128 .f32} {ea : FVec Ideal S524288x128 .f32} {s : IVec S524288 32}
    (hh : Real h) (he : Real ea) : Real (Spec.msg (F := Ideal) h ea s) :=
  real_reluE (real_addf (real_rowsAt hh) he)

theorem real_agg {h : FVec Ideal S65536x128 .f32} {ea : FVec Ideal S524288x128 .f32} {s d : IVec S524288 32}
    (hh : Real h) (he : Real ea) : Real (Spec.agg (F := Ideal) h ea s d) :=
  real_scatterAdd _ _ (real_bcast _ _ real_zeroS) (real_msg hh he)

theorem real_mlp {h a : FVec Ideal S65536x128 .f32} {w1 : FVec Ideal S128x128 .f32} {b1 : FVec Ideal S128 .f32}
    {w2 : FVec Ideal S128x128 .f32} {b2 : FVec Ideal S128 .f32}
    (hh : Real h) (ha : Real a) (hw1 : Real w1) (hb1 : Real b1) (hw2 : Real w2) (hb2 : Real b2) :
    Real (Spec.mlp (F := Ideal) h a w1 b1 w2 b2) :=
  real_addf (real_dot _ _ (real_reluN (real_addf (real_dot _ _ (real_addf hh ha) hw1) (real_rowsN hb1))) hw2)
    (real_rowsN hb2)

theorem real_affRelu {z : FVec Ideal S65536x128 .f32} {sc sh : FVec Ideal S128 .f32}
    (hz : Real z) (hsc : Real sc) (hsh : Real sh) : Real (Spec.affRelu (F := Ideal) z sc sh) :=
  real_reluN (real_addf (real_mulf hz (real_rowsN hsc)) (real_rowsN hsh))

end Cert.SpecReal

end
-- ==== Proof.BnLaw.lean ====
import proofs.«426861_j66571993088626_2_alg».proof.Proof.Spec
import proofs.«426861_j66571993088626_2_alg».proof.Proof.Basic
import Idealize.ShloMosaic.Lib.ValueIdx
import Idealize.ShloMosaic.Lib.Pipeline.Value
import Idealize.ShloMosaic.PureOps.Ideal.Laws

noncomputable section

namespace Cert.BnLaw

open Idealize.ShloMosaic Idealize.ShloMosaic.ValueIdx Cert.ReferenceIdeal Cert.ReferenceIdeal.Gen Cert.Basic
open scoped BigOperators

theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ofBits_count : Ideal.ofBits .f32 0x47800000#32 = ((65536 : ℝ) : EReal) := by
  simp [Ideal.ofBits, Ideal.ieee, -EReal.coe_mul]
  norm_num

theorem ofBits_eps : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

theorem bcast0_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

theorem rowsN_apply {F : FTy → Type} (v : FVec F S128 .f32) (p : Fin 65536) (q : Fin 128) :
    Cert.Spec.rowsN v (ix2 p q) = v (ix1 q) := by
  unfold Cert.Spec.rowsN
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

theorem reluN_apply (x : FVec Ideal S65536x128 .f32) (i : S65536x128.Idx) :
    Cert.Spec.reluN (F := Ideal) x i = max (x i) 0 := by
  unfold Cert.Spec.reluN
  rw [maximumf_apply, bcast0_apply]
  show max (x i) (Ideal.ofBits .f32 0x00000000#32) = _
  rw [Ideal.ofBits_zero_f32]

theorem colSum_coe (c : S65536x128.Idx → ℝ) (j : S128.Idx) :
    ∃ s : Finset S65536x128.Idx, Cert.Spec.colSum (F := Ideal) (fun i => ((c i : ℝ) : EReal)) j = ((∑ i ∈ s, c i : ℝ) : EReal) := by
  refine ⟨?_, ?_⟩
  rotate_left
  · unfold Cert.Spec.colSum Host.reduceAdd
    rw [Ideal.hostReduceAdd_def]
    unfold Ideal.hostReduceAdd
    show Ideal.ofBits .f32 0x00000000#32 + _ = _
    rw [Ideal.ofBits_zero_f32, zero_add, sum_coe]

theorem colSum_real {z : FVec Ideal S65536x128 .f32} (hz : Real z) : Real (Cert.Spec.colSum (F := Ideal) z) := by
  choose c hc using hz
  obtain rfl : z = fun i => ((c i : ℝ) : EReal) := funext hc
  intro j
  obtain ⟨s, hs⟩ := colSum_coe c j
  exact ⟨_, hs⟩

theorem colSum_nonneg {z : FVec Ideal S65536x128 .f32} (hz : ∀ i, ∃ r : ℝ, 0 ≤ r ∧ z i = (r : EReal)) (j : S128.Idx) :
    ∃ r : ℝ, 0 ≤ r ∧ Cert.Spec.colSum (F := Ideal) z j = (r : EReal) := by
  choose c hc0 hc using hz
  obtain rfl : z = fun i => ((c i : ℝ) : EReal) := funext hc
  obtain ⟨s, hs⟩ := colSum_coe c j
  exact ⟨_, Finset.sum_nonneg fun i _ => hc0 i, hs⟩

theorem mean_apply (z : FVec Ideal S65536x128 .f32) (j : S128.Idx) :
    Cert.Spec.mean (F := Ideal) z j = Cert.Spec.colSum (F := Ideal) z j * ((1 / 65536 : ℝ) : EReal) := by
  unfold Cert.Spec.mean
  rw [hostDivf_apply, bcast0_apply]
  show Ideal.div _ (Ideal.ofBits .f32 0x47800000#32) = _
  rw [ofBits_count, Ideal.div_coe (by norm_num)]

theorem real_mean {z : FVec Ideal S65536x128 .f32} (hz : Real z) : Real (Cert.Spec.mean (F := Ideal) z) := by
  intro j
  obtain ⟨s, hs⟩ := colSum_real hz j
  exact ⟨s * (1 / 65536), by rw [mean_apply, hs, EReal.coe_mul]⟩

def ctr (z : FVec Ideal S65536x128 .f32) : FVec Ideal S65536x128 .f32 :=
  subf z (broadcastInDim S65536x128 ![0, 1] bcast_S1x128_S65536x128_0_1
    (Host.divf (broadcastInDim S1x128 ![1] bcast_S128_S1x128_1 (Cert.Spec.colSum z))
      (broadcastInDim S1x128 ![] bcast_S_S1x128 (constant S_ .f32 0x47800000#32))))

theorem var_apply (z : FVec Ideal S65536x128 .f32) (q : S128.Idx) :
    Cert.Spec.var (F := Ideal) z (constantI S_ 32 0#32) q
      = Cert.Spec.colSum (F := Ideal) (mulf (ctr z) (ctr z)) q * ((1 / 65536 : ℝ) : EReal) := by
  unfold Cert.Spec.var ctr
  dsimp only
  have hcnt : (subf (constant S_ .f32 0x47800000#32) (sitofp .f32 (constantI S_ 32 0#32)) : FVec Ideal S_ .f32) ix0
      = ((65536 : ℝ) : EReal) := by
    show Ideal.ofBits .f32 0x47800000#32 - ((((0#32 : BitVec 32).toInt : ℤ) : ℝ) : EReal) = _
    rw [ofBits_count]
    simp
  have hz0 : (Cert.Spec.zeroS (F := Ideal)) ix0 = 0 := Ideal.ofBits_zero_f32
  have hc : Ideal.cmp .ogt ((65536 : ℝ) : EReal) 0 = 1#1 := by
    simp [Ideal.cmp]
  rw [select_apply, bcast0_apply, cmpf_apply, hcnt, hz0, Ideal.cmpf_def, hc, select_one, hostDivf_apply, bcast0_apply, hcnt,
    Ideal.div_coe (by norm_num)]

theorem ctr_apply (z : FVec Ideal S65536x128 .f32) (p : Fin 65536) (q : Fin 128) :
    ctr z (ix2 p q) = z (ix2 p q) - Cert.Spec.colSum (F := Ideal) z (ix1 q) * ((1 / 65536 : ℝ) : EReal) := by
  unfold ctr
  rw [subf_apply]
  refine congrArg (z (ix2 p q) - ·) ?_
  refine (broadcastInDim_apply _ _ _ (ix2 p q) (ix2 (0 : Fin 1) q) ?_).trans ?_
  · intro a
    match a with
    | ⟨0, _⟩ => rfl
    | ⟨1, _⟩ => rfl
  · rw [hostDivf_apply, bcast0_apply]
    show Ideal.div _ (Ideal.ofBits .f32 0x47800000#32) = _
    rw [ofBits_count, Ideal.div_coe (by norm_num)]
    refine congrArg (· * ((1 / 65536 : ℝ) : EReal)) ?_
    refine broadcastInDim_apply _ _ _ (ix2 (0 : Fin 1) q) (ix1 q) ?_
    intro a
    match a with
    | ⟨0, _⟩ => rfl

theorem real_ctr {z : FVec Ideal S65536x128 .f32} (hz : Real z) : Real (ctr z) := by
  intro i
  obtain ⟨p, q, rfl⟩ : ∃ (p : Fin 65536) (q : Fin 128), i = ix2 p q := ⟨i 0, i 1, eq_ix2 i⟩
  obtain ⟨a, ha⟩ := hz (ix2 p q)
  obtain ⟨s, hs⟩ := colSum_real hz (ix1 q)
  exact ⟨a - s * (1 / 65536), by rw [ctr_apply, ha, hs, ← EReal.coe_mul, ← EReal.coe_sub]⟩

theorem var_nonneg {z : FVec Ideal S65536x128 .f32} (hz : Real z) :
    ∀ q, ∃ v : ℝ, 0 ≤ v ∧ Cert.Spec.var (F := Ideal) z (constantI S_ 32 0#32) q = (v : EReal) := by
  intro q
  have hsq : ∀ i, ∃ r : ℝ, 0 ≤ r ∧ mulf (ctr z) (ctr z) i = (r : EReal) := by
    intro i
    obtain ⟨d, hd⟩ := real_ctr hz i
    exact ⟨d * d, mul_self_nonneg d, by rw [mulf_apply, hd, EReal.coe_mul]⟩
  obtain ⟨s, hs0, hs⟩ := colSum_nonneg hsq q
  exact ⟨s * (1 / 65536), by positivity, by rw [var_apply, hs, EReal.coe_mul]⟩

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem rstd_pos {z : FVec Ideal S65536x128 .f32} (hz : Real z) (q : S128.Idx) :
    ∃ r : ℝ, 0 < r ∧ Cert.Spec.rstd (F := Ideal) z q = (r : EReal) := by
  obtain ⟨v, hv0, hv⟩ := var_nonneg hz q
  obtain ⟨e, he0, he⟩ := ofBits_eps
  have hpos : 0 < v + e := by positivity
  refine ⟨(Real.sqrt (v + e))⁻¹, inv_pos.mpr (Real.sqrt_pos.mpr hpos), ?_⟩
  unfold Cert.Spec.rstd
  rw [hostRsqrt_apply, addf_apply, bcast0_apply, hv]
  show Ideal.rsqrt (_ + Ideal.ofBits .f32 0x3727C5AC#32) = _
  rw [he, ← EReal.coe_add, rsqrt_pos hpos]

theorem real_rstd {z : FVec Ideal S65536x128 .f32} (hz : Real z) : Real (Cert.Spec.rstd (F := Ideal) z) := by
  intro q
  obtain ⟨r, _, hr⟩ := rstd_pos hz q
  exact ⟨r, hr⟩

theorem coe_max (a b : ℝ) : ((max a b : ℝ) : EReal) = max (a : EReal) (b : EReal) :=
  EReal.coe_strictMono.monotone.map_max

theorem bn_apply (z : FVec Ideal S65536x128 .f32) (g b : FVec Ideal S128 .f32) (p : Fin 65536) (q : Fin 128) :
    Cert.Spec.bn (F := Ideal) z g b (ix2 p q)
      = max (((z (ix2 p q) - Cert.Spec.mean (F := Ideal) z (ix1 q)) * Cert.Spec.rstd (F := Ideal) z (ix1 q)) * g (ix1 q)
          + b (ix1 q)) 0 := by
  unfold Cert.Spec.bn
  rw [reluN_apply, addf_apply, mulf_apply, mulf_apply, subf_apply, rowsN_apply, rowsN_apply, rowsN_apply, rowsN_apply]

theorem affRelu_apply (z : FVec Ideal S65536x128 .f32) (sc sh : FVec Ideal S128 .f32) (p : Fin 65536) (q : Fin 128) :
    Cert.Spec.affRelu (F := Ideal) z sc sh (ix2 p q) = max (z (ix2 p q) * sc (ix1 q) + sh (ix1 q)) 0 := by
  unfold Cert.Spec.affRelu
  rw [reluN_apply, addf_apply, mulf_apply, rowsN_apply, rowsN_apply]

theorem law_real (z m r g b : ℝ) :
    max ((z : EReal) * ((g : EReal) * r) + ((b : EReal) - (m : EReal) * ((g : EReal) * r))) 0
      = max ((((z : EReal) - m) * r) * g + b) 0 := by
  rw [← EReal.coe_mul, ← EReal.coe_mul, ← EReal.coe_mul, ← EReal.coe_sub, ← EReal.coe_add,
    ← EReal.coe_sub, ← EReal.coe_mul, ← EReal.coe_mul, ← EReal.coe_add]
  congr 2
  ring

theorem affRelu_eq_bn {z : FVec Ideal S65536x128 .f32} {g b : FVec Ideal S128 .f32} (hz : Real z) (hg : Real g) (hb : Real b) :
    Cert.Spec.affRelu (F := Ideal) z (mulf g (Cert.Spec.rstd z))
        (subf b (mulf (Cert.Spec.mean z) (mulf g (Cert.Spec.rstd z))))
      = Cert.Spec.bn (F := Ideal) z g b := by
  funext i
  obtain ⟨p, q, rfl⟩ : ∃ (p : Fin 65536) (q : Fin 128), i = ix2 p q := ⟨i 0, i 1, eq_ix2 i⟩
  obtain ⟨zr, hzr⟩ := hz (ix2 p q)
  obtain ⟨m, hm⟩ := real_mean hz (ix1 q)
  obtain ⟨r, hr⟩ := real_rstd hz (ix1 q)
  obtain ⟨gr, hgr⟩ := hg (ix1 q)
  obtain ⟨br, hbr⟩ := hb (ix1 q)
  rw [affRelu_apply, bn_apply]
  simp only [subf_apply, mulf_apply]
  rw [hzr, hm, hr, hgr, hbr]
  exact law_real zr m r gr br

theorem real_bn {z : FVec Ideal S65536x128 .f32} {g b : FVec Ideal S128 .f32} (hz : Real z) (hg : Real g) (hb : Real b) :
    Real (Cert.Spec.bn (F := Ideal) z g b) := by
  intro i
  obtain ⟨p, q, rfl⟩ : ∃ (p : Fin 65536) (q : Fin 128), i = ix2 p q := ⟨i 0, i 1, eq_ix2 i⟩
  obtain ⟨zr, hzr⟩ := hz (ix2 p q)
  obtain ⟨m, hm⟩ := real_mean hz (ix1 q)
  obtain ⟨r, hr⟩ := real_rstd hz (ix1 q)
  obtain ⟨gr, hgr⟩ := hg (ix1 q)
  obtain ⟨br, hbr⟩ := hb (ix1 q)
  refine ⟨max (((zr - m) * r) * gr + br) 0, ?_⟩
  rw [bn_apply, hzr, hm, hr, hgr, hbr, ← EReal.coe_sub, ← EReal.coe_mul, ← EReal.coe_mul, ← EReal.coe_add, coe_max,
    EReal.coe_zero]

end Cert.BnLaw

end
-- ==== Proof.PreFacts.lean ====
import proofs.«426861_j66571993088626_2_alg».proof.Pre_finite_inputs
import proofs.«426861_j66571993088626_2_alg».proof.Proof.Basic
import Idealize.ShloMosaic.Lib.ReduceAll
import Idealize.ShloMosaic.Lib.ValueIdx
import Idealize.ShloMosaic.PureOps.Ideal

noncomputable section

namespace Cert.PreFacts

open Idealize.ShloMosaic
open Cert.Pre_finite_inputs (S_ S65536x64 S524288x32 S2x524288 S65536 S64x128 S128 S32x128 S128x128 S256x128 S128x1 S1
  fn fn_part1 fn_part2 fn_part3 fn_part4 fn_part5 fn_part6 fn_part7 fn_part8 fn_part9 fn_part10)
open Cert.Basic (Real Below)

structure Facts (a0 : FVec Ideal S65536x64 .f32) (a1 : FVec Ideal S524288x32 .f32) (a2 : IVec S2x524288 32) (a3 : IVec S65536 32)
    (a4 : FVec Ideal S64x128 .f32) (a5 : FVec Ideal S128 .f32) (a6 : FVec Ideal S32x128 .f32) (a7 : FVec Ideal S128 .f32)
    (a8 : FVec Ideal S128x128 .f32) (a9 : FVec Ideal S128 .f32) (a10 : FVec Ideal S128x128 .f32) (a11 : FVec Ideal S128 .f32)
    (a12 : FVec Ideal S128x128 .f32) (a13 : FVec Ideal S128 .f32) (a14 : FVec Ideal S128x128 .f32) (a15 : FVec Ideal S128 .f32)
    (a16 : FVec Ideal S128x128 .f32) (a17 : FVec Ideal S128 .f32) (a18 : FVec Ideal S128x128 .f32) (a19 : FVec Ideal S128 .f32)
    (a20 : FVec Ideal S128x128 .f32) (a21 : FVec Ideal S128 .f32) (a22 : FVec Ideal S128x128 .f32) (a23 : FVec Ideal S128 .f32)
    (a24 : FVec Ideal S128 .f32) (a25 : FVec Ideal S128 .f32) (a26 : FVec Ideal S128 .f32) (a27 : FVec Ideal S128 .f32)
    (a28 : FVec Ideal S128 .f32) (a29 : FVec Ideal S128 .f32) (a30 : FVec Ideal S128 .f32) (a31 : FVec Ideal S128 .f32)
    (a32 : FVec Ideal S256x128 .f32) (a33 : FVec Ideal S128 .f32) (a34 : FVec Ideal S128x1 .f32) (a35 : FVec Ideal S1 .f32) : Prop where
  r0 : Real a0
  r1 : Real a1
  i2 : Below 65536 a2
  r4 : Real a4
  r5 : Real a5
  r6 : Real a6
  r7 : Real a7
  r8 : Real a8
  r9 : Real a9
  r10 : Real a10
  r11 : Real a11
  r12 : Real a12
  r13 : Real a13
  r14 : Real a14
  r15 : Real a15
  r16 : Real a16
  r17 : Real a17
  r18 : Real a18
  r19 : Real a19
  r20 : Real a20
  r21 : Real a21
  r22 : Real a22
  r23 : Real a23
  r24 : Real a24
  r25 : Real a25
  r26 : Real a26
  r27 : Real a27
  r28 : Real a28
  r29 : Real a29
  r30 : Real a30
  r31 : Real a31
  r32 : Real a32
  r33 : Real a33
  r34 : Real a34
  r35 : Real a35

instance : Subsingleton S_.Idx := ⟨fun a b => funext fun d => d.elim0⟩

theorem inf_eq : FloatOps.ofBits (F := Ideal) .f32 0x7F800000#32 = (⊤ : EReal) := by
  simp [Ideal.ofBits, Ideal.ieee]

theorem const_inf : constant (F := Ideal) S_ .f32 0x7F800000#32 ValueIdx.ix0 = (⊤ : EReal) := inf_eq

theorem cmp_olt {x y : EReal} (h : FloatOps.cmpf (F := Ideal) (φ := .f32) .olt x y = 1#1) : x < y := by
  have h' : BitVec.ofBool (decide (x < y)) = 1#1 := h
  by_contra hn
  simp [hn] at h'

theorem bcast0 {α : Type} {s : Shape} (hb : S_.BroadcastsInDim s ![]) (c : S_.Idx → α) (i : s.Idx) :
    broadcastInDim s ![] hb c i = c ValueIdx.ix0 := by
  simp only [broadcastInDim]
  exact congrArg c (Subsingleton.elim _ _)

theorem real_of_abs_lt (x : EReal) (h : max x (-x) < ⊤) : ∃ r : ℝ, x = (r : EReal) := by
  induction x using EReal.rec with
  | bot => simp at h
  | coe r => exact ⟨r, rfl⟩
  | top => simp at h

theorem real_of_lt_top {s : Shape} (x : FVec Ideal s .f32) (h : ∀ i, Host.absf x i < (⊤ : EReal)) : Real x :=
  fun i => real_of_abs_lt (x i) (h i)

theorem lt_of_cmp {s : Shape} (y : FVec Ideal s .f32) (hb : S_.BroadcastsInDim s ![]) (c : FVec Ideal S_ .f32) (i : s.Idx)
    (h : cmpf .olt y (broadcastInDim s ![] hb c) i = 1#1) : y i < c ValueIdx.ix0 := by
  have h' := cmp_olt h
  rwa [bcast0] at h'

theorem real_of_all {s : Shape} (x : FVec Ideal s .f32) (hb : S_.BroadcastsInDim s ![])
    (h : ∀ i, cmpf .olt (Host.absf x) (broadcastInDim s ![] hb (constant S_ .f32 0x7F800000#32)) i = 1#1) : Real x :=
  real_of_lt_top x fun i => by
    have h' := lt_of_cmp _ hb _ i (h i)
    rwa [const_inf] at h'

theorem all_of_reduce {s : Shape} {axes : List (Fin s.rank)} (p : IVec s 1) (init : IVec S_ 1) (hr : s.ReducesTo axes S_)
    (hu : 0 < S_.numel) (h : Host.reduce IntOp.andi p init hr hu ValueIdx.ix0 = 1#1) (i : s.Idx) : p i = 1#1 :=
  Host.reduce_andi_all p init hr hu ValueIdx.ix0 h i

theorem and_step (acc q : IVec S_ 1) (h : andi acc q ValueIdx.ix0 = 1#1) : acc ValueIdx.ix0 = 1#1 ∧ q ValueIdx.ix0 = 1#1 :=
  IntOp.andi_eq_one.1 h

theorem step {s : Shape} {axes : List (Fin s.rank)} (acc : IVec S_ 1) (x : FVec Ideal s .f32) (hb : S_.BroadcastsInDim s ![])
    (init : IVec S_ 1) (hr : s.ReducesTo axes S_) (hu : 0 < S_.numel)
    (h : andi acc (Host.reduce IntOp.andi (cmpf .olt (Host.absf x) (broadcastInDim s ![] hb (constant S_ .f32 0x7F800000#32))) init hr hu)
      ValueIdx.ix0 = 1#1) : acc ValueIdx.ix0 = 1#1 ∧ Real x := by
  obtain ⟨h1, h2⟩ := and_step _ _ h
  exact ⟨h1, real_of_all x hb (all_of_reduce _ init hr hu h2)⟩

theorem below_of_cmp (a : BitVec 32) (h0 : IntOp.cmpi .sge a 0#32 = 1#1) (h1 : IntOp.cmpi .slt a 65536#32 = 1#1) :
    0 ≤ a.toInt ∧ a.toInt < 65536 := by
  have e0 := IntOp.cmpi_sge.1 h0
  have e1 := IntOp.cmpi_slt.1 h1
  rw [show (0#32 : BitVec 32).toInt = 0 from by decide] at e0
  rw [show (65536#32 : BitVec 32).toInt = 65536 from by decide] at e1
  exact ⟨e0, e1⟩

theorem cmpi_bcast {s : Shape} (p : CmpIPredicate) (a : IVec s 32) (hb : S_.BroadcastsInDim s ![]) (c : IVec S_ 32) (i : s.Idx)
    (h : cmpi p a (broadcastInDim s ![] hb c) i = 1#1) : IntOp.cmpi p (a i) (c ValueIdx.ix0) = 1#1 := by
  unfold cmpi at h
  rwa [bcast0] at h

variable [hP : Cert.Pre_finite_inputs.Facts]
variable (a0 : FVec Ideal S65536x64 .f32) (a1 : FVec Ideal S524288x32 .f32) (a2 : IVec S2x524288 32) (a3 : IVec S65536 32)
  (a4 : FVec Ideal S64x128 .f32) (a5 : FVec Ideal S128 .f32) (a6 : FVec Ideal S32x128 .f32) (a7 : FVec Ideal S128 .f32)
  (a8 : FVec Ideal S128x128 .f32) (a9 : FVec Ideal S128 .f32) (a10 : FVec Ideal S128x128 .f32) (a11 : FVec Ideal S128 .f32)
  (a12 : FVec Ideal S128x128 .f32) (a13 : FVec Ideal S128 .f32) (a14 : FVec Ideal S128x128 .f32) (a15 : FVec Ideal S128 .f32)
  (a16 : FVec Ideal S128x128 .f32) (a17 : FVec Ideal S128 .f32) (a18 : FVec Ideal S128x128 .f32) (a19 : FVec Ideal S128 .f32)
  (a20 : FVec Ideal S128x128 .f32) (a21 : FVec Ideal S128 .f32) (a22 : FVec Ideal S128x128 .f32) (a23 : FVec Ideal S128 .f32)
  (a24 : FVec Ideal S128 .f32) (a25 : FVec Ideal S128 .f32) (a26 : FVec Ideal S128 .f32) (a27 : FVec Ideal S128 .f32)
  (a28 : FVec Ideal S128 .f32) (a29 : FVec Ideal S128 .f32) (a30 : FVec Ideal S128 .f32) (a31 : FVec Ideal S128 .f32)
  (a32 : FVec Ideal S256x128 .f32) (a33 : FVec Ideal S128 .f32) (a34 : FVec Ideal S128x1 .f32) (a35 : FVec Ideal S1 .f32)

abbrev T9 : Prop := Real a33 ∧ Real a34 ∧ Real a35 ∧ Below 65536 a2

abbrev T8 : Prop := Real a30 ∧ Real a31 ∧ Real a32 ∧ T9 a2 a33 a34 a35

abbrev T7 : Prop := Real a27 ∧ Real a28 ∧ Real a29 ∧ T8 a2 a30 a31 a32 a33 a34 a35

abbrev T6 : Prop := Real a23 ∧ Real a24 ∧ Real a25 ∧ Real a26 ∧ T7 a2 a27 a28 a29 a30 a31 a32 a33 a34 a35

abbrev T5 : Prop := Real a20 ∧ Real a21 ∧ Real a22 ∧ T6 a2 a23 a24 a25 a26 a27 a28 a29 a30 a31 a32 a33 a34 a35

abbrev T4 : Prop :=
  Real a16 ∧ Real a17 ∧ Real a18 ∧ Real a19 ∧ T5 a2 a20 a21 a22 a23 a24 a25 a26 a27 a28 a29 a30 a31 a32 a33 a34 a35

abbrev T3 : Prop :=
  Real a13 ∧ Real a14 ∧ Real a15 ∧ T4 a2 a16 a17 a18 a19 a20 a21 a22 a23 a24 a25 a26 a27 a28 a29 a30 a31 a32 a33 a34 a35

abbrev T2 : Prop :=
  Real a9 ∧ Real a10 ∧ Real a11 ∧ Real a12 ∧
    T3 a2 a13 a14 a15 a16 a17 a18 a19 a20 a21 a22 a23 a24 a25 a26 a27 a28 a29 a30 a31 a32 a33 a34 a35

abbrev T1 : Prop :=
  Real a6 ∧ Real a7 ∧ Real a8 ∧
    T2 a2 a9 a10 a11 a12 a13 a14 a15 a16 a17 a18 a19 a20 a21 a22 a23 a24 a25 a26 a27 a28 a29 a30 a31 a32 a33 a34 a35

theorem part10 (v168 : IVec S_ 1) (v170 : IVec S2x524288 1)
    (h : fn_part10 (F := Ideal) a2 v168 v170 ValueIdx.ix0 = 1#1) :
    v168 ValueIdx.ix0 = 1#1 ∧ ∀ i, v170 i = 1#1 ∧ IntOp.cmpi .slt (a2 i) 65536#32 = 1#1 := by
  dsimp only [fn_part10] at h
  obtain ⟨h1, h2⟩ := and_step _ _ h
  refine ⟨h1, fun i => ?_⟩
  obtain ⟨h3, h4⟩ := IntOp.andi_eq_one.1 (all_of_reduce _ _ _ _ h2 i)
  exact ⟨h3, cmpi_bcast _ _ _ _ i h4⟩

theorem part9 (v153 : IVec S_ 1) (h : fn_part9 (F := Ideal) a2 a33 a34 a35 v153 ValueIdx.ix0 = 1#1) :
    v153 ValueIdx.ix0 = 1#1 ∧ T9 a2 a33 a34 a35 := by
  dsimp only [fn_part9] at h
  obtain ⟨h, hi⟩ := part10 _ _ _ h
  obtain ⟨h, r35⟩ := step _ _ _ _ _ _ h
  obtain ⟨h, r34⟩ := step _ _ _ _ _ _ h
  obtain ⟨h, r33⟩ := step _ _ _ _ _ _ h
  exact ⟨h, r33, r34, r35, fun i => below_of_cmp _ (cmpi_bcast _ _ _ _ i (hi i).1) (hi i).2⟩

theorem part8 (v133 : IVec S_ 1) (v136 : IVec S128 1)
    (h : fn_part8 (F := Ideal) a2 a30 a31 a32 a33 a34 a35 v133 v136 ValueIdx.ix0 = 1#1) :
    v133 ValueIdx.ix0 = 1#1 ∧ (∀ i, v136 i = 1#1) ∧ T8 a2 a30 a31 a32 a33 a34 a35 := by
  dsimp only [fn_part8] at h
  obtain ⟨h, t⟩ := part9 _ _ _ _ _ h
  obtain ⟨h, r32⟩ := step _ _ _ _ _ _ h
  obtain ⟨h, r31⟩ := step _ _ _ _ _ _ h
  obtain ⟨h, r30⟩ := step _ _ _ _ _ _ h
  obtain ⟨h, h136⟩ := and_step _ _ h
  exact ⟨h, all_of_reduce _ _ _ _ h136, r30, r31, r32, t⟩

theorem part7 (v118 : IVec S_ 1) (v119 : FVec Ideal S128 .f32)
    (h : fn_part7 (F := Ideal) a2 a27 a28 a29 a30 a31 a32 a33 a34 a35 v118 v119 ValueIdx.ix0 = 1#1) :
    v118 ValueIdx.ix0 = 1#1 ∧ (∀ i, v119 i < (⊤ : EReal)) ∧ T7 a2 a27 a28 a29 a30 a31 a32 a33 a34 a35 := by
  dsimp only [fn_part7] at h
  obtain ⟨h, h136, t⟩ := part8 _ _ _ _ _ _ _ _ _ h
  have r29 := real_of_all _ _ h136
  obtain ⟨h, r28⟩ := step _ _ _ _ _ _ h
  obtain ⟨h, r27⟩ := step _ _ _ _ _ _ h
  obtain ⟨h, h122⟩ := and_step _ _ h
  refine ⟨h, fun i => ?_, r27, r28, r29, t⟩
  have h' := lt_of_cmp _ _ _ i (all_of_reduce _ _ _ _ h122 i)
  rwa [const_inf] at h'

theorem part6 (v98 : IVec S_ 1) (v101 : IVec S128x128 1) (c39 : IVec S_ 1)
    (h : fn_part6 (F := Ideal) a2 a23 a24 a25 a26 a27 a28 a29 a30 a31 a32 a33 a34 a35 v98 v101 c39 ValueIdx.ix0 = 1#1) :
    v98 ValueIdx.ix0 = 1#1 ∧ (∀ i, v101 i = 1#1) ∧ T6 a2 a23 a24 a25 a26 a27 a28 a29 a30 a31 a32 a33 a34 a35 := by
  dsimp only [fn_part6] at h
  obtain ⟨h, h119, t⟩ := part7 _ _ _ _ _ _ _ _ _ _ _ _ h
  have r26 := real_of_lt_top a26 h119
  obtain ⟨h, r25⟩ := step _ _ _ _ _ _ h
  obtain ⟨h, r24⟩ := step _ _ _ _ _ _ h
  obtain ⟨h, r23⟩ := step _ _ _ _ _ _ h
  obtain ⟨h, h102⟩ := and_step _ _ h
  exact ⟨h, all_of_reduce _ _ _ _ h102, r23, r24, r25, r26, t⟩

theorem part5 (v83 : IVec S_ 1) (v84 : FVec Ideal S128 .f32) (c32 : FVec Ideal S_ .f32)
    (h : fn_part5 (F := Ideal) a2 a20 a21 a22 a23 a24 a25 a26 a27 a28 a29 a30 a31 a32 a33 a34 a35 v83 v84 c32 ValueIdx.ix0 = 1#1) :
    v83 ValueIdx.ix0 = 1#1 ∧ (∀ i, v84 i < c32 ValueIdx.ix0) ∧
      T5 a2 a20 a21 a22 a23 a24 a25 a26 a27 a28 a29 a30 a31 a32 a33 a34 a35 := by
  dsimp only [fn_part5] at h
  obtain ⟨h, h101, t⟩ := part6 _ _ _ _ _ _ _ _ _ _ _ _ _ _ _ _ _ h
  have r22 := real_of_all _ _ h101
  obtain ⟨h, r21⟩ := step _ _ _ _ _ _ h
  obtain ⟨h, r20⟩ := step _ _ _ _ _ _ h
  obtain ⟨h, h87⟩ := and_step _ _ h
  exact ⟨h, fun i => lt_of_cmp _ _ _ i (all_of_reduce _ _ _ _ h87 i), r20, r21, r22, t⟩

theorem part4 (v63 v67 : IVec S_ 1)
    (h : fn_part4 (F := Ideal) a2 a16 a17 a18 a19 a20 a21 a22 a23 a24 a25 a26 a27 a28 a29 a30 a31 a32 a33 a34 a35 v63 v67
      ValueIdx.ix0 = 1#1) :
    v63 ValueIdx.ix0 = 1#1 ∧ v67 ValueIdx.ix0 = 1#1 ∧
      T4 a2 a16 a17 a18 a19 a20 a21 a22 a23 a24 a25 a26 a27 a28 a29 a30 a31 a32 a33 a34 a35 := by
  dsimp only [fn_part4] at h
  obtain ⟨h, h84, t⟩ := part5 _ _ _ _ _ _ _ _ _ _ _ _ _ _ _ _ _ _ _ _ h
  have r19 := real_of_lt_top a19 fun i => by
    have h' := h84 i
    rwa [const_inf] at h'
  obtain ⟨h, r18⟩ := step _ _ _ _ _ _ h
  obtain ⟨h, r17⟩ := step _ _ _ _ _ _ h
  obtain ⟨h, r16⟩ := step _ _ _ _ _ _ h
  obtain ⟨h, h67⟩ := and_step _ _ h
  exact ⟨h, h67, r16, r17, r18, r19, t⟩

theorem part3 (v48 : IVec S_ 1) (v49 v50 : FVec Ideal S128x128 .f32)
    (h : fn_part3 (F := Ideal) a2 a13 a14 a15 a16 a17 a18 a19 a20 a21 a22 a23 a24 a25 a26 a27 a28 a29 a30 a31 a32 a33 a34 a35
      v48 v49 v50 ValueIdx.ix0 = 1#1) :
    v48 ValueIdx.ix0 = 1#1 ∧ (∀ i, v49 i < v50 i) ∧
      T3 a2 a13 a14 a15 a16 a17 a18 a19 a20 a21 a22 a23 a24 a25 a26 a27 a28 a29 a30 a31 a32 a33 a34 a35 := by
  dsimp only [fn_part3] at h
  obtain ⟨h, h67, t⟩ := part4 _ _ _ _ _ _ _ _ _ _ _ _ _ _ _ _ _ _ _ _ _ _ _ h
  have r15 := real_of_all _ _ (all_of_reduce _ _ _ _ h67)
  obtain ⟨h, r14⟩ := step _ _ _ _ _ _ h
  obtain ⟨h, r13⟩ := step _ _ _ _ _ _ h
  obtain ⟨h, h52⟩ := and_step _ _ h
  exact ⟨h, fun i => cmp_olt (all_of_reduce _ _ _ _ h52 i), r13, r14, r15, t⟩

theorem part2 (v33 : IVec S_ 1)
    (h : fn_part2 (F := Ideal) a2 a9 a10 a11 a12 a13 a14 a15 a16 a17 a18 a19 a20 a21 a22 a23 a24 a25 a26 a27 a28 a29 a30 a31 a32
      a33 a34 a35 v33 ValueIdx.ix0 = 1#1) :
    v33 ValueIdx.ix0 = 1#1 ∧
      T2 a2 a9 a10 a11 a12 a13 a14 a15 a16 a17 a18 a19 a20 a21 a22 a23 a24 a25 a26 a27 a28 a29 a30 a31 a32 a33 a34 a35 := by
  dsimp only [fn_part2] at h
  obtain ⟨h, h49, t⟩ := part3 _ _ _ _ _ _ _ _ _ _ _ _ _ _ _ _ _ _ _ _ _ _ _ _ _ _ _ h
  have r12 := real_of_lt_top a12 fun i => by
    have h' := h49 i
    rwa [bcast0, const_inf] at h'
  obtain ⟨h, r11⟩ := step _ _ _ _ _ _ h
  obtain ⟨h, r10⟩ := step _ _ _ _ _ _ h
  obtain ⟨h, r9⟩ := step _ _ _ _ _ _ h
  exact ⟨h, r9, r10, r11, r12, t⟩

theorem part1 (v13 : IVec S_ 1) (v16 : IVec S128 1)
    (h : fn_part1 (F := Ideal) a2 a6 a7 a8 a9 a10 a11 a12 a13 a14 a15 a16 a17 a18 a19 a20 a21 a22 a23 a24 a25 a26 a27 a28 a29 a30
      a31 a32 a33 a34 a35 v13 v16 ValueIdx.ix0 = 1#1) :
    v13 ValueIdx.ix0 = 1#1 ∧ (∀ i, v16 i = 1#1) ∧
      T1 a2 a6 a7 a8 a9 a10 a11 a12 a13 a14 a15 a16 a17 a18 a19 a20 a21 a22 a23 a24 a25 a26 a27 a28 a29 a30 a31 a32 a33 a34 a35 := by
  dsimp only [fn_part1] at h
  obtain ⟨h, t⟩ := part2 _ _ _ _ _ _ _ _ _ _ _ _ _ _ _ _ _ _ _ _ _ _ _ _ _ _ _ _ _ h
  obtain ⟨h, r8⟩ := step _ _ _ _ _ _ h
  obtain ⟨h, r7⟩ := step _ _ _ _ _ _ h
  obtain ⟨h, r6⟩ := step _ _ _ _ _ _ h
  obtain ⟨h, h17⟩ := and_step _ _ h
  exact ⟨h, all_of_reduce _ _ _ _ h17, r6, r7, r8, t⟩

theorem decode
    (h : fn (F := Ideal) a0 a1 a2 a3 a4 a5 a6 a7 a8 a9 a10 a11 a12 a13 a14 a15 a16 a17 a18 a19 a20 a21 a22 a23 a24 a25 a26 a27 a28
      a29 a30 a31 a32 a33 a34 a35 = fun _ => 1#1) :
    Facts a0 a1 a2 a3 a4 a5 a6 a7 a8 a9 a10 a11 a12 a13 a14 a15 a16 a17 a18 a19 a20 a21 a22 a23 a24 a25 a26 a27 a28 a29 a30 a31 a32
      a33 a34 a35 := by
  have h : fn (F := Ideal) a0 a1 a2 a3 a4 a5 a6 a7 a8 a9 a10 a11 a12 a13 a14 a15 a16 a17 a18 a19 a20 a21 a22 a23 a24 a25 a26 a27
      a28 a29 a30 a31 a32 a33 a34 a35 ValueIdx.ix0 = 1#1 := congrFun h ValueIdx.ix0
  dsimp only [fn] at h
  obtain ⟨h, h16, t⟩ := part1 _ _ _ _ _ _ _ _ _ _ _ _ _ _ _ _ _ _ _ _ _ _ _ _ _ _ _ _ _ _ _ _ _ h
  have r5 := real_of_all _ _ h16
  obtain ⟨h, r4⟩ := step _ _ _ _ _ _ h
  obtain ⟨h, r1⟩ := step _ _ _ _ _ _ h
  have r0 := real_of_all _ _ (all_of_reduce _ _ _ _ h)
  obtain ⟨r6, r7, r8, r9, r10, r11, r12, r13, r14, r15, r16, r17, r18, r19, r20, r21, r22, r23, r24, r25, r26, r27, r28, r29,
    r30, r31, r32, r33, r34, r35, i2⟩ := t
  exact ⟨r0, r1, i2, r4, r5, r6, r7, r8, r9, r10, r11, r12, r13, r14, r15, r16, r17, r18, r19, r20, r21, r22, r23, r24, r25, r26,
    r27, r28, r29, r30, r31, r32, r33, r34, r35⟩

end Cert.PreFacts

end
-- ==== Proof.Keep.lean ====
import proofs.«426861_j66571993088626_2_alg».proof.Proof.Gen.KernelIdeal.Frame

set_option maxRecDepth 16384

noncomputable section

namespace Cert.KernelIdeal.Keep

open Cert.KernelIdeal Cert.KernelIdeal.Gen Idealize.ShloMosaic Idealize.ShloMosaic.TcCoe

variable {F : FTy → Type} [FloatOps F] (m : (ℓ : Loc nD τ sig) → Buf (Elt F) ℓ) (ρ : Dev nD → PrngReg)

-- A reference's number: the program numbers its values in the order it produces them, the arguments first.
def refIdx (b : Ref sig .tc) : Nat := b.idx.val

-- Every buffer the operation writes is numbered from n on.
def Above (n : Nat) (op : HloOp τ sig (Elt F)) : Prop :=
  ∀ y : Ref sig .tc, Proc.devRef (τ := τ) .tc y ∈ op.writes → n ≤ refIdx y

theorem above_single {n : Nat} {y0 : Ref sig .tc} (h : n ≤ refIdx y0) (y : Ref sig .tc)
    (hy : Proc.devRef (τ := τ) .tc y ∈ ({Proc.devRef (τ := τ) .tc y0} : Finset (DevRef τ sig))) : n ≤ refIdx y := by
  obtain rfl := Proc.devRef_injective _ (Finset.mem_singleton.mp hy); exact h

-- Operations that write only buffers numbered from n on leave a buffer numbered below n as it was.
theorem host_keep (ops : List (HloOp τ sig (Elt F))) (V : Valuation τ sig (Elt F)) {n : Nat} (h : ops.Forall (Above n))
    (b : Ref sig .tc) (hb : refIdx b < n) : StableHlo.after ops V (Proc.devRef .tc b) = V (Proc.devRef .tc b) :=
  StableHlo.after_of_forall_not_mem ops V fun op hop hw =>
    absurd (List.forall_iff_forall_mem.mp h op hop b hw) (Nat.not_le.mpr hb)

-- If every output array is numbered from n on, a buffer numbered below n is an input array or none of the arrays.

theorem region_keep {W : Nat} (arr : Fin W → Ref sig .tc) (isOut : Fin W → Bool) {n : Nat}
    (hout : ∀ w, isOut w = true → n ≤ refIdx (arr w)) {A B : Valuation τ sig (Elt F)}
    (hin : ∀ w, isOut w = false → A (Proc.devRef .tc (arr w)) = B (Proc.devRef .tc (arr w)))
    (hne : ∀ b, (∀ w, arr w ≠ b) → A (Proc.devRef .tc b) = B (Proc.devRef .tc b))
    (b : Ref sig .tc) (hb : refIdx b < n) : A (Proc.devRef .tc b) = B (Proc.devRef .tc b) := by
  by_cases h : ∃ w, arr w = b
  · obtain ⟨w, rfl⟩ := h
    cases hw : isOut w
    · exact hin w hw
    · exact absurd (hout w hw) (Nat.not_le.mpr hb)
  · exact hne b fun w e => h ⟨w, e⟩

-- B holds at every buffer numbered below n what A holds there.
def Keeps (n : Nat) (A B : Dev nD → Valuation τ sig (Elt F)) : Prop :=
  ∀ (c : Dev nD) (b : Ref sig .tc), refIdx b < n → B c (Proc.devRef .tc b) = A c (Proc.devRef .tc b)

abbrev HostOps (F : FTy → Type) [FloatOps F] := List (HloOp τ sig (Elt F))

-- Each stretch of host operations writes only buffers numbered from its first destination on.
theorem above :
    (hostOps0 : HostOps F).Forall (Above 36) ∧
    (hostOps1 : HostOps F).Forall (Above 43) ∧
    (hostOps2 : HostOps F).Forall (Above 45) ∧
    (hostOps2_1 : HostOps F).Forall (Above 68) ∧
    (hostOps2_2 : HostOps F).Forall (Above 69) ∧
    (hostOps2_3 : HostOps F).Forall (Above 72) ∧
    (hostOps3 : HostOps F).Forall (Above 79) ∧
    (hostOps3_1 : HostOps F).Forall (Above 85) ∧
    (hostOps3_2 : HostOps F).Forall (Above 107) ∧
    (hostOps4 : HostOps F).Forall (Above 117) ∧
    (hostOps4_1 : HostOps F).Forall (Above 140) ∧
    (hostOps4_2 : HostOps F).Forall (Above 141) ∧
    (hostOps4_3 : HostOps F).Forall (Above 144) ∧
    (hostOps5 : HostOps F).Forall (Above 151) ∧
    (hostOps5_1 : HostOps F).Forall (Above 157) ∧
    (hostOps5_2 : HostOps F).Forall (Above 179) ∧
    (hostOps6 : HostOps F).Forall (Above 189) ∧
    (hostOps6_1 : HostOps F).Forall (Above 212) ∧
    (hostOps6_2 : HostOps F).Forall (Above 213) ∧
    (hostOps6_3 : HostOps F).Forall (Above 216) ∧
    (hostOps7 : HostOps F).Forall (Above 223) ∧
    (hostOps7_1 : HostOps F).Forall (Above 229) ∧
    (hostOps7_2 : HostOps F).Forall (Above 251) ∧
    (hostOps8 : HostOps F).Forall (Above 261) ∧
    (hostOps8_1 : HostOps F).Forall (Above 284) ∧
    (hostOps8_2 : HostOps F).Forall (Above 285) ∧
    (hostOps8_3 : HostOps F).Forall (Above 288) ∧
    (hostOps9 : HostOps F).Forall (Above 295) ∧
    (hostOps9_1 : HostOps F).Forall (Above 301) ∧
    (hostOps9_2 : HostOps F).Forall (Above 323) ∧
    (hostOps11 : HostOps F).Forall (Above 334) ∧
    (hostOps11_1 : HostOps F).Forall (Above 340) ∧
    (hostOps11_2 : HostOps F).Forall (Above 343) := by
  simp only [hostOps0, hostOps1, hostOps2, hostOps2_1, hostOps2_2, hostOps2_3, hostOps3, hostOps3_1, hostOps3_2, hostOps4,
    hostOps4_1, hostOps4_2, hostOps4_3, hostOps5, hostOps5_1, hostOps5_2, hostOps6, hostOps6_1, hostOps6_2,
    hostOps6_3, hostOps7, hostOps7_1, hostOps7_2, hostOps8, hostOps8_1, hostOps8_2, hostOps8_3, hostOps9, hostOps9_1,
    hostOps9_2, hostOps11, hostOps11_1, hostOps11_2, List.Forall]
  repeat' apply And.intro
  all_goals exact above_single (by decide)

-- The run's 44 segments: the contents before and after each, with the least number of a buffer the segment writes.
inductive Link : Nat → (Dev nD → Valuation τ sig (Elt F)) → (Dev nD → Valuation τ sig (Elt F)) → Prop
  | l1 : Link 36 (W0 m ρ) (W1 m ρ)
  | l2 : Link 42 (W1 m ρ) (W2 m ρ)
  | l3 : Link 43 (W2 m ρ) (W3 m ρ)
  | l4 : Link 44 (W3 m ρ) (W4 m ρ)
  | l5 : Link 45 (W4 m ρ) (W5 m ρ)
  | l6 : Link 68 (W5 m ρ) (W6 m ρ)
  | l7 : Link 69 (W6 m ρ) (W7 m ρ)
  | l8 : Link 72 (W7 m ρ) (W8 m ρ)
  | l9 : Link 78 (W8 m ρ) (W9 m ρ)
  | l10 : Link 79 (W9 m ρ) (W10 m ρ)
  | l11 : Link 85 (W10 m ρ) (W11 m ρ)
  | l12 : Link 107 (W11 m ρ) (W12 m ρ)
  | l13 : Link 116 (W12 m ρ) (W13 m ρ)
  | l14 : Link 117 (W13 m ρ) (W14 m ρ)
  | l15 : Link 140 (W14 m ρ) (W15 m ρ)
  | l16 : Link 141 (W15 m ρ) (W16 m ρ)
  | l17 : Link 144 (W16 m ρ) (W17 m ρ)
  | l18 : Link 150 (W17 m ρ) (W18 m ρ)
  | l19 : Link 151 (W18 m ρ) (W19 m ρ)
  | l20 : Link 157 (W19 m ρ) (W20 m ρ)
  | l21 : Link 179 (W20 m ρ) (W21 m ρ)
  | l22 : Link 188 (W21 m ρ) (W22 m ρ)
  | l23 : Link 189 (W22 m ρ) (W23 m ρ)
  | l24 : Link 212 (W23 m ρ) (W24 m ρ)
  | l25 : Link 213 (W24 m ρ) (W25 m ρ)
  | l26 : Link 216 (W25 m ρ) (W26 m ρ)
  | l27 : Link 222 (W26 m ρ) (W27 m ρ)
  | l28 : Link 223 (W27 m ρ) (W28 m ρ)
  | l29 : Link 229 (W28 m ρ) (W29 m ρ)
  | l30 : Link 251 (W29 m ρ) (W30 m ρ)
  | l31 : Link 260 (W30 m ρ) (W31 m ρ)
  | l32 : Link 261 (W31 m ρ) (W32 m ρ)
  | l33 : Link 284 (W32 m ρ) (W33 m ρ)
  | l34 : Link 285 (W33 m ρ) (W34 m ρ)
  | l35 : Link 288 (W34 m ρ) (W35 m ρ)
  | l36 : Link 294 (W35 m ρ) (W36 m ρ)
  | l37 : Link 295 (W36 m ρ) (W37 m ρ)
  | l38 : Link 301 (W37 m ρ) (W38 m ρ)
  | l39 : Link 323 (W38 m ρ) (W39 m ρ)
  | l40 : Link 332 (W39 m ρ) (W40 m ρ)
  | l41 : Link 333 (W40 m ρ) (W41 m ρ)
  | l42 : Link 334 (W41 m ρ) (W42 m ρ)
  | l43 : Link 340 (W42 m ρ) (W43 m ρ)
  | l44 : Link 343 (W43 m ρ) (W44 m ρ)

variable {m ρ}

-- A segment leaves a buffer numbered below its first destination as it was.
theorem Link.keeps {n : Nat} {A B : Dev nD → Valuation τ sig (Elt F)} (h : Link m ρ n A B) : Keeps n A B := by
  obtain ⟨a1, a3, a5, a6, a7, a8, a10, a11, a12, a14, a15, a16, a17, a19, a20, a21, a23, a24, a25, a26, a28, a29, a30, a32, a33, a34, a35, a37, a38, a39, a42, a43, a44⟩ := above (F := F)
  cases h
  exacts [fun c b hb => host_keep hostOps0 _ a1 b hb,
    fun c b hb => region_keep (Pipeline.arrRef spec0) (fun w => (cfg0.win w).isOut) (by decide)
      (fun w hw => (W2_arr m ρ c w).trans (((dat0 (V1 m ρ) c).arrAt_in w hw _).trans (A_eq0 (V1 m ρ) c w)))
      (W2_of_ne m ρ c) b hb,
    fun c b hb => host_keep hostOps1 _ a3 b hb,
    fun c b hb => region_keep (Pipeline.arrRef spec1) (fun w => (cfg1.win w).isOut) (by decide)
      (fun w hw => (W4_arr m ρ c w).trans (((dat1 (V3 m ρ) c).arrAt_in w hw _).trans (A_eq1 (V3 m ρ) c w)))
      (W4_of_ne m ρ c) b hb,
    fun c b hb => host_keep hostOps2 _ a5 b hb,
    fun c b hb => host_keep hostOps2_1 _ a6 b hb,
    fun c b hb => host_keep hostOps2_2 _ a7 b hb,
    fun c b hb => host_keep hostOps2_3 _ a8 b hb,
    fun c b hb => region_keep (Pipeline.arrRef spec2) (fun w => (cfg2.win w).isOut) (by decide)
      (fun w hw => (W9_arr m ρ c w).trans (((dat2 (V8 m ρ) c).arrAt_in w hw _).trans (A_eq2 (V8 m ρ) c w)))
      (W9_of_ne m ρ c) b hb,
    fun c b hb => host_keep hostOps3 _ a10 b hb,
    fun c b hb => host_keep hostOps3_1 _ a11 b hb,
    fun c b hb => host_keep hostOps3_2 _ a12 b hb,
    fun c b hb => region_keep (Pipeline.arrRef spec3) (fun w => (cfg3.win w).isOut) (by decide)
      (fun w hw => (W13_arr m ρ c w).trans (((dat3 (V12 m ρ) c).arrAt_in w hw _).trans (A_eq3 (V12 m ρ) c w)))
      (W13_of_ne m ρ c) b hb,
    fun c b hb => host_keep hostOps4 _ a14 b hb,
    fun c b hb => host_keep hostOps4_1 _ a15 b hb,
    fun c b hb => host_keep hostOps4_2 _ a16 b hb,
    fun c b hb => host_keep hostOps4_3 _ a17 b hb,
    fun c b hb => region_keep (Pipeline.arrRef spec4) (fun w => (cfg4.win w).isOut) (by decide)
      (fun w hw => (W18_arr m ρ c w).trans (((dat4 (V17 m ρ) c).arrAt_in w hw _).trans (A_eq4 (V17 m ρ) c w)))
      (W18_of_ne m ρ c) b hb,
    fun c b hb => host_keep hostOps5 _ a19 b hb,
    fun c b hb => host_keep hostOps5_1 _ a20 b hb,
    fun c b hb => host_keep hostOps5_2 _ a21 b hb,
    fun c b hb => region_keep (Pipeline.arrRef spec5) (fun w => (cfg5.win w).isOut) (by decide)
      (fun w hw => (W22_arr m ρ c w).trans (((dat5 (V21 m ρ) c).arrAt_in w hw _).trans (A_eq5 (V21 m ρ) c w)))
      (W22_of_ne m ρ c) b hb,
    fun c b hb => host_keep hostOps6 _ a23 b hb,
    fun c b hb => host_keep hostOps6_1 _ a24 b hb,
    fun c b hb => host_keep hostOps6_2 _ a25 b hb,
    fun c b hb => host_keep hostOps6_3 _ a26 b hb,
    fun c b hb => region_keep (Pipeline.arrRef spec6) (fun w => (cfg6.win w).isOut) (by decide)
      (fun w hw => (W27_arr m ρ c w).trans (((dat6 (V26 m ρ) c).arrAt_in w hw _).trans (A_eq6 (V26 m ρ) c w)))
      (W27_of_ne m ρ c) b hb,
    fun c b hb => host_keep hostOps7 _ a28 b hb,
    fun c b hb => host_keep hostOps7_1 _ a29 b hb,
    fun c b hb => host_keep hostOps7_2 _ a30 b hb,
    fun c b hb => region_keep (Pipeline.arrRef spec7) (fun w => (cfg7.win w).isOut) (by decide)
      (fun w hw => (W31_arr m ρ c w).trans (((dat7 (V30 m ρ) c).arrAt_in w hw _).trans (A_eq7 (V30 m ρ) c w)))
      (W31_of_ne m ρ c) b hb,
    fun c b hb => host_keep hostOps8 _ a32 b hb,
    fun c b hb => host_keep hostOps8_1 _ a33 b hb,
    fun c b hb => host_keep hostOps8_2 _ a34 b hb,
    fun c b hb => host_keep hostOps8_3 _ a35 b hb,
    fun c b hb => region_keep (Pipeline.arrRef spec8) (fun w => (cfg8.win w).isOut) (by decide)
      (fun w hw => (W36_arr m ρ c w).trans (((dat8 (V35 m ρ) c).arrAt_in w hw _).trans (A_eq8 (V35 m ρ) c w)))
      (W36_of_ne m ρ c) b hb,
    fun c b hb => host_keep hostOps9 _ a37 b hb,
    fun c b hb => host_keep hostOps9_1 _ a38 b hb,
    fun c b hb => host_keep hostOps9_2 _ a39 b hb,
    fun c b hb => region_keep (Pipeline.arrRef spec9) (fun w => (cfg9.win w).isOut) (by decide)
      (fun w hw => (W40_arr m ρ c w).trans (((dat9 (V39 m ρ) c).arrAt_in w hw _).trans (A_eq9 (V39 m ρ) c w)))
      (W40_of_ne m ρ c) b hb,
    fun c b hb => region_keep (Pipeline.arrRef spec10) (fun w => (cfg10.win w).isOut) (by decide)
      (fun w hw => (W41_arr m ρ c w).trans (((dat10 (V40 m ρ) c).arrAt_in w hw _).trans (A_eq10 (V40 m ρ) c w)))
      (W41_of_ne m ρ c) b hb,
    fun c b hb => host_keep hostOps11 _ a42 b hb,
    fun c b hb => host_keep hostOps11_1 _ a43 b hb,
    fun c b hb => host_keep hostOps11_2 _ a44 b hb]

-- The numbers written grow along the run, so what holds across some segments holds across one more.
theorem Keeps.link {n n' : Nat} {A B C : Dev nD → Valuation τ sig (Elt F)} (h : Keeps n A B) (l : Link m ρ n' B C)
    (hn : n ≤ n' := by decide) : Keeps n A C :=
  fun c b hb => (l.keeps c b (Nat.lt_of_lt_of_le hb hn)).trans (h c b hb)

variable (m ρ)

theorem s0_1 : Keeps 36 (W0 m ρ) (W1 m ρ) := Link.keeps .l1
theorem s0_2 : Keeps 36 (W0 m ρ) (W2 m ρ) := (s0_1 m ρ).link .l2
theorem s0_3 : Keeps 36 (W0 m ρ) (W3 m ρ) := (s0_2 m ρ).link .l3
theorem s0_7 : Keeps 36 (W0 m ρ) (W7 m ρ) := ((((s0_3 m ρ).link .l4).link .l5).link .l6).link .l7
theorem s0_8 : Keeps 36 (W0 m ρ) (W8 m ρ) := (s0_7 m ρ).link .l8
theorem s0_11 : Keeps 36 (W0 m ρ) (W11 m ρ) := (((s0_8 m ρ).link .l9).link .l10).link .l11
theorem s0_16 : Keeps 36 (W0 m ρ) (W16 m ρ) := (((((s0_11 m ρ).link .l12).link .l13).link .l14).link .l15).link .l16
theorem s0_17 : Keeps 36 (W0 m ρ) (W17 m ρ) := (s0_16 m ρ).link .l17
theorem s0_20 : Keeps 36 (W0 m ρ) (W20 m ρ) := (((s0_17 m ρ).link .l18).link .l19).link .l20
theorem s0_25 : Keeps 36 (W0 m ρ) (W25 m ρ) := (((((s0_20 m ρ).link .l21).link .l22).link .l23).link .l24).link .l25
theorem s0_26 : Keeps 36 (W0 m ρ) (W26 m ρ) := (s0_25 m ρ).link .l26
theorem s0_29 : Keeps 36 (W0 m ρ) (W29 m ρ) := (((s0_26 m ρ).link .l27).link .l28).link .l29
theorem s0_34 : Keeps 36 (W0 m ρ) (W34 m ρ) := (((((s0_29 m ρ).link .l30).link .l31).link .l32).link .l33).link .l34
theorem s0_35 : Keeps 36 (W0 m ρ) (W35 m ρ) := (s0_34 m ρ).link .l35
theorem s0_38 : Keeps 36 (W0 m ρ) (W38 m ρ) := (((s0_35 m ρ).link .l36).link .l37).link .l38
theorem s0_41 : Keeps 36 (W0 m ρ) (W41 m ρ) := (((s0_38 m ρ).link .l39).link .l40).link .l41
theorem s0_43 : Keeps 36 (W0 m ρ) (W43 m ρ) := ((s0_41 m ρ).link .l42).link .l43
theorem s4_5 : Keeps 45 (W4 m ρ) (W5 m ρ) := Link.keeps .l5
theorem s4_7 : Keeps 45 (W4 m ρ) (W7 m ρ) := ((s4_5 m ρ).link .l6).link .l7
theorem s4_8 : Keeps 45 (W4 m ρ) (W8 m ρ) := (s4_7 m ρ).link .l8
theorem s4_13 : Keeps 45 (W4 m ρ) (W13 m ρ) := (((((s4_8 m ρ).link .l9).link .l10).link .l11).link .l12).link .l13
theorem s4_14 : Keeps 45 (W4 m ρ) (W14 m ρ) := (s4_13 m ρ).link .l14
theorem s4_16 : Keeps 45 (W4 m ρ) (W16 m ρ) := ((s4_14 m ρ).link .l15).link .l16
theorem s4_22 : Keeps 45 (W4 m ρ) (W22 m ρ) := ((((((s4_16 m ρ).link .l17).link .l18).link .l19).link .l20).link .l21).link .l22
theorem s4_23 : Keeps 45 (W4 m ρ) (W23 m ρ) := (s4_22 m ρ).link .l23
theorem s4_25 : Keeps 45 (W4 m ρ) (W25 m ρ) := ((s4_23 m ρ).link .l24).link .l25
theorem s4_26 : Keeps 45 (W4 m ρ) (W26 m ρ) := (s4_25 m ρ).link .l26
theorem s4_31 : Keeps 45 (W4 m ρ) (W31 m ρ) := (((((s4_26 m ρ).link .l27).link .l28).link .l29).link .l30).link .l31
theorem s4_32 : Keeps 45 (W4 m ρ) (W32 m ρ) := (s4_31 m ρ).link .l32
theorem s4_34 : Keeps 45 (W4 m ρ) (W34 m ρ) := ((s4_32 m ρ).link .l33).link .l34
theorem s4_35 : Keeps 45 (W4 m ρ) (W35 m ρ) := (s4_34 m ρ).link .l35
theorem s4_40 : Keeps 45 (W4 m ρ) (W40 m ρ) := (((((s4_35 m ρ).link .l36).link .l37).link .l38).link .l39).link .l40
theorem s1_4 : Keeps 42 (W1 m ρ) (W4 m ρ) := ((Link.keeps .l2).link .l3).link .l4
theorem s2_4 : Keeps 43 (W2 m ρ) (W4 m ρ) := (Link.keeps .l3).link .l4
theorem s13_17 : Keeps 117 (W13 m ρ) (W17 m ρ) := (((Link.keeps .l14).link .l15).link .l16).link .l17
theorem s31_35 : Keeps 261 (W31 m ρ) (W35 m ρ) := (((Link.keeps .l32).link .l33).link .l34).link .l35
theorem s22_40 : Keeps 189 (W22 m ρ) (W40 m ρ) := (((((((((((((((((Link.keeps .l23).link .l24).link .l25).link .l26).link .l27).link .l28).link .l29).link .l30).link .l31).link .l32).link .l33).link .l34).link .l35).link .l36).link .l37).link .l38).link .l39).link .l40
theorem s9_10 : Keeps 79 (W9 m ρ) (W10 m ρ) := Link.keeps .l10
theorem s10_11 : Keeps 85 (W10 m ρ) (W11 m ρ) := Link.keeps .l11
theorem s10_12 : Keeps 85 (W10 m ρ) (W12 m ρ) := (Link.keeps .l11).link .l12
theorem s18_19 : Keeps 151 (W18 m ρ) (W19 m ρ) := Link.keeps .l19
theorem s19_20 : Keeps 157 (W19 m ρ) (W20 m ρ) := Link.keeps .l20
theorem s19_21 : Keeps 157 (W19 m ρ) (W21 m ρ) := (Link.keeps .l20).link .l21
theorem s27_28 : Keeps 223 (W27 m ρ) (W28 m ρ) := Link.keeps .l28
theorem s28_29 : Keeps 229 (W28 m ρ) (W29 m ρ) := Link.keeps .l29
theorem s28_30 : Keeps 229 (W28 m ρ) (W30 m ρ) := (Link.keeps .l29).link .l30
theorem s36_37 : Keeps 295 (W36 m ρ) (W37 m ρ) := Link.keeps .l37
theorem s37_38 : Keeps 301 (W37 m ρ) (W38 m ρ) := Link.keeps .l38
theorem s37_39 : Keeps 301 (W37 m ρ) (W39 m ρ) := (Link.keeps .l38).link .l39

end Cert.KernelIdeal.Keep

end
-- ==== Proof.LibMatmul.lean ====
import Idealize.ShloMosaic.Lib.ValueIdx
import Idealize.ShloMosaic.PureOps.Ideal.Laws

noncomputable section

namespace Cert.Lib.Matmul

open Idealize.ShloMosaic Idealize.ShloMosaic.ValueIdx

variable {A K C : Nat}

theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
import Idealize.ShloMosaic.Lib.ValueIdx
import Idealize.ShloMosaic.Lib.Pipeline.Value

noncomputable section

namespace Cert.Lib.Layout

open Idealize.ShloMosaic Idealize.ShloMosaic.ValueIdx

theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KLin.lean ====
import proofs.«426861_j66571993088626_2_alg».proof.Proof.Gen.KernelIdeal.Frame
import proofs.«426861_j66571993088626_2_alg».proof.Proof.Spec
import proofs.«426861_j66571993088626_2_alg».proof.Proof.LibMatmul
import proofs.«426861_j66571993088626_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KLin

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

theorem biasRow_apply (x2 : FVec Ideal S1x128 .f32) (p : Fin 8192) (q : Fin 128) :
    broadcastTo S8192x128 (shapeCast S1x128 x2 shapeCasts_S1x128_S1x128) broadcasts_S1x128_S8192x128 (ix2 p q)
      = x2 (ix2 (0 : Fin 1) q) := by
  rw [shapeCast_self]
  refine broadcastTo_apply x2 broadcasts_S1x128_S8192x128 (ix2 p q) (ix2 (0 : Fin 1) q) ?_
  intro a
  match a with
  | ⟨0, _⟩ => rfl
  | ⟨1, _⟩ => rfl

theorem rowsN_apply (b : FVec Ideal Cert.ReferenceIdeal.S128 .f32) (r : Fin 65536) (q : Fin 128) :
    Cert.Spec.rowsN (F := Ideal) b (ix2 r q) = b (ix1 q) := by
  unfold Cert.Spec.rowsN
  refine (broadcastInDim_apply _ _ _ (ix2 r q) (ix2 (0 : Fin 1) q) ?_).trans ?_
  · intro a
    match a with
    | ⟨0, _⟩ => rfl
    | ⟨1, _⟩ => rfl
  · refine broadcastInDim_apply _ _ b (ix2 (0 : Fin 1) q) (ix1 q) ?_
    intro a
    match a with
    | ⟨0, _⟩ => rfl

theorem rowsE_apply (b : FVec Ideal Cert.ReferenceIdeal.S128 .f32) (r : Fin 524288) (q : Fin 128) :
    Cert.Spec.rowsE (F := Ideal) b (ix2 r q) = b (ix1 q) := by
  unfold Cert.Spec.rowsE
  refine (broadcastInDim_apply _ _ _ (ix2 r q) (ix2 (0 : Fin 1) q) ?_).trans ?_
  · intro a
    match a with
    | ⟨0, _⟩ => rfl
    | ⟨1, _⟩ => rfl
  · refine broadcastInDim_apply _ _ b (ix2 (0 : Fin 1) q) (ix1 q) ?_
    intro a
    match a with
    | ⟨0, _⟩ => rfl

theorem pay0_apply (x0 : FVec Ideal S8192x64 .f32) (x1 : FVec Ideal S64x128 .f32) (x2 : FVec Ideal S1x128 .f32)
    (p : Fin 8192) (q : Fin 128) :
    k0_pay1 (F := Ideal) x0 x1 x2 (ix2 p q)
      = (∑ k : Fin 64, (x0 (ix2 p k) : EReal) * (x1 (ix2 k q) : EReal)) + (x2 (ix2 (0 : Fin 1) q) : EReal) := by
  unfold k0_pay1
  refine (addf_apply _ _ (ix2 p q)).trans ?_
  refine congrArg₂ (· + ·) ?_ ?_
  · exact Cert.Lib.Matmul.matmul_zero_apply (A := 8192) (K := 64) (C := 128) none
      (truncf .bf16 x0 bitsLt_bf16_f32) (truncf .bf16 x1 bitsLt_bf16_f32) p q
  · exact biasRow_apply x2 p q

theorem linN_apply (x : FVec Ideal Cert.ReferenceIdeal.S65536x64 .f32) (w : FVec Ideal Cert.ReferenceIdeal.S64x128 .f32)
    (b : FVec Ideal Cert.ReferenceIdeal.S128 .f32) (r : Fin 65536) (q : Fin 128) :
    Cert.Spec.linN (F := Ideal) x w b (ix2 r q)
      = (∑ k : Fin 64, (x (ix2 r k) : EReal) * (w (ix2 k q) : EReal)) + (b (ix1 q) : EReal) := by
  unfold Cert.Spec.linN
  refine (addf_apply _ _ (ix2 r q)).trans ?_
  refine congrArg₂ (· + ·) ?_ ?_
  · exact Cert.Lib.Matmul.dotGeneral_apply (A := 65536) (K := 64) (C := 128) none _ x w r q
  · exact rowsN_apply b r q

theorem pay0_eq_linN (x0 : FVec Ideal S8192x64 .f32) (x1 : FVec Ideal S64x128 .f32) (x2 : FVec Ideal S1x128 .f32)
    (X : FVec Ideal Cert.ReferenceIdeal.S65536x64 .f32) (W : FVec Ideal Cert.ReferenceIdeal.S64x128 .f32)
    (b : FVec Ideal Cert.ReferenceIdeal.S128 .f32) (p : Fin 8192) (q : Fin 128) (r : Fin 65536)
    (h0 : ∀ k : Fin 64, x0 (ix2 p k) = X (ix2 r k)) (h1 : ∀ k : Fin 64, x1 (ix2 k q) = W (ix2 k q))
    (h2 : x2 (ix2 (0 : Fin 1) q) = b (ix1 q)) :
    k0_pay1 (F := Ideal) x0 x1 x2 (ix2 p q) = Cert.Spec.linN (F := Ideal) X W b (ix2 r q) := by
  rw [pay0_apply, linN_apply, h2]
  refine congrArg (· + (b (ix1 q) : EReal)) ?_
  exact Finset.sum_congr rfl fun k _ => by rw [h0 k, h1 k]

section Region0

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem blk0_0_apply (c : Dev nD) (t : Fin cfg0.N) (p : Fin 8192) (k : Fin 64) (r : Fin 65536)
    (hr : r.val = t.val * 8192 + p.val) :
    (iblk0 V c 0 t : Vec Ideal S8192x64 .f32) (ix2 p k)
      = (V c (Pipeline.arrRef spec0 0) : S65536x64.Idx → EReal) (ix2 r k) := by
  obtain ⟨e0, e1, -⟩ := idx_facts0 t
  unfold iblk0
  rw [View.read_apply]
  show (V c (Pipeline.arrRef spec0 0) : S65536x64.Idx → EReal) (((cfg0.win 0).blk t).view.emb (ix2 p k)) = _
  refine congrArg (V c (Pipeline.arrRef spec0 0) : S65536x64.Idx → EReal) ?_
  funext a
  apply Fin.ext
  match a with
  | ⟨0, _⟩ => show win0_0.index t (0 : Fin 2) * 8192 + 1 * p.val = r.val; omega
  | ⟨1, _⟩ => show win0_0.index t (1 : Fin 2) * 64 + 1 * k.val = k.val; omega

theorem blk0_1_apply (c : Dev nD) (t : Fin cfg0.N) (k : Fin 64) (q : Fin 128) :
    (iblk0 V c 1 t : Vec Ideal S64x128 .f32) (ix2 k q)
      = (V c (Pipeline.arrRef spec0 1) : S64x128.Idx → EReal) (ix2 k q) := by
  obtain ⟨-, -, e0, e1, -⟩ := idx_facts0 t
  unfold iblk0
  rw [View.read_apply]
  show (V c (Pipeline.arrRef spec0 1) : S64x128.Idx → EReal) (((cfg0.win 1).blk t).view.emb (ix2 k q)) = _
  refine congrArg (V c (Pipeline.arrRef spec0 1) : S64x128.Idx → EReal) ?_
  funext a
  apply Fin.ext
  match a with
  | ⟨0, _⟩ => show win0_1.index t (0 : Fin 2) * 64 + 1 * k.val = k.val; omega
  | ⟨1, _⟩ => show win0_1.index t (1 : Fin 2) * 128 + 1 * q.val = q.val; omega

theorem blk0_2_apply (c : Dev nD) (t : Fin cfg0.N) (z : Fin 1) (q : Fin 128) :
    (iblk0 V c 2 t : Vec Ideal S1x128 .f32) (ix2 z q)
      = (V c (Pipeline.arrRef spec0 2) : S1x128.Idx → EReal) (ix2 z q) := by
  obtain ⟨-, -, -, -, e0, e1, -⟩ := idx_facts0 t
  unfold iblk0
  rw [View.read_apply]
  show (V c (Pipeline.arrRef spec0 2) : S1x128.Idx → EReal) (((cfg0.win 2).blk t).view.emb (ix2 z q)) = _
  refine congrArg (V c (Pipeline.arrRef spec0 2) : S1x128.Idx → EReal) ?_
  funext a
  apply Fin.ext
  match a with
  | ⟨0, _⟩ => show win0_2.index t (0 : Fin 2) * 1 + 1 * z.val = z.val; omega
  | ⟨1, _⟩ => show win0_2.index t (1 : Fin 2) * 128 + 1 * q.val = q.val; omega

theorem emb0_3 (t : Fin cfg0.N) (p : Fin 8192) (q : Fin 128) (r : Fin 65536) (hr : r.val = t.val * 8192 + p.val) :
    ((cfg0.win 3).blk t).view.emb (ix2 p q) = (ix2 r q : S65536x128.Idx) := by
  obtain ⟨-, -, -, -, -, -, e0, e1⟩ := idx_facts0 t
  funext a
  apply Fin.ext
  match a with
  | ⟨0, _⟩ => show win0_3.index t (0 : Fin 2) * 8192 + 1 * p.val = r.val; omega
  | ⟨1, _⟩ => show win0_3.index t (1 : Fin 2) * 128 + 1 * q.val = q.val; omega

theorem flushed0 (c : Dev nD) (b : FVec Ideal S128 .f32)
    (hb : V c (Pipeline.arrRef spec0 2) = shapeCast S1x128 b shapeCasts_S128_S1x128) (t : Fin cfg0.N) :
    (dat0 V c).flushed 3 t = ((cfg0.win 3).blk t).view.read (Elt Ideal)
      (Cert.Spec.linN (F := Ideal) (V c (Pipeline.arrRef spec0 0)) (V c (Pipeline.arrRef spec0 1)) b) := by
  show (cfg0.win 3).cut (grid0.coords t) ((dat0 V c).after 3 t) = _
  rw [after0_3]
  unfold out0_3
  rw [View.canon_unit_zero hz]
  simp only [View.ld_unit_zero (S := S8192x64) hz, View.ld_unit_zero (S := S64x128) hz, View.ld_unit_zero (S := S1x128) hz]
  funext j
  obtain ⟨p, q, rfl⟩ : ∃ (p : Fin 8192) (q : Fin 128), j = ix2 p q := ⟨j 0, j 1, eq_ix2 j⟩
  have hN : cfg0.N = 8 := N_0
  have hlt : t.val * 8192 + p.val < 65536 := by have := t.isLt; have := p.isLt; omega
  show k0_pay1 (F := Ideal) (iblk0 V c 0 t) (iblk0 V c 1 t) (iblk0 V c 2 t) (ix2 p q)
    = Cert.Spec.linN (F := Ideal) (V c (Pipeline.arrRef spec0 0)) (V c (Pipeline.arrRef spec0 1)) b
        (((cfg0.win 3).blk t).view.emb (ix2 p q))
  rw [emb0_3 t p q ⟨t.val * 8192 + p.val, hlt⟩ rfl]
  exact pay0_eq_linN (iblk0 V c 0 t) (iblk0 V c 1 t) (iblk0 V c 2 t)
    (V c (Pipeline.arrRef spec0 0)) (V c (Pipeline.arrRef spec0 1)) b p q ⟨t.val * 8192 + p.val, hlt⟩
    (fun k => blk0_0_apply V c t p k ⟨t.val * 8192 + p.val, hlt⟩ rfl)
    (fun k => blk0_1_apply V c t k q)
    ((blk0_2_apply V c t 0 q).trans (by rw [hb]; exact Cert.Lib.Layout.rowCast_apply b shapeCasts_S128_S1x128 0 q))

theorem mem_blk0_3 (t : Fin cfg0.N) (i : S65536x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v6).slice (win0_3.rect t)).set ↔ _
  rw [View.set_slice_whole, Rect.mem_set_unit]
  exact Iff.rfl

theorem cover0 (i : S65536x128.Idx) :
    ∃ t : Fin cfg0.N, (cfg0.win 3).flush t = true ∧ i ∈ ((cfg0.win 3).blk t).view.set := by
  have hN : cfg0.N = 8 := N_0
  have h0 : (i 0).val < 65536 := (i 0).isLt
  have h1 : (i 1).val < 128 := (i 1).isLt
  have hlt : (i 0).val / 8192 < cfg0.N := by omega
  obtain ⟨-, -, -, -, -, -, e0, e1⟩ := idx_facts0 ⟨(i 0).val / 8192, hlt⟩
  refine ⟨⟨(i 0).val / 8192, hlt⟩, flush0_3 _, ?_⟩
  rw [mem_blk0_3]
  intro a
  match a with
  | ⟨0, _⟩ =>
    show win0_3.index ⟨(i 0).val / 8192, hlt⟩ (0 : Fin 2) * 8192 ≤ (i 0).val
      ∧ (i 0).val < win0_3.index ⟨(i 0).val / 8192, hlt⟩ (0 : Fin 2) * 8192 + 8192
    rw [e0]
    show (i 0).val / 8192 * 8192 ≤ (i 0).val ∧ (i 0).val < (i 0).val / 8192 * 8192 + 8192
    omega
  | ⟨1, _⟩ =>
    show win0_3.index ⟨(i 0).val / 8192, hlt⟩ (1 : Fin 2) * 128 ≤ (i 1).val
      ∧ (i 1).val < win0_3.index ⟨(i 0).val / 8192, hlt⟩ (1 : Fin 2) * 128 + 128
    rw [e1]
    omega

theorem arr0 (c : Dev nD) (b : FVec Ideal S128 .f32)
    (hb : V c (Pipeline.arrRef spec0 2) = shapeCast S1x128 b shapeCasts_S128_S1x128) :
    (dat0 V c).arrAt 3 cfg0.N
      = Cert.Spec.linN (F := Ideal) (V c (Pipeline.arrRef spec0 0)) (V c (Pipeline.arrRef spec0 1)) b :=
  (dat0 V c).arrAt_eq_of_cover 3
    (Cert.Spec.linN (F := Ideal) (V c (Pipeline.arrRef spec0 0)) (V c (Pipeline.arrRef spec0 1)) b)
    (fun t _ => flushed0 V c b hb t) cover0

end Region0

theorem pay1_apply (x0 : FVec Ideal S8192x32 .f32) (x1 : FVec Ideal S32x128 .f32) (x2 : FVec Ideal S1x128 .f32)
    (p : Fin 8192) (q : Fin 128) :
    k1_pay1 (F := Ideal) x0 x1 x2 (ix2 p q)
      = (∑ k : Fin 32, (x0 (ix2 p k) : EReal) * (x1 (ix2 k q) : EReal)) + (x2 (ix2 (0 : Fin 1) q) : EReal) := by
  unfold k1_pay1
  refine (addf_apply _ _ (ix2 p q)).trans ?_
  refine congrArg₂ (· + ·) ?_ ?_
  · exact Cert.Lib.Matmul.matmul_zero_apply (A := 8192) (K := 32) (C := 128) none
      (truncf .bf16 x0 bitsLt_bf16_f32) (truncf .bf16 x1 bitsLt_bf16_f32) p q
  · exact biasRow_apply x2 p q

theorem linE_apply (x : FVec Ideal Cert.ReferenceIdeal.S524288x32 .f32) (w : FVec Ideal Cert.ReferenceIdeal.S32x128 .f32)
    (b : FVec Ideal Cert.ReferenceIdeal.S128 .f32) (r : Fin 524288) (q : Fin 128) :
    Cert.Spec.linE (F := Ideal) x w b (ix2 r q)
      = (∑ k : Fin 32, (x (ix2 r k) : EReal) * (w (ix2 k q) : EReal)) + (b (ix1 q) : EReal) := by
  unfold Cert.Spec.linE
  refine (addf_apply _ _ (ix2 r q)).trans ?_
  refine congrArg₂ (· + ·) ?_ ?_
  · exact Cert.Lib.Matmul.dotGeneral_apply (A := 524288) (K := 32) (C := 128) none _ x w r q
  · exact rowsE_apply b r q

theorem pay1_eq_linE (x0 : FVec Ideal S8192x32 .f32) (x1 : FVec Ideal S32x128 .f32) (x2 : FVec Ideal S1x128 .f32)
    (X : FVec Ideal Cert.ReferenceIdeal.S524288x32 .f32) (W : FVec Ideal Cert.ReferenceIdeal.S32x128 .f32)
    (b : FVec Ideal Cert.ReferenceIdeal.S128 .f32) (p : Fin 8192) (q : Fin 128) (r : Fin 524288)
    (h0 : ∀ k : Fin 32, x0 (ix2 p k) = X (ix2 r k)) (h1 : ∀ k : Fin 32, x1 (ix2 k q) = W (ix2 k q))
    (h2 : x2 (ix2 (0 : Fin 1) q) = b (ix1 q)) :
    k1_pay1 (F := Ideal) x0 x1 x2 (ix2 p q) = Cert.Spec.linE (F := Ideal) X W b (ix2 r q) := by
  rw [pay1_apply, linE_apply, h2]
  refine congrArg (· + (b (ix1 q) : EReal)) ?_
  exact Finset.sum_congr rfl fun k _ => by rw [h0 k, h1 k]

section Region1

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem blk1_0_apply (c : Dev nD) (t : Fin cfg1.N) (p : Fin 8192) (k : Fin 32) (r : Fin 524288)
    (hr : r.val = t.val * 8192 + p.val) :
    (iblk1 V c 0 t : Vec Ideal S8192x32 .f32) (ix2 p k)
      = (V c (Pipeline.arrRef spec1 0) : S524288x32.Idx → EReal) (ix2 r k) := by
  obtain ⟨e0, e1, -⟩ := idx_facts1 t
  unfold iblk1
  rw [View.read_apply]
  show (V c (Pipeline.arrRef spec1 0) : S524288x32.Idx → EReal) (((cfg1.win 0).blk t).view.emb (ix2 p k)) = _
  refine congrArg (V c (Pipeline.arrRef spec1 0) : S524288x32.Idx → EReal) ?_
  funext a
  apply Fin.ext
  match a with
  | ⟨0, _⟩ => show win1_0.index t (0 : Fin 2) * 8192 + 1 * p.val = r.val; omega
  | ⟨1, _⟩ => show win1_0.index t (1 : Fin 2) * 32 + 1 * k.val = k.val; omega

theorem blk1_1_apply (c : Dev nD) (t : Fin cfg1.N) (k : Fin 32) (q : Fin 128) :
    (iblk1 V c 1 t : Vec Ideal S32x128 .f32) (ix2 k q)
      = (V c (Pipeline.arrRef spec1 1) : S32x128.Idx → EReal) (ix2 k q) := by
  obtain ⟨-, -, e0, e1, -⟩ := idx_facts1 t
  unfold iblk1
  rw [View.read_apply]
  show (V c (Pipeline.arrRef spec1 1) : S32x128.Idx → EReal) (((cfg1.win 1).blk t).view.emb (ix2 k q)) = _
  refine congrArg (V c (Pipeline.arrRef spec1 1) : S32x128.Idx → EReal) ?_
  funext a
  apply Fin.ext
  match a with
  | ⟨0, _⟩ => show win1_1.index t (0 : Fin 2) * 32 + 1 * k.val = k.val; omega
  | ⟨1, _⟩ => show win1_1.index t (1 : Fin 2) * 128 + 1 * q.val = q.val; omega

theorem blk1_2_apply (c : Dev nD) (t : Fin cfg1.N) (z : Fin 1) (q : Fin 128) :
    (iblk1 V c 2 t : Vec Ideal S1x128 .f32) (ix2 z q)
      = (V c (Pipeline.arrRef spec1 2) : S1x128.Idx → EReal) (ix2 z q) := by
  obtain ⟨-, -, -, -, e0, e1, -⟩ := idx_facts1 t
  unfold iblk1
  rw [View.read_apply]
  show (V c (Pipeline.arrRef spec1 2) : S1x128.Idx → EReal) (((cfg1.win 2).blk t).view.emb (ix2 z q)) = _
  refine congrArg (V c (Pipeline.arrRef spec1 2) : S1x128.Idx → EReal) ?_
  funext a
  apply Fin.ext
  match a with
  | ⟨0, _⟩ => show win1_2.index t (0 : Fin 2) * 1 + 1 * z.val = z.val; omega
  | ⟨1, _⟩ => show win1_2.index t (1 : Fin 2) * 128 + 1 * q.val = q.val; omega

theorem emb1_3 (t : Fin cfg1.N) (p : Fin 8192) (q : Fin 128) (r : Fin 524288) (hr : r.val = t.val * 8192 + p.val) :
    ((cfg1.win 3).blk t).view.emb (ix2 p q) = (ix2 r q : S524288x128.Idx) := by
  obtain ⟨-, -, -, -, -, -, e0, e1⟩ := idx_facts1 t
  funext a
  apply Fin.ext
  match a with
  | ⟨0, _⟩ => show win1_3.index t (0 : Fin 2) * 8192 + 1 * p.val = r.val; omega
  | ⟨1, _⟩ => show win1_3.index t (1 : Fin 2) * 128 + 1 * q.val = q.val; omega

theorem flushed1 (c : Dev nD) (b : FVec Ideal S128 .f32)
    (hb : V c (Pipeline.arrRef spec1 2) = shapeCast S1x128 b shapeCasts_S128_S1x128) (t : Fin cfg1.N) :
    (dat1 V c).flushed 3 t = ((cfg1.win 3).blk t).view.read (Elt Ideal)
      (Cert.Spec.linE (F := Ideal) (V c (Pipeline.arrRef spec1 0)) (V c (Pipeline.arrRef spec1 1)) b) := by
  show (cfg1.win 3).cut (grid1.coords t) ((dat1 V c).after 3 t) = _
  rw [after1_3]
  unfold out1_3
  rw [View.canon_unit_zero hz]
  simp only [View.ld_unit_zero (S := S8192x32) hz, View.ld_unit_zero (S := S32x128) hz, View.ld_unit_zero (S := S1x128) hz]
  funext j
  obtain ⟨p, q, rfl⟩ : ∃ (p : Fin 8192) (q : Fin 128), j = ix2 p q := ⟨j 0, j 1, eq_ix2 j⟩
  have hN : cfg1.N = 64 := N_1
  have hlt : t.val * 8192 + p.val < 524288 := by have := t.isLt; have := p.isLt; omega
  show k1_pay1 (F := Ideal) (iblk1 V c 0 t) (iblk1 V c 1 t) (iblk1 V c 2 t) (ix2 p q)
    = Cert.Spec.linE (F := Ideal) (V c (Pipeline.arrRef spec1 0)) (V c (Pipeline.arrRef spec1 1)) b
        (((cfg1.win 3).blk t).view.emb (ix2 p q))
  rw [emb1_3 t p q ⟨t.val * 8192 + p.val, hlt⟩ rfl]
  exact pay1_eq_linE (iblk1 V c 0 t) (iblk1 V c 1 t) (iblk1 V c 2 t)
    (V c (Pipeline.arrRef spec1 0)) (V c (Pipeline.arrRef spec1 1)) b p q ⟨t.val * 8192 + p.val, hlt⟩
    (fun k => blk1_0_apply V c t p k ⟨t.val * 8192 + p.val, hlt⟩ rfl)
    (fun k => blk1_1_apply V c t k q)
    ((blk1_2_apply V c t 0 q).trans (by rw [hb]; exact Cert.Lib.Layout.rowCast_apply b shapeCasts_S128_S1x128 0 q))

theorem mem_blk1_3 (t : Fin cfg1.N) (i : S524288x128.Idx) :
    i ∈ ((cfg1.win 3).blk t).view.set ↔ ∀ a : Fin 2, win1_3.index t a * S8192x128.size a ≤ (i a).val
      ∧ (i a).val < win1_3.index t a * S8192x128.size a + S8192x128.size a := by
  show i ∈ ((View.whole main_v8).slice (win1_3.rect t)).set ↔ _
  rw [View.set_slice_whole, Rect.mem_set_unit]
  exact Iff.rfl

theorem cover1 (i : S524288x128.Idx) :
    ∃ t : Fin cfg1.N, (cfg1.win 3).flush t = true ∧ i ∈ ((cfg1.win 3).blk t).view.set := by
  have hN : cfg1.N = 64 := N_1
  have h0 : (i 0).val < 524288 := (i 0).isLt
  have h1 : (i 1).val < 128 := (i 1).isLt
  have hlt : (i 0).val / 8192 < cfg1.N := by omega
  obtain ⟨-, -, -, -, -, -, e0, e1⟩ := idx_facts1 ⟨(i 0).val / 8192, hlt⟩
  refine ⟨⟨(i 0).val / 8192, hlt⟩, flush1_3 _, ?_⟩
  rw [mem_blk1_3]
  intro a
  match a with
  | ⟨0, _⟩ =>
    show win1_3.index ⟨(i 0).val / 8192, hlt⟩ (0 : Fin 2) * 8192 ≤ (i 0).val
      ∧ (i 0).val < win1_3.index ⟨(i 0).val / 8192, hlt⟩ (0 : Fin 2) * 8192 + 8192
    rw [e0]
    show (i 0).val / 8192 * 8192 ≤ (i 0).val ∧ (i 0).val < (i 0).val / 8192 * 8192 + 8192
    omega
  | ⟨1, _⟩ =>
    show win1_3.index ⟨(i 0).val / 8192, hlt⟩ (1 : Fin 2) * 128 ≤ (i 1).val
      ∧ (i 1).val < win1_3.index ⟨(i 0).val / 8192, hlt⟩ (1 : Fin 2) * 128 + 128
    rw [e1]
    omega

theorem arr1 (c : Dev nD) (b : FVec Ideal S128 .f32)
    (hb : V c (Pipeline.arrRef spec1 2) = shapeCast S1x128 b shapeCasts_S128_S1x128) :
    (dat1 V c).arrAt 3 cfg1.N
      = Cert.Spec.linE (F := Ideal) (V c (Pipeline.arrRef spec1 0)) (V c (Pipeline.arrRef spec1 1)) b :=
  (dat1 V c).arrAt_eq_of_cover 3
    (Cert.Spec.linE (F := Ideal) (V c (Pipeline.arrRef spec1 0)) (V c (Pipeline.arrRef spec1 1)) b)
    (fun t _ => flushed1 V c b hb t) cover1

end Region1

end Cert.KernelIdeal.KLin

end
-- ==== Proof.WalkA.lean ====
import proofs.«426861_j66571993088626_2_alg».proof.Proof.Gen.KernelIdeal.Frame
import proofs.«426861_j66571993088626_2_alg».proof.Proof.Spec
import proofs.«426861_j66571993088626_2_alg».proof.Proof.Basic
import proofs.«426861_j66571993088626_2_alg».proof.Proof.Keep
import proofs.«426861_j66571993088626_2_alg».proof.Proof.KLin
import Idealize.ShloMosaic.Lib.StableHlo.Run

noncomputable section

namespace Cert.KernelIdeal.Walk

open Cert.KernelIdeal Cert.KernelIdeal.Gen Cert.Basic Idealize.ShloMosaic Idealize.ShloMosaic.TcCoe

variable (m : (ℓ : Loc nD τ sig) → Buf (Elt Ideal) ℓ) (ρ : Dev nD → PrngReg)

theorem v1_of (V : Valuation τ sig (Elt Ideal)) :
    StableHlo.after (hostOps0 (F := Ideal)) V (Proc.devRef .tc main_v1) = Cert.Spec.srcOf (V (Proc.devRef .tc main_arg2)) := by
  after_results
  rfl

theorem v3_of (V : Valuation τ sig (Elt Ideal)) :
    StableHlo.after (hostOps0 (F := Ideal)) V (Proc.devRef .tc main_v3) = Cert.Spec.dstOf (V (Proc.devRef .tc main_arg2)) := by
  after_results
  rfl

theorem v4_of (V : Valuation τ sig (Elt Ideal)) :
    StableHlo.after (hostOps0 (F := Ideal)) V (Proc.devRef .tc main_v4)
      = shapeCast S1x65536 (V (Proc.devRef .tc main_arg3)) shapeCasts_S65536_S1x65536 := by
  after_results
  rfl

theorem v5_of (V : Valuation τ sig (Elt Ideal)) :
    StableHlo.after (hostOps0 (F := Ideal)) V (Proc.devRef .tc main_v5)
      = shapeCast S1x128 (V (Proc.devRef .tc main_arg5)) shapeCasts_S128_S1x128 := by
  after_results
  rfl

theorem v7_of (V : Valuation τ sig (Elt Ideal)) :
    StableHlo.after (hostOps1 (F := Ideal)) V (Proc.devRef .tc main_v7)
      = shapeCast S1x128 (V (Proc.devRef .tc main_arg7)) shapeCasts_S128_S1x128 := by
  after_results
  rfl

theorem src_eq (c : Dev nD) :
    W4 m ρ c (Proc.devRef .tc main_v1) = Cert.Spec.srcOf (m ((c : Thread nD τ).loc main_arg2)) :=
  (Keep.s1_4 m ρ c main_v1 (by decide)).trans (v1_of (W0 m ρ c))

theorem dst_eq (c : Dev nD) :
    W4 m ρ c (Proc.devRef .tc main_v3) = Cert.Spec.dstOf (m ((c : Thread nD τ).loc main_arg2)) :=
  (Keep.s1_4 m ρ c main_v3 (by decide)).trans (v3_of (W0 m ρ c))

theorem brow_eq (c : Dev nD) :
    W4 m ρ c (Proc.devRef .tc main_v4)
      = shapeCast S1x65536 (m ((c : Thread nD τ).loc main_arg3)) shapeCasts_S65536_S1x65536 :=
  (Keep.s1_4 m ρ c main_v4 (by decide)).trans (v4_of (W0 m ρ c))

theorem h_eq (c : Dev nD) :
    W4 m ρ c (Proc.devRef .tc main_v6)
      = Cert.Spec.linN (F := Ideal) (m ((c : Thread nD τ).loc main_arg0)) (m ((c : Thread nD τ).loc main_arg4))
          (m ((c : Thread nD τ).loc main_arg5)) := by
  have hb : V1 m ρ c (Pipeline.arrRef spec0 2)
      = shapeCast S1x128 (m ((c : Thread nD τ).loc main_arg5)) shapeCasts_S128_S1x128 := v5_of (W0 m ρ c)
  have e := Cert.KernelIdeal.KLin.arr0 (V1 m ρ) c (m ((c : Thread nD τ).loc main_arg5)) hb
  have e0 : V1 m ρ c (Pipeline.arrRef spec0 0) = m ((c : Thread nD τ).loc main_arg0) := Keep.s0_1 m ρ c main_arg0 (by decide)
  have e1 : V1 m ρ c (Pipeline.arrRef spec0 1) = m ((c : Thread nD τ).loc main_arg4) := Keep.s0_1 m ρ c main_arg4 (by decide)
  rw [e0, e1] at e
  exact (Keep.s2_4 m ρ c main_v6 (by decide)).trans ((W2_arr m ρ c 3).trans e)

theorem ea_eq (c : Dev nD) :
    W4 m ρ c (Proc.devRef .tc main_v8)
      = Cert.Spec.linE (F := Ideal) (m ((c : Thread nD τ).loc main_arg1)) (m ((c : Thread nD τ).loc main_arg6))
          (m ((c : Thread nD τ).loc main_arg7)) := by
  have e7 : W2 m ρ c (Proc.devRef .tc main_arg7) = m ((c : Thread nD τ).loc main_arg7) :=
    Keep.s0_2 m ρ c main_arg7 (by decide)
  have hb : V3 m ρ c (Pipeline.arrRef spec1 2)
      = shapeCast S1x128 (m ((c : Thread nD τ).loc main_arg7)) shapeCasts_S128_S1x128 :=
    (v7_of (W2 m ρ c)).trans (congrArg (fun x => shapeCast S1x128 x shapeCasts_S128_S1x128) e7)
  have e := Cert.KernelIdeal.KLin.arr1 (V3 m ρ) c (m ((c : Thread nD τ).loc main_arg7)) hb
  have e0 : V3 m ρ c (Pipeline.arrRef spec1 0) = m ((c : Thread nD τ).loc main_arg1) :=
    Keep.s0_3 m ρ c main_arg1 (by decide)
  have e1 : V3 m ρ c (Pipeline.arrRef spec1 1) = m ((c : Thread nD τ).loc main_arg6) :=
    Keep.s0_3 m ρ c main_arg6 (by decide)
  rw [e0, e1] at e
  exact (W4_arr m ρ c 3).trans e

theorem src_below (c : Dev nD) (h : Below 65536 (m ((c : Thread nD τ).loc main_arg2))) :
    Below 65536 (Cert.Spec.srcOf (m ((c : Thread nD τ).loc main_arg2))) := fun j => by
  unfold Cert.Spec.srcOf shapeCast extractStridedSlice
  exact h _

theorem dst_below (c : Dev nD) (h : Below 65536 (m ((c : Thread nD τ).loc main_arg2))) :
    Below 65536 (Cert.Spec.dstOf (m ((c : Thread nD τ).loc main_arg2))) := fun j => by
  unfold Cert.Spec.dstOf shapeCast extractStridedSlice
  exact h _

end Cert.KernelIdeal.Walk

end
-- ==== Proof.KMlp.lean ====
import proofs.«426861_j66571993088626_2_alg».proof.Proof.Gen.KernelIdeal.Frame
import proofs.«426861_j66571993088626_2_alg».proof.Proof.Spec
import proofs.«426861_j66571993088626_2_alg».proof.Proof.LibMatmul
import proofs.«426861_j66571993088626_2_alg».proof.Proof.LibLayout
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

namespace Cert.KernelIdeal.KMlp

open Cert.KernelIdeal Cert.KernelIdeal.Gen
open Idealize.ShloMosaic Idealize.ShloMosaic.ValueIdx Idealize.ShloMosaic.TcCoe
open Idealize.ShloMosaic.Pipeline (Dat)

def row (hr ar : Fin 128 → EReal) (w1 : Fin 128 → Fin 128 → EReal) (b1 : Fin 128 → EReal)
    (w2 : Fin 128 → Fin 128 → EReal) (b2 : Fin 128 → EReal) (q : Fin 128) : EReal :=
  (∑ k2 : Fin 128, max ((∑ k1 : Fin 128, (hr k1 + ar k1) * w1 k1 k2) + b1 k2) 0 * w2 k2 q) + b2 q

def lin (x : FVec Ideal S4096x128 .f32) (w : Vec Ideal S128x128 .f32) (b : Vec Ideal S1x128 .f32) : FVec Ideal S4096x128 .f32 :=
  addf (matmul dot_S4096x128_S128x128_S4096x128_1_0_0_1_n_n none (truncf .bf16 x bitsLt_bf16_f32) (truncf .bf16 w bitsLt_bf16_f32)
      (constant S4096x128 .f32 0x00000000#32))
    (broadcastTo S4096x128 (shapeCast S1x128 b shapeCasts_S1x128_S1x128) broadcasts_S1x128_S4096x128)

def body (x0 x1 : Vec Ideal S4096x128 .f32) (w1 : Vec Ideal S128x128 .f32) (b1 : Vec Ideal S1x128 .f32)
    (w2 : Vec Ideal S128x128 .f32) (b2 : Vec Ideal S1x128 .f32) : FVec Ideal S4096x128 .f32 :=
  lin (maximumf (lin (addf (shapeCast S4096x128 x0 shapeCasts_S4096x128_S4096x128) (shapeCast S4096x128 x1 shapeCasts_S4096x128_S4096x128)) w1 b1)
    (broadcast S4096x128 (Scalar.ofBits .f32 0x00000000#32))) w2 b2

theorem lin_apply (x : FVec Ideal S4096x128 .f32) (w : Vec Ideal S128x128 .f32) (b : Vec Ideal S1x128 .f32)
    (p : Fin 4096) (q : Fin 128) :
    lin x w b (ix2 p q) = (∑ k : Fin 128, x (ix2 p k) * w (ix2 k q)) + b (ix2 (0 : Fin 1) q) := by
  show (matmul dot_S4096x128_S128x128_S4096x128_1_0_0_1_n_n none (truncf .bf16 x bitsLt_bf16_f32) (truncf .bf16 w bitsLt_bf16_f32)
      (constant S4096x128 .f32 0x00000000#32) (ix2 p q) : EReal)
    + (broadcastTo S4096x128 (shapeCast S1x128 b shapeCasts_S1x128_S1x128) broadcasts_S1x128_S4096x128 (ix2 p q) : EReal) = _
  have e1 : (matmul dot_S4096x128_S128x128_S4096x128_1_0_0_1_n_n none (truncf .bf16 x bitsLt_bf16_f32) (truncf .bf16 w bitsLt_bf16_f32)
      (constant S4096x128 .f32 0x00000000#32) (ix2 p q) : EReal) = ∑ k : Fin 128, x (ix2 p k) * w (ix2 k q) :=
    Cert.Lib.Matmul.matmul_zero_apply (A := 4096) (K := 128) (C := 128) none
      (truncf .bf16 x bitsLt_bf16_f32 : FVec Ideal ⟨2, ![4096, 128]⟩ .bf16) (truncf .bf16 w bitsLt_bf16_f32 : FVec Ideal ⟨2, ![128, 128]⟩ .bf16) p q
  have e2 : (broadcastTo S4096x128 (shapeCast S1x128 b shapeCasts_S1x128_S1x128) broadcasts_S1x128_S4096x128 (ix2 p q) : EReal)
      = b (ix2 (0 : Fin 1) q) := by
    rw [shapeCast_self]
    exact broadcastTo_1b_ab_apply (a := 4096) (b := 128) b broadcasts_S1x128_S4096x128 p q
  rw [e1, e2]

theorem body_apply (x0 x1 : Vec Ideal S4096x128 .f32) (w1 : Vec Ideal S128x128 .f32) (b1 : Vec Ideal S1x128 .f32)
    (w2 : Vec Ideal S128x128 .f32) (b2 : Vec Ideal S1x128 .f32) (p : Fin 4096) (q : Fin 128) :
    body x0 x1 w1 b1 w2 b2 (ix2 p q)
      = row (fun k => x0 (ix2 p k)) (fun k => x1 (ix2 p k)) (fun k1 k2 => w1 (ix2 k1 k2)) (fun k => b1 (ix2 (0 : Fin 1) k))
          (fun k1 k2 => w2 (ix2 k1 k2)) (fun k => b2 (ix2 (0 : Fin 1) k)) q := by
  unfold body row
  rw [lin_apply]
  refine congrArg (· + b2 (ix2 (0 : Fin 1) q)) (Finset.sum_congr rfl fun k2 _ => ?_)
  refine congrArg (· * w2 (ix2 k2 q)) ?_
  show max (lin (addf (shapeCast S4096x128 x0 shapeCasts_S4096x128_S4096x128) (shapeCast S4096x128 x1 shapeCasts_S4096x128_S4096x128)) w1 b1 (ix2 p k2))
    (Ideal.ofBits .f32 0x00000000#32) = _
  rw [lin_apply, Ideal.ofBits_zero_f32, shapeCast_self, shapeCast_self]
  rfl

theorem pay2 (x0 x1 : Vec Ideal S4096x128 .f32) (w1 : Vec Ideal S128x128 .f32) (b1 : Vec Ideal S1x128 .f32)
    (w2 : Vec Ideal S128x128 .f32) (b2 : Vec Ideal S1x128 .f32) : k2_pay1 x0 x1 w1 b1 w2 b2 = body x0 x1 w1 b1 w2 b2 := rfl

theorem pay4 (x0 x1 : Vec Ideal S4096x128 .f32) (w1 : Vec Ideal S128x128 .f32) (b1 : Vec Ideal S1x128 .f32)
    (w2 : Vec Ideal S128x128 .f32) (b2 : Vec Ideal S1x128 .f32) : k4_pay1 x0 x1 w1 b1 w2 b2 = body x0 x1 w1 b1 w2 b2 := rfl

theorem pay6 (x0 x1 : Vec Ideal S4096x128 .f32) (w1 : Vec Ideal S128x128 .f32) (b1 : Vec Ideal S1x128 .f32)
    (w2 : Vec Ideal S128x128 .f32) (b2 : Vec Ideal S1x128 .f32) : k6_pay1 x0 x1 w1 b1 w2 b2 = body x0 x1 w1 b1 w2 b2 := rfl

theorem pay8 (x0 x1 : Vec Ideal S4096x128 .f32) (w1 : Vec Ideal S128x128 .f32) (b1 : Vec Ideal S1x128 .f32)
    (w2 : Vec Ideal S128x128 .f32) (b2 : Vec Ideal S1x128 .f32) : k8_pay1 x0 x1 w1 b1 w2 b2 = body x0 x1 w1 b1 w2 b2 := rfl

theorem rowsN_apply (b : FVec Ideal ⟨1, ![128]⟩ .f32) (r : Fin 65536) (q : Fin 128) :
    Cert.Spec.rowsN (F := Ideal) b (ix2 r q) = b (ix1 q) := by
  unfold Cert.Spec.rowsN
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

theorem reluN_apply (x : FVec Ideal ⟨2, ![65536, 128]⟩ .f32) (j : (⟨2, ![65536, 128]⟩ : Shape).Idx) :
    Cert.Spec.reluN (F := Ideal) x j = max (x j) 0 := by
  unfold Cert.Spec.reluN Cert.Spec.zeroS
  show max (x j) (broadcastInDim (s := ⟨0, ![]⟩) ⟨2, ![65536, 128]⟩ ![] _ (constant (F := Ideal) ⟨0, ![]⟩ .f32 0x00000000#32) j) = _
  rw [broadcastInDim_scalar_apply]
  show max (x j) (Ideal.ofBits .f32 0x00000000#32) = _
  rw [Ideal.ofBits_zero_f32]

theorem mlp_apply (h a : FVec Ideal ⟨2, ![65536, 128]⟩ .f32) (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32) (r : Fin 65536) (q : Fin 128) :
    Cert.Spec.mlp (F := Ideal) h a w1 b1 w2 b2 (ix2 r q)
      = row (fun k => h (ix2 r k)) (fun k => a (ix2 r k)) (fun k1 k2 => w1 (ix2 k1 k2)) (fun k => b1 (ix1 k))
          (fun k1 k2 => w2 (ix2 k1 k2)) (fun k => b2 (ix1 k)) q := by
  unfold Cert.Spec.mlp row
  show (Host.dotGeneral _ none _ w2 (ix2 r q) : EReal) + Cert.Spec.rowsN (F := Ideal) b2 (ix2 r q) = _
  rw [rowsN_apply]
  refine congrArg (· + b2 (ix1 q)) ?_
  refine (Cert.Lib.Matmul.dotGeneral_apply (A := 65536) (K := 128) (C := 128) none .single _ w2 r q).trans ?_
  refine Finset.sum_congr rfl fun k2 _ => congrArg (· * w2 (ix2 k2 q)) ?_
  rw [reluN_apply]
  show max ((Host.dotGeneral _ none (addf h a) w1 (ix2 r k2) : EReal) + Cert.Spec.rowsN (F := Ideal) b1 (ix2 r k2)) 0 = _
  rw [rowsN_apply]
  refine congrArg (fun z => max (z + b1 (ix1 k2)) 0) ?_
  exact Cert.Lib.Matmul.dotGeneral_apply (A := 65536) (K := 128) (C := 128) none .single (addf h a) w1 r k2

theorem row_congr {hr hr' ar ar' : Fin 128 → EReal} {w1 w1' : Fin 128 → Fin 128 → EReal} {b1 b1' : Fin 128 → EReal}
    {w2 w2' : Fin 128 → Fin 128 → EReal} {b2 b2' : Fin 128 → EReal} (q : Fin 128)
    (e0 : hr = hr') (e1 : ar = ar') (e2 : w1 = w1') (e3 : b1 = b1') (e4 : w2 = w2') (e5 : b2 = b2') :
    row hr ar w1 b1 w2 b2 q = row hr' ar' w1' b1' w2' b2' q := by
  subst e0 e1 e2 e3 e4 e5; rfl

theorem hz : (![0, 0] : Fin 2 → Nat) = fun _ => 0 := funext fun a => by fin_cases a <;> rfl

variable (V : (c : Dev nD) → (b : Ref sig .tc) → Buf (Elt Ideal) ((c : Thread nD τ).loc b))

theorem blockEntry (x0 x1 : Vec Ideal S4096x128 .f32) (W1 : Vec Ideal S128x128 .f32) (B1 : Vec Ideal S1x128 .f32)
    (W2 : Vec Ideal S128x128 .f32) (B2 : Vec Ideal S1x128 .f32)
    (h a : FVec Ideal ⟨2, ![65536, 128]⟩ .f32) (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32) (p : Fin 4096) (q : Fin 128) (r : Fin 65536)
    (e0 : ∀ k, x0 (ix2 p k) = h (ix2 r k)) (e1 : ∀ k, x1 (ix2 p k) = a (ix2 r k))
    (e2 : ∀ k1 k2, W1 (ix2 k1 k2) = w1 (ix2 k1 k2)) (e3 : ∀ k, B1 (ix2 (0 : Fin 1) k) = b1 (ix1 k))
    (e4 : ∀ k1 k2, W2 (ix2 k1 k2) = w2 (ix2 k1 k2)) (e5 : ∀ k, B2 (ix2 (0 : Fin 1) k) = b2 (ix1 k)) :
    body x0 x1 W1 B1 W2 B2 (ix2 p q) = Cert.Spec.mlp (F := Ideal) h a w1 b1 w2 b2 (ix2 r q) := by
  rw [body_apply, mlp_apply]
  exact row_congr q (funext e0) (funext e1) (funext fun k1 => funext (e2 k1)) (funext e3)
    (funext fun k1 => funext (e4 k1)) (funext e5)

theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem rd2_0 (c : Dev nD) (t : Fin cfg2.N) (p : Fin 4096) (k : Fin 128) (r : Fin 65536) (hr : r.val = t.val * 4096 + p.val) :
    (iblk2 V c 0 t : Vec Ideal S4096x128 .f32) (ix2 p k) = (V c (Pipeline.arrRef spec2 0) : S65536x128.Idx → EReal) (ix2 r k) := by
  obtain ⟨e0, e1, -⟩ := idx2 t
  show (V c (Pipeline.arrRef spec2 0) : S65536x128.Idx → EReal) (((cfg2.win 0).blk t).view.emb (ix2 p k)) = _
  refine congrArg (V c (Pipeline.arrRef spec2 0) : S65536x128.Idx → EReal) (funext fun a => Fin.ext ?_)
  match a with
  | ⟨0, _⟩ => show win2_0.index t (0 : Fin 2) * 4096 + 1 * p.val = r.val; rw [e0, hr]; omega
  | ⟨1, _⟩ => show win2_0.index t (1 : Fin 2) * 128 + 1 * k.val = k.val; rw [e1]; omega

theorem rd2_1 (c : Dev nD) (t : Fin cfg2.N) (p : Fin 4096) (k : Fin 128) (r : Fin 65536) (hr : r.val = t.val * 4096 + p.val) :
    (iblk2 V c 1 t : Vec Ideal S4096x128 .f32) (ix2 p k) = (V c (Pipeline.arrRef spec2 1) : S65536x128.Idx → EReal) (ix2 r k) := by
  obtain ⟨-, -, e0, e1, -⟩ := idx2 t
  show (V c (Pipeline.arrRef spec2 1) : S65536x128.Idx → EReal) (((cfg2.win 1).blk t).view.emb (ix2 p k)) = _
  refine congrArg (V c (Pipeline.arrRef spec2 1) : S65536x128.Idx → EReal) (funext fun a => Fin.ext ?_)
  match a with
  | ⟨0, _⟩ => show win2_1.index t (0 : Fin 2) * 4096 + 1 * p.val = r.val; rw [e0, hr]; omega
  | ⟨1, _⟩ => show win2_1.index t (1 : Fin 2) * 128 + 1 * k.val = k.val; rw [e1]; omega

theorem rd2_2 (c : Dev nD) (t : Fin cfg2.N) (k1 k2 : Fin 128) :
    (iblk2 V c 2 t : Vec Ideal S128x128 .f32) (ix2 k1 k2) = (V c (Pipeline.arrRef spec2 2) : S128x128.Idx → EReal) (ix2 k1 k2) := by
  obtain ⟨-, -, -, -, e0, e1, -⟩ := idx2 t
  show (V c (Pipeline.arrRef spec2 2) : S128x128.Idx → EReal) (((cfg2.win 2).blk t).view.emb (ix2 k1 k2)) = _
  refine congrArg (V c (Pipeline.arrRef spec2 2) : S128x128.Idx → EReal) (funext fun a => Fin.ext ?_)
  match a with
  | ⟨0, _⟩ => show win2_2.index t (0 : Fin 2) * 128 + 1 * k1.val = k1.val; rw [e0]; omega
  | ⟨1, _⟩ => show win2_2.index t (1 : Fin 2) * 128 + 1 * k2.val = k2.val; rw [e1]; omega

theorem rd2_3 (c : Dev nD) (t : Fin cfg2.N) (k : Fin 128) :
    (iblk2 V c 3 t : Vec Ideal S1x128 .f32) (ix2 (0 : Fin 1) k) = (V c (Pipeline.arrRef spec2 3) : S1x128.Idx → EReal) (ix2 (0 : Fin 1) k) := by
  obtain ⟨-, -, -, -, -, -, e0, e1, -⟩ := idx2 t
  show (V c (Pipeline.arrRef spec2 3) : S1x128.Idx → EReal) (((cfg2.win 3).blk t).view.emb (ix2 (0 : Fin 1) k)) = _
  refine congrArg (V c (Pipeline.arrRef spec2 3) : S1x128.Idx → EReal) (funext fun a => Fin.ext ?_)
  match a with
  | ⟨0, _⟩ => show win2_3.index t (0 : Fin 2) * 1 + 1 * 0 = 0; rw [e0]
  | ⟨1, _⟩ => show win2_3.index t (1 : Fin 2) * 128 + 1 * k.val = k.val; rw [e1]; omega

theorem rd2_4 (c : Dev nD) (t : Fin cfg2.N) (k1 k2 : Fin 128) :
    (iblk2 V c 4 t : Vec Ideal S128x128 .f32) (ix2 k1 k2) = (V c (Pipeline.arrRef spec2 4) : S128x128.Idx → EReal) (ix2 k1 k2) := by
  obtain ⟨-, -, -, -, -, -, -, -, e0, e1, -⟩ := idx2 t
  show (V c (Pipeline.arrRef spec2 4) : S128x128.Idx → EReal) (((cfg2.win 4).blk t).view.emb (ix2 k1 k2)) = _
  refine congrArg (V c (Pipeline.arrRef spec2 4) : S128x128.Idx → EReal) (funext fun a => Fin.ext ?_)
  match a with
  | ⟨0, _⟩ => show win2_4.index t (0 : Fin 2) * 128 + 1 * k1.val = k1.val; rw [e0]; omega
  | ⟨1, _⟩ => show win2_4.index t (1 : Fin 2) * 128 + 1 * k2.val = k2.val; rw [e1]; omega

theorem rd2_5 (c : Dev nD) (t : Fin cfg2.N) (k : Fin 128) :
    (iblk2 V c 5 t : Vec Ideal S1x128 .f32) (ix2 (0 : Fin 1) k) = (V c (Pipeline.arrRef spec2 5) : S1x128.Idx → EReal) (ix2 (0 : Fin 1) k) := by
  obtain ⟨-, -, -, -, -, -, -, -, -, -, e0, e1, -⟩ := idx2 t
  show (V c (Pipeline.arrRef spec2 5) : S1x128.Idx → EReal) (((cfg2.win 5).blk t).view.emb (ix2 (0 : Fin 1) k)) = _
  refine congrArg (V c (Pipeline.arrRef spec2 5) : S1x128.Idx → EReal) (funext fun a => Fin.ext ?_)
  match a with
  | ⟨0, _⟩ => show win2_5.index t (0 : Fin 2) * 1 + 1 * 0 = 0; rw [e0]
  | ⟨1, _⟩ => show win2_5.index t (1 : Fin 2) * 128 + 1 * k.val = k.val; rw [e1]; omega

theorem flushed2_body (c : Dev nD) (t : Fin cfg2.N) :
    (dat2 V c).flushed 6 t = (cfg2.win 6).cut (grid2.coords t)
      (body (iblk2 V c 0 t) (iblk2 V c 1 t) (iblk2 V c 2 t) (iblk2 V c 3 t) (iblk2 V c 4 t) (iblk2 V c 5 t)) := by
  show (cfg2.win 6).cut (grid2.coords t) ((dat2 V c).after 6 t) = _
  rw [after2_6]
  unfold out2_6
  rw [View.canon_unit_zero hz]
  simp only [View.ld_unit_zero (S := S4096x128) hz, View.ld_unit_zero (S := S128x128) hz, View.ld_unit_zero (S := S1x128) hz]
  rw [pay2]

theorem emb2_6 (t : Fin cfg2.N) (p : Fin 4096) (q : Fin 128) (r : Fin 65536) (hr : r.val = t.val * 4096 + p.val) :
    ((cfg2.win 6).blk t).view.emb (ix2 p q) = ix2 r q := by
  obtain ⟨-, -, -, -, -, -, -, -, -, -, -, -, e0, e1⟩ := idx2 t
  funext a; apply Fin.ext
  match a with
  | ⟨0, _⟩ => show win2_6.index t (0 : Fin 2) * 4096 + 1 * p.val = r.val; rw [e0, hr]; omega
  | ⟨1, _⟩ => show win2_6.index t (1 : Fin 2) * 128 + 1 * q.val = q.val; rw [e1]; omega

theorem entry2 (c : Dev nD) (b1 b2 : FVec Ideal S128 .f32)
    (h3 : V c (Pipeline.arrRef spec2 3) = shapeCast S1x128 b1 shapeCasts_S128_S1x128)
    (h5 : V c (Pipeline.arrRef spec2 5) = shapeCast S1x128 b2 shapeCasts_S128_S1x128)
    (t : Fin cfg2.N) (p : Fin 4096) (q : Fin 128) (r : Fin 65536) (hr : r.val = t.val * 4096 + p.val) :
    body (iblk2 V c 0 t) (iblk2 V c 1 t) (iblk2 V c 2 t) (iblk2 V c 3 t) (iblk2 V c 4 t) (iblk2 V c 5 t) (ix2 p q)
      = Cert.Spec.mlp (F := Ideal) (V c (Pipeline.arrRef spec2 0)) (V c (Pipeline.arrRef spec2 1))
          (V c (Pipeline.arrRef spec2 2)) b1 (V c (Pipeline.arrRef spec2 4)) b2 (ix2 r q) := by
  refine blockEntry (iblk2 V c 0 t) (iblk2 V c 1 t) (iblk2 V c 2 t) (iblk2 V c 3 t) (iblk2 V c 4 t) (iblk2 V c 5 t)
    (V c (Pipeline.arrRef spec2 0)) (V c (Pipeline.arrRef spec2 1)) (V c (Pipeline.arrRef spec2 2)) b1 (V c (Pipeline.arrRef spec2 4)) b2
    p q r (fun k => rd2_0 V c t p k r hr) (fun k => rd2_1 V c t p k r hr)
    (fun k1 k2 => rd2_2 V c t k1 k2) (fun k => ?_) (fun k1 k2 => rd2_4 V c t k1 k2) (fun k => ?_)
  · refine (rd2_3 V c t k).trans ?_
    rw [h3]
    exact Cert.Lib.Layout.rowCast_apply b1 shapeCasts_S128_S1x128 0 k
  · refine (rd2_5 V c t k).trans ?_
    rw [h5]
    exact Cert.Lib.Layout.rowCast_apply b2 shapeCasts_S128_S1x128 0 k

theorem flushed2_eq (c : Dev nD) (b1 b2 : FVec Ideal S128 .f32)
    (h3 : V c (Pipeline.arrRef spec2 3) = shapeCast S1x128 b1 shapeCasts_S128_S1x128)
    (h5 : V c (Pipeline.arrRef spec2 5) = shapeCast S1x128 b2 shapeCasts_S128_S1x128) (t : Fin cfg2.N) :
    (dat2 V c).flushed 6 t = ((cfg2.win 6).blk t).view.read (Elt Ideal)
      (Cert.Spec.mlp (F := Ideal) (V c (Pipeline.arrRef spec2 0)) (V c (Pipeline.arrRef spec2 1))
        (V c (Pipeline.arrRef spec2 2)) b1 (V c (Pipeline.arrRef spec2 4)) b2) := by
  rw [flushed2_body]
  funext j
  obtain ⟨p, q, rfl⟩ : ∃ (p : Fin 4096) (q : Fin 128), j = ix2 p q := ⟨j 0, j 1, eq_ix2 j⟩
  have ht : t.val < 16 := lt_of_lt_of_eq t.isLt N_2
  have hr : t.val * 4096 + p.val < 65536 := by have := p.isLt; omega
  show body (iblk2 V c 0 t) (iblk2 V c 1 t) (iblk2 V c 2 t) (iblk2 V c 3 t) (iblk2 V c 4 t) (iblk2 V c 5 t) (ix2 p q)
    = Cert.Spec.mlp (F := Ideal) (V c (Pipeline.arrRef spec2 0)) (V c (Pipeline.arrRef spec2 1))
        (V c (Pipeline.arrRef spec2 2)) b1 (V c (Pipeline.arrRef spec2 4)) b2 (((cfg2.win 6).blk t).view.emb (ix2 p q))
  rw [emb2_6 t p q ⟨t.val * 4096 + p.val, hr⟩ rfl]
  exact entry2 V c b1 b2 h3 h5 t p q ⟨t.val * 4096 + p.val, hr⟩ rfl

theorem mem_blk2 (t : Fin cfg2.N) (i : S65536x128.Idx) :
    i ∈ ((cfg2.win 6).blk t).view.set ↔ ∀ a : Fin 2, win2_6.index t a * S4096x128.size a ≤ (i a).val
      ∧ (i a).val < win2_6.index t a * S4096x128.size a + S4096x128.size a := by
  show i ∈ ((View.whole main_v17).slice (win2_6.rect t)).set ↔ _
  rw [View.set_slice_whole, Rect.mem_set_unit]
  exact Iff.rfl

theorem cover2 (i : S65536x128.Idx) :
    ∃ t : Fin cfg2.N, (cfg2.win 6).flush t = true ∧ i ∈ ((cfg2.win 6).blk t).view.set := by
  have hi0 : (i 0).val < 65536 := (i 0).isLt
  have hi1 : (i 1).val < 128 := (i 1).isLt
  have hN : cfg2.N = 16 := N_2
  obtain ⟨t, ht⟩ : ∃ t : Fin cfg2.N, t.val = (i 0).val / 4096 := ⟨⟨(i 0).val / 4096, by rw [hN]; omega⟩, rfl⟩
  obtain ⟨-, -, -, -, -, -, -, -, -, -, -, -, e0, e1⟩ := idx2 t
  refine ⟨t, flush2_6 t, ?_⟩
  rw [mem_blk2]
  intro a
  match a with
  | ⟨0, _⟩ =>
    show win2_6.index t (0 : Fin 2) * 4096 ≤ (i 0).val ∧ (i 0).val < win2_6.index t (0 : Fin 2) * 4096 + 4096
    rw [e0, ht]; omega
  | ⟨1, _⟩ =>
    show win2_6.index t (1 : Fin 2) * 128 ≤ (i 1).val ∧ (i 1).val < win2_6.index t (1 : Fin 2) * 128 + 128
    rw [e1]; omega

theorem arr2 (c : Dev nD) (b1 b2 : FVec Ideal S128 .f32)
    (h3 : V c (Pipeline.arrRef spec2 3) = shapeCast S1x128 b1 shapeCasts_S128_S1x128)
    (h5 : V c (Pipeline.arrRef spec2 5) = shapeCast S1x128 b2 shapeCasts_S128_S1x128) :
    (dat2 V c).arrAt 6 cfg2.N = Cert.Spec.mlp (F := Ideal) (V c (Pipeline.arrRef spec2 0)) (V c (Pipeline.arrRef spec2 1))
      (V c (Pipeline.arrRef spec2 2)) b1 (V c (Pipeline.arrRef spec2 4)) b2 :=
  (dat2 V c).arrAt_eq_of_cover 6 _ (fun t _ => flushed2_eq V c b1 b2 h3 h5 t) cover2

end Cert.KernelIdeal.KMlp

end
-- ==== Proof.KBn.lean ====
import proofs.«426861_j66571993088626_2_alg».proof.Proof.Gen.KernelIdeal.Frame
import proofs.«426861_j66571993088626_2_alg».proof.Proof.Spec
import proofs.«426861_j66571993088626_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KBn

open Cert.KernelIdeal Cert.KernelIdeal.Gen
open Idealize.ShloMosaic Idealize.ShloMosaic.ValueIdx Idealize.ShloMosaic.TcCoe Idealize.SL.Sem
open Idealize.ShloMosaic.Pipeline (Dat)

abbrev zero32 : Ideal .f32 := Ideal.ofBits .f32 0x00000000#32

theorem rowsN_apply (b : FVec Ideal S128 .f32) (i : S65536x128.Idx) (q : Fin 128) (hq : (i 1).val = q.val) :
    Cert.Spec.rowsN (F := Ideal) b i = b (ix1 q) := by
  unfold Cert.Spec.rowsN
  refine (broadcastInDim_apply _ _ _ i (ix2 (0 : Fin 1) q) ?_).trans (broadcastInDim_apply _ _ _ (ix2 (0 : Fin 1) q) (ix1 q) ?_)
  · intro a
    match a with
    | ⟨0, _⟩ => rfl
    | ⟨1, _⟩ => exact hq.symm
  · intro a
    match a with
    | ⟨0, _⟩ => rfl

theorem affRelu_apply (z : FVec Ideal S65536x128 .f32) (sc sh : FVec Ideal S128 .f32) (i : S65536x128.Idx) (q : Fin 128)
    (hq : (i 1).val = q.val) :
    Cert.Spec.affRelu (F := Ideal) z sc sh i = max (z i * sc (ix1 q) + sh (ix1 q)) zero32 := by
  unfold Cert.Spec.affRelu Cert.Spec.reluN
  rw [maximumf_apply, addf_apply, mulf_apply, rowsN_apply sc i q hq, rowsN_apply sh i q hq]
  refine congrArg (max _) ((broadcastInDim_apply _ _ _ i ix0 (fun a => a.elim0)).trans ?_)
  rfl

theorem pay_apply (x0 : Vec Ideal S8192x128 .f32) (x1 x2 : Vec Ideal S1x128 .f32) (p : Fin 8192) (q : Fin 128) :
    k3_pay1 (F := Ideal) x0 x1 x2 (ix2 p q) = max (x0 (ix2 p q) * x1 (ix2 (0 : Fin 1) q) + x2 (ix2 (0 : Fin 1) q)) zero32 := by
  unfold k3_pay1
  rw [maximumf_apply, addf_apply, mulf_apply, broadcast_apply, shapeCast_self, shapeCast_self, shapeCast_self,
    broadcastTo_1b_ab_apply, broadcastTo_1b_ab_apply]
  rfl

theorem pay_eq_affRelu (x0 : Vec Ideal S8192x128 .f32) (x1 x2 : Vec Ideal S1x128 .f32)
    (z : FVec Ideal S65536x128 .f32) (sc sh : FVec Ideal S128 .f32) (p : Fin 8192) (q : Fin 128) (i : S65536x128.Idx)
    (hq : (i 1).val = q.val) (e0 : x0 (ix2 p q) = z i) (e1 : x1 (ix2 (0 : Fin 1) q) = sc (ix1 q))
    (e2 : x2 (ix2 (0 : Fin 1) q) = sh (ix1 q)) :
    k3_pay1 (F := Ideal) x0 x1 x2 (ix2 p q) = Cert.Spec.affRelu (F := Ideal) z sc sh i := by
  rw [pay_apply, affRelu_apply z sc sh i q hq, e0, e1, e2]

theorem hz : (![0, 0] : Fin 2 → Nat) = fun _ => 0 := funext fun a => by fin_cases a <;> rfl

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b)) (c : Dev nD)

theorem col3 (t : Fin cfg3.N) (p : Fin 8192) (q : Fin 128) :
    ((((cfg3.win 3).blk t).view.emb (ix2 p q)) 1).val = q.val := by
  obtain ⟨-, -, -, -, -, -, -, d1⟩ := idx3 t
  show win3_3.index t (1 : Fin 2) * 128 + 1 * q.val = q.val
  omega

theorem zblk3 (t : Fin cfg3.N) (p : Fin 8192) (q : Fin 128) :
    iblk3 V c 0 t (ix2 p q) = V c (Pipeline.arrRef spec3 0) (((cfg3.win 3).blk t).view.emb (ix2 p q)) := by
  obtain ⟨a0, a1, -, -, -, -, d0, d1⟩ := idx3 t
  show V c (Pipeline.arrRef spec3 0) (((cfg3.win 0).blk t).view.emb (ix2 p q))
    = V c (Pipeline.arrRef spec3 0) (((cfg3.win 3).blk t).view.emb (ix2 p q))
  refine congrArg _ (funext fun a => Fin.ext ?_)
  match a with
  | ⟨0, _⟩ => show win3_0.index t (0 : Fin 2) * 8192 + 1 * p.val = win3_3.index t (0 : Fin 2) * 8192 + 1 * p.val; omega
  | ⟨1, _⟩ => show win3_0.index t (1 : Fin 2) * 128 + 1 * q.val = win3_3.index t (1 : Fin 2) * 128 + 1 * q.val; omega

theorem scblk3 (sc : FVec Ideal S128 .f32)
    (h1 : V c (Pipeline.arrRef spec3 1) = shapeCast S1x128 sc shapeCasts_S128_S1x128) (t : Fin cfg3.N) (q : Fin 128) :
    iblk3 V c 1 t (ix2 (0 : Fin 1) q) = sc (ix1 q) := by
  obtain ⟨-, -, b0, b1, -, -, -, -⟩ := idx3 t
  show V c (Pipeline.arrRef spec3 1) (((cfg3.win 1).blk t).view.emb (ix2 (0 : Fin 1) q)) = sc (ix1 q)
  refine (congrFun h1 _).trans ((congrArg _ (funext fun a => Fin.ext ?_)).trans
    (Cert.Lib.Layout.rowCast_apply sc shapeCasts_S128_S1x128 0 q))
  match a with
  | ⟨0, _⟩ => show win3_1.index t (0 : Fin 2) * 1 + 1 * 0 = 0; omega
  | ⟨1, _⟩ => show win3_1.index t (1 : Fin 2) * 128 + 1 * q.val = q.val; omega

theorem shblk3 (sh : FVec Ideal S128 .f32)
    (h2 : V c (Pipeline.arrRef spec3 2) = shapeCast S1x128 sh shapeCasts_S128_S1x128) (t : Fin cfg3.N) (q : Fin 128) :
    iblk3 V c 2 t (ix2 (0 : Fin 1) q) = sh (ix1 q) := by
  obtain ⟨-, -, -, -, c0, c1, -, -⟩ := idx3 t
  show V c (Pipeline.arrRef spec3 2) (((cfg3.win 2).blk t).view.emb (ix2 (0 : Fin 1) q)) = sh (ix1 q)
  refine (congrFun h2 _).trans ((congrArg _ (funext fun a => Fin.ext ?_)).trans
    (Cert.Lib.Layout.rowCast_apply sh shapeCasts_S128_S1x128 0 q))
  match a with
  | ⟨0, _⟩ => show win3_2.index t (0 : Fin 2) * 1 + 1 * 0 = 0; omega
  | ⟨1, _⟩ => show win3_2.index t (1 : Fin 2) * 128 + 1 * q.val = q.val; omega

theorem flushed3_eq (sc sh : FVec Ideal S128 .f32)
    (h1 : V c (Pipeline.arrRef spec3 1) = shapeCast S1x128 sc shapeCasts_S128_S1x128)
    (h2 : V c (Pipeline.arrRef spec3 2) = shapeCast S1x128 sh shapeCasts_S128_S1x128) (t : Fin cfg3.N) :
    (dat3 V c).flushed 3 t = ((cfg3.win 3).blk t).view.read (Elt Ideal)
      (Cert.Spec.affRelu (F := Ideal) (V c (Pipeline.arrRef spec3 0)) sc sh) := by
  show (cfg3.win 3).cut (grid3.coords t) ((dat3 V c).after 3 t) = _
  rw [after3_3]
  unfold out3_3
  rw [View.canon_unit_zero hz]
  simp only [View.ld_unit_zero (S := S8192x128) hz, View.ld_unit_zero (S := S1x128) hz]
  funext j
  obtain ⟨p, q, rfl⟩ : ∃ (p : Fin 8192) (q : Fin 128), j = ix2 p q := ⟨j 0, j 1, eq_ix2 j⟩
  exact pay_eq_affRelu (iblk3 V c 0 t) (iblk3 V c 1 t) (iblk3 V c 2 t) (V c (Pipeline.arrRef spec3 0)) sc sh p q
    (((cfg3.win 3).blk t).view.emb (ix2 p q)) (col3 t p q) (zblk3 V c t p q) (scblk3 V c sc h1 t q) (shblk3 V c sh h2 t q)

end

theorem mem_blk3 (t : Fin cfg3.N) (i : S65536x128.Idx) :
    i ∈ ((cfg3.win 3).blk t).view.set ↔ ∀ a : Fin 2, win3_3.index t a * S8192x128.size a ≤ (i a).val
      ∧ (i a).val < win3_3.index t a * S8192x128.size a + S8192x128.size a := by
  show i ∈ ((View.whole main_v30).slice (win3_3.rect t)).set ↔ _
  rw [View.set_slice_whole, Rect.mem_set_unit]
  exact Iff.rfl

theorem cover3 (i : S65536x128.Idx) :
    ∃ t : Fin cfg3.N, (cfg3.win 3).flush t = true ∧ i ∈ ((cfg3.win 3).blk t).view.set := by
  have hi0 : (i 0).val < 65536 := (i 0).isLt
  have hi1 : (i 1).val < 128 := (i 1).isLt
  obtain ⟨t, ht⟩ : ∃ t : Fin cfg3.N, t.val = (i 0).val / 8192 := ⟨⟨(i 0).val / 8192, by rw [show cfg3.N = 8 from N_3]; omega⟩, rfl⟩
  obtain ⟨-, -, -, -, -, -, d0, d1⟩ := idx3 t
  refine ⟨t, flush3_3 t, ?_⟩
  rw [mem_blk3]
  intro a
  match a with
  | ⟨0, _⟩ => show win3_3.index t (0 : Fin 2) * 8192 ≤ (i 0).val ∧ (i 0).val < win3_3.index t (0 : Fin 2) * 8192 + 8192; omega
  | ⟨1, _⟩ => show win3_3.index t (1 : Fin 2) * 128 ≤ (i 1).val ∧ (i 1).val < win3_3.index t (1 : Fin 2) * 128 + 128; omega

theorem arr3 (V : (c : Dev nD) → (b : Ref sig .tc) → Buf (Elt Ideal) ((c : Thread nD τ).loc b)) (c : Dev nD)
    (sc sh : FVec Ideal S128 .f32)
    (h1 : V c (Pipeline.arrRef spec3 1) = shapeCast S1x128 sc shapeCasts_S128_S1x128)
    (h2 : V c (Pipeline.arrRef spec3 2) = shapeCast S1x128 sh shapeCasts_S128_S1x128) :
    (dat3 V c).arrAt 3 cfg3.N = Cert.Spec.affRelu (F := Ideal) (V c (Pipeline.arrRef spec3 0)) sc sh :=
  (dat3 V c).arrAt_eq_of_cover 3 (Cert.Spec.affRelu (F := Ideal) (V c (Pipeline.arrRef spec3 0)) sc sh)
    (fun t _ => flushed3_eq V c sc sh h1 h2 t) cover3

end Cert.KernelIdeal.KBn

end
-- ==== Proof.WalkF1.lean ====
import proofs.«426861_j66571993088626_2_alg».proof.Proof.Gen.KernelIdeal.Frame
import proofs.«426861_j66571993088626_2_alg».proof.Proof.Spec
import proofs.«426861_j66571993088626_2_alg».proof.Proof.Basic
import proofs.«426861_j66571993088626_2_alg».proof.Proof.Keep
import proofs.«426861_j66571993088626_2_alg».proof.Proof.KMlp
import proofs.«426861_j66571993088626_2_alg».proof.Proof.KBn
import proofs.«426861_j66571993088626_2_alg».proof.Proof.BnLaw
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StableHlo.Predicate

noncomputable section

namespace Cert.KernelIdeal.Walk

open Cert.KernelIdeal Cert.KernelIdeal.Gen Cert.Basic
open Idealize.ShloMosaic Idealize.ShloMosaic.TcCoe Idealize.ShloMosaic.ValueIdx

def takeK (h : FVec Ideal S65536x128 .f32) (i : IVec S524288 32) : FVec Ideal S524288x128 .f32 :=
  let w : IVec S524288 32 := select (cmpi .slt i (broadcastInDim S524288 ![] bcast_S_S524288 (constantI S_ 32 0#32)))
    (addi i (broadcastInDim S524288 ![] bcast_S_S524288 (constantI S_ 32 65536#32))) i
  let cl : IVec S524288x1 32 := broadcastInDim S524288x1 ![0] bcast_S524288_S524288x1_0 w
  let ok : IVec S524288x1 1 := andi (cmpi .sge cl (broadcastInDim S524288x1 ![] bcast_S_S524288x1 (constantI S_ 32 0#32)))
    (cmpi .sle cl (broadcastInDim S524288x1 ![0, 1] bcast_S1x1_S524288x1_0_1 (broadcastInDim S1x1 ![1] bcast_S1_S1x1_1 (constantI S1 32 65535#32))))
  select (broadcastInDim S524288x128 ![0] bcast_S524288_S524288x128_0
      (Host.reduce IntOp.andi ok (constantI S_ 1 1#1) reducesTo_S524288x1_S524288_d1 h_S_))
    (Host.gather gather_S65536x128_S524288x1_S524288x128_1_0_n_n_0_1_1128 h cl)
    (broadcastInDim S524288x128 ![] bcast_S_S524288x128 (constant (F := Ideal) S_ .f32 0x7FC00000#32))

def aggK (d : IVec S524288 32) (u : FVec Ideal S524288x128 .f32) : FVec Ideal S65536x128 .f32 :=
  Host.scatterAdd (F := Ideal) scatter_S65536x128_S524288x1_S524288x128_1_0_0_1
    (broadcastInDim S65536x128 ![] bcast_S_S65536x128 (constant (F := Ideal) S_ .f32 0x00000000#32))
    (broadcastInDim S524288x1 ![0] bcast_S524288_S524288x1_0 d) u

def scaleK (g v : FVec Ideal S128 .f32) : FVec Ideal S128 .f32 :=
  mulf g (Host.rsqrt (F := Ideal) (addf v (broadcastInDim S128 ![] bcast_S_S128 (constant (F := Ideal) S_ .f32 0x3727C5AC#32))))

theorem gather_rec : gather_S65536x128_S524288x1_S524288x128_1_0_n_n_0_1_1128
    = Cert.ReferenceIdeal.gather_S65536x128_S524288x1_S524288x128_1_0_n_n_0_1_1128 := rfl
theorem scatter_rec : scatter_S65536x128_S524288x1_S524288x128_1_0_0_1
    = Cert.ReferenceIdeal.scatter_S65536x128_S524288x1_S524288x128_1_0_0_1 := rfl

theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1 : BitVec 1) 1#1 = 1#1 := by decide
    rw [List.foldl_cons, hf a, e]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

theorem word_facts (a : BitVec 32) (h0 : 0 ≤ a.toInt) (h1 : a.toInt < 65536) :
    IntOp.cmpi .slt a 0#32 = 0#1 ∧ IntOp.cmpi .sge a 0#32 = 1#1 ∧ IntOp.cmpi .sle a 65535#32 = 1#1 := by
  have z : (0#32 : BitVec 32).toInt = 0 := by decide
  have k : (65535#32 : BitVec 32).toInt = 65535 := by decide
  refine ⟨?_, ?_, ?_⟩
  · show BitVec.ofBool (a.slt 0#32) = 0#1
    have : a.slt 0#32 = false := by simp only [BitVec.slt, z, decide_eq_false_iff_not]; omega
    rw [this]; rfl
  · show BitVec.ofBool ((0#32 : BitVec 32).sle a) = 1#1
    have : (0#32 : BitVec 32).sle a = true := by simp only [BitVec.sle, z, decide_eq_true_eq]; omega
    rw [this]; rfl
  · show BitVec.ofBool (a.sle 65535#32) = 1#1
    have : a.sle 65535#32 = true := by simp only [BitVec.sle, k, decide_eq_true_eq]; omega
    rw [this]; rfl

theorem takeK_eq (h : FVec Ideal S65536x128 .f32) (i : IVec S524288 32) (hs : Below 65536 i) :
    takeK h i = Cert.Spec.rowsAt (F := Ideal) h i := by
  have hw : (select (cmpi .slt i (broadcastInDim S524288 ![] bcast_S_S524288 (constantI S_ 32 0#32)))
      (addi i (broadcastInDim S524288 ![] bcast_S_S524288 (constantI S_ 32 65536#32))) i : IVec S524288 32) = i := by
    funext j
    obtain ⟨a0, a1⟩ := hs j
    show Scalar.select (IntOp.cmpi .slt (i j) 0#32) _ (i j) = i j
    rw [(word_facts (i j) a0 a1).1]
    rfl
  funext j
  unfold takeK
  dsimp only
  rw [hw]
  show Scalar.select _ _ _ = _
  have hm : (broadcastInDim S524288x128 ![0] bcast_S524288_S524288x128_0
      (Host.reduce IntOp.andi (andi (cmpi .sge (broadcastInDim S524288x1 ![0] bcast_S524288_S524288x1_0 i)
          (broadcastInDim S524288x1 ![] bcast_S_S524288x1 (constantI S_ 32 0#32)))
        (cmpi .sle (broadcastInDim S524288x1 ![0] bcast_S524288_S524288x1_0 i)
          (broadcastInDim S524288x1 ![0, 1] bcast_S1x1_S524288x1_0_1 (broadcastInDim S1x1 ![1] bcast_S1_S1x1_1 (constantI S1 32 65535#32)))))
        (constantI S_ 1 1#1) reducesTo_S524288x1_S524288_d1 h_S_) : IVec S524288x128 1) j = 1#1 := by
    refine reduce_andi_ones _ _ _ _ (fun k => ?_) (fun _ => rfl) _
    obtain ⟨a0, a1⟩ : 0 ≤ (broadcastInDim S524288x1 ![0] bcast_S524288_S524288x1_0 i k).toInt
        ∧ (broadcastInDim S524288x1 ![0] bcast_S524288_S524288x1_0 i k).toInt < 65536 := hs _
    obtain ⟨-, f1, f2⟩ := word_facts _ a0 a1
    show IntOp.andi (IntOp.cmpi .sge (broadcastInDim S524288x1 ![0] bcast_S524288_S524288x1_0 i k) 0#32)
        (IntOp.cmpi .sle (broadcastInDim S524288x1 ![0] bcast_S524288_S524288x1_0 i k) 65535#32) = 1#1
    rw [f1, f2]; decide
  rw [hm]
  unfold Scalar.select
  rw [if_pos (show (1#1 : BitVec 1) = 1 from rfl)]
  have hw' : Cert.Spec.wrap i = i := hw
  show _ = Host.gather _ h (Cert.Spec.col (Cert.Spec.wrap i)) j
  rw [hw', ← gather_rec]
  rfl

theorem msg_eq (h : FVec Ideal S65536x128 .f32) (ea : FVec Ideal S524288x128 .f32) (s : IVec S524288 32) :
    Cert.Spec.reluE (F := Ideal) (addf (Cert.Spec.rowsAt (F := Ideal) h s) ea) = Cert.Spec.msg (F := Ideal) h ea s := rfl

theorem aggK_eq (h : FVec Ideal S65536x128 .f32) (ea : FVec Ideal S524288x128 .f32) (s d : IVec S524288 32) :
    aggK d (Cert.Spec.msg (F := Ideal) h ea s) = Cert.Spec.agg (F := Ideal) h ea s d := by
  unfold aggK Cert.Spec.agg
  rw [scatter_rec]
  rfl

theorem scaleK_eq (g : FVec Ideal S128 .f32) (z : FVec Ideal S65536x128 .f32) :
    scaleK g (Cert.Spec.var (F := Ideal) z (constantI S_ 32 0#32)) = mulf g (Cert.Spec.rstd (F := Ideal) z) := rfl

set_option maxHeartbeats 2000000 in

theorem take_f1 (V : Valuation τ sig (Elt Ideal)) :
    StableHlo.after hostOps2 V (Proc.devRef .tc main_v9)
      = takeK (V (Proc.devRef .tc main_v6)) (V (Proc.devRef .tc main_v1)) := by
  after_results_simp
  all_goals (try simp only [StableHlo.TRef.ofBuf, StableHlo.TRef.toBuf, cast_eq])
  all_goals rfl

theorem add_f1 (V : Valuation τ sig (Elt Ideal)) :
    StableHlo.after hostOps2_1 V (Proc.devRef .tc main_v10)
      = (addf (F := Ideal) (V (Proc.devRef .tc main_v9)) (V (Proc.devRef .tc main_v8)) : FVec Ideal S524288x128 .f32) := by
  after_results_simp

theorem relu_f1 (V : Valuation τ sig (Elt Ideal)) :
    StableHlo.after hostOps2_2 V (Proc.devRef .tc main_v11)
      = Cert.Spec.reluE (F := Ideal) (V (Proc.devRef .tc main_v10)) := by
  after_results_simp
  all_goals (try simp only [StableHlo.TRef.ofBuf, StableHlo.TRef.toBuf, cast_eq])
  all_goals rfl

theorem agg_f1 (V : Valuation τ sig (Elt Ideal)) :
    StableHlo.after hostOps2_3 V (Proc.devRef .tc main_v14)
      = aggK (V (Proc.devRef .tc main_v3)) (V (Proc.devRef .tc main_v11)) := by
  after_results_simp
  all_goals rfl

theorem rowb1_f1 (V : Valuation τ sig (Elt Ideal)) :
    StableHlo.after hostOps2_3 V (Proc.devRef .tc main_v15)
      = shapeCast S1x128 (V (Proc.devRef .tc main_arg9) : FVec Ideal S128 .f32) shapeCasts_S128_S1x128 := by
  after_results_simp
  all_goals rfl

theorem rowb2_f1 (V : Valuation τ sig (Elt Ideal)) :
    StableHlo.after hostOps2_3 V (Proc.devRef .tc main_v16)
      = shapeCast S1x128 (V (Proc.devRef .tc main_arg11) : FVec Ideal S128 .f32) shapeCasts_S128_S1x128 := by
  after_results_simp
  all_goals rfl

theorem mean_f1 (V : Valuation τ sig (Elt Ideal)) :
    StableHlo.after hostOps3 V (Proc.devRef .tc main_v20)
      = Cert.Spec.mean (F := Ideal) (V (Proc.devRef .tc main_v17)) := by
  after_results_simp
  all_goals rfl

theorem zero_f1 (V : Valuation τ sig (Elt Ideal)) :
    StableHlo.after hostOps3 V (Proc.devRef .tc main_c) = constantI S_ 32 0#32 := by
  after_results_simp

set_option maxHeartbeats 2000000 in

theorem var_f1 (V : Valuation τ sig (Elt Ideal)) :
    StableHlo.after hostOps3_1 V (Proc.devRef .tc main_v21)
      = Cert.Spec.var (F := Ideal) (V (Proc.devRef .tc main_v17)) (V (Proc.devRef .tc main_c)) := by
  after_results_simp
  all_goals (try simp only [StableHlo.TRef.ofBuf, StableHlo.TRef.toBuf, cast_eq])
  all_goals rfl

theorem rowsc_f1 (V : Valuation τ sig (Elt Ideal)) :
    StableHlo.after hostOps3_2 V (Proc.devRef .tc main_v28)
      = shapeCast S1x128 (scaleK (V (Proc.devRef .tc main_arg24)) (V (Proc.devRef .tc main_v21))) shapeCasts_S128_S1x128 := by
  after_results_simp
  all_goals rfl

theorem rowsh_f1 (V : Valuation τ sig (Elt Ideal)) :
    StableHlo.after hostOps3_2 V (Proc.devRef .tc main_v29)
      = shapeCast S1x128 (subf (V (Proc.devRef .tc main_arg25) : FVec Ideal S128 .f32)
          (mulf (V (Proc.devRef .tc main_v20)) (scaleK (V (Proc.devRef .tc main_arg24)) (V (Proc.devRef .tc main_v21)))))
          shapeCasts_S128_S1x128 := by
  after_results_simp
  all_goals rfl

section Layer

variable (m : (ℓ : Loc nD τ sig) → Buf (Elt Ideal) ℓ) (ρ : Dev nD → PrngReg) (c : Dev nD)

set_option quotPrecheck false

local notation "Hin" => (W4 m ρ c (Proc.devRef .tc main_v6) : FVec Ideal S65536x128 .f32)
local notation "Ein" => (W4 m ρ c (Proc.devRef .tc main_v8) : FVec Ideal S524288x128 .f32)
local notation "Sin" => (W4 m ρ c (Proc.devRef .tc main_v1) : IVec S524288 32)
local notation "Din" => (W4 m ρ c (Proc.devRef .tc main_v3) : IVec S524288 32)

local notation "Pw1" => (m ((c : Thread nD τ).loc main_arg8) : FVec Ideal S128x128 .f32)
local notation "Pb1" => (m ((c : Thread nD τ).loc main_arg9) : FVec Ideal S128 .f32)
local notation "Pw2" => (m ((c : Thread nD τ).loc main_arg10) : FVec Ideal S128x128 .f32)
local notation "Pb2" => (m ((c : Thread nD τ).loc main_arg11) : FVec Ideal S128 .f32)
local notation "Pg" => (m ((c : Thread nD τ).loc main_arg24) : FVec Ideal S128 .f32)
local notation "Pb" => (m ((c : Thread nD τ).loc main_arg25) : FVec Ideal S128 .f32)

local notation "Zmid" => Cert.Spec.mlp (F := Ideal) Hin (Cert.Spec.agg (F := Ideal) Hin Ein Sin Din) Pw1 Pb1 Pw2 Pb2

set_option maxHeartbeats 1000000 in

theorem mid_f1 (hs : Below 65536 Sin) : W9 m ρ c (Proc.devRef .tc main_v17) = Zmid := by

  have hH0 : W4 m ρ c (Proc.devRef .tc main_v6) = Hin := rfl
  have hS0 : W4 m ρ c (Proc.devRef .tc main_v1) = Sin := rfl
  have hE1 : W5 m ρ c (Proc.devRef .tc main_v8) = Ein := Keep.s4_5 m ρ c main_v8 (by decide)
  have hD3 : W7 m ρ c (Proc.devRef .tc main_v3) = Din := Keep.s4_7 m ρ c main_v3 (by decide)
  have hH4 : W8 m ρ c (Proc.devRef .tc main_v6) = Hin :=
    (Keep.s4_8 m ρ c main_v6 (by decide)).trans hH0

  have e9 : W5 m ρ c (Proc.devRef .tc main_v9) = Cert.Spec.rowsAt (F := Ideal) Hin Sin := by
    refine (take_f1 (W4 m ρ c)).trans ?_
    rw [hH0, hS0]
    exact takeK_eq _ _ hs
  have e10 : W6 m ρ c (Proc.devRef .tc main_v10) = addf (Cert.Spec.rowsAt (F := Ideal) Hin Sin) Ein := by
    refine (add_f1 (W5 m ρ c)).trans ?_
    rw [e9, hE1]
  have e11 : W7 m ρ c (Proc.devRef .tc main_v11) = Cert.Spec.msg (F := Ideal) Hin Ein Sin := by
    refine (relu_f1 (W6 m ρ c)).trans ?_
    rw [e10]
    exact msg_eq _ _ _
  have e14 : W8 m ρ c (Proc.devRef .tc main_v14) = Cert.Spec.agg (F := Ideal) Hin Ein Sin Din := by
    refine (agg_f1 (W7 m ρ c)).trans ?_
    rw [e11, hD3]
    exact aggK_eq _ _ _ _

  have e15 : W8 m ρ c (Proc.devRef .tc main_v15) = shapeCast S1x128 Pb1 shapeCasts_S128_S1x128 := by
    refine (rowb1_f1 (W7 m ρ c)).trans ?_
    rw [show W7 m ρ c (Proc.devRef .tc main_arg9) = Pb1 from Keep.s0_7 m ρ c main_arg9 (by decide)]
  have e16 : W8 m ρ c (Proc.devRef .tc main_v16) = shapeCast S1x128 Pb2 shapeCasts_S128_S1x128 := by
    refine (rowb2_f1 (W7 m ρ c)).trans ?_
    rw [show W7 m ρ c (Proc.devRef .tc main_arg11) = Pb2 from Keep.s0_7 m ρ c main_arg11 (by decide)]

  refine (W9_arr m ρ c 6).trans ((KMlp.arr2 (V8 m ρ) c Pb1 Pb2 e15 e16).trans ?_)
  rw [show V8 m ρ c (Pipeline.arrRef spec2 0) = Hin from hH4,
    show V8 m ρ c (Pipeline.arrRef spec2 1) = Cert.Spec.agg (F := Ideal) Hin Ein Sin Din from e14,
    show V8 m ρ c (Pipeline.arrRef spec2 2) = Pw1 from Keep.s0_8 m ρ c main_arg8 (by decide),
    show V8 m ρ c (Pipeline.arrRef spec2 4) = Pw2 from Keep.s0_8 m ρ c main_arg10 (by decide)]

set_option maxHeartbeats 1000000 in

theorem layer_f1 (hs : Below 65536 Sin) (hz : Cert.Basic.Real Zmid) (hg : Cert.Basic.Real Pg) (hb : Cert.Basic.Real Pb) :
    W13 m ρ c (Proc.devRef .tc main_v30) = Cert.Spec.layer (F := Ideal) Hin Ein Sin Din Pw1 Pb1 Pw2 Pb2 Pg Pb := by
  have e17 : W9 m ρ c (Proc.devRef .tc main_v17) = Zmid := mid_f1 m ρ c hs

  have k10 : W10 m ρ c (Proc.devRef .tc main_v17) = Zmid := (Keep.s9_10 m ρ c main_v17 (by decide)).trans e17
  have e20 : W10 m ρ c (Proc.devRef .tc main_v20) = Cert.Spec.mean (F := Ideal) Zmid := by
    refine (mean_f1 (W9 m ρ c)).trans ?_
    rw [e17]
  have ec : W10 m ρ c (Proc.devRef .tc main_c) = constantI S_ 32 0#32 := zero_f1 (W9 m ρ c)
  have e21 : W11 m ρ c (Proc.devRef .tc main_v21) = Cert.Spec.var (F := Ideal) Zmid (constantI S_ 32 0#32) := by
    refine (var_f1 (W10 m ρ c)).trans ?_
    rw [k10, ec]
  have k20 : W11 m ρ c (Proc.devRef .tc main_v20) = Cert.Spec.mean (F := Ideal) Zmid :=
    (Keep.s10_11 m ρ c main_v20 (by decide)).trans e20
  have k17 : W12 m ρ c (Proc.devRef .tc main_v17) = Zmid :=
    (Keep.s10_12 m ρ c main_v17 (by decide)).trans k10

  have e28 : W12 m ρ c (Proc.devRef .tc main_v28)
      = shapeCast S1x128 (mulf Pg (Cert.Spec.rstd (F := Ideal) Zmid)) shapeCasts_S128_S1x128 := by
    refine (rowsc_f1 (W11 m ρ c)).trans ?_
    rw [show W11 m ρ c (Proc.devRef .tc main_arg24) = Pg from Keep.s0_11 m ρ c main_arg24 (by decide), e21, scaleK_eq]
  have e29 : W12 m ρ c (Proc.devRef .tc main_v29)
      = shapeCast S1x128 (subf Pb (mulf (Cert.Spec.mean (F := Ideal) Zmid) (mulf Pg (Cert.Spec.rstd (F := Ideal) Zmid))))
          shapeCasts_S128_S1x128 := by
    refine (rowsh_f1 (W11 m ρ c)).trans ?_
    rw [show W11 m ρ c (Proc.devRef .tc main_arg25) = Pb from Keep.s0_11 m ρ c main_arg25 (by decide), show W11 m ρ c (Proc.devRef .tc main_arg24) = Pg from Keep.s0_11 m ρ c main_arg24 (by decide), k20, e21, scaleK_eq]

  refine (W13_arr m ρ c 3).trans ((KBn.arr3 (V12 m ρ) c _ _ e28 e29).trans ?_)
  rw [show V12 m ρ c (Pipeline.arrRef spec3 0) = Zmid from k17]
  exact Cert.BnLaw.affRelu_eq_bn hz hg hb

end Layer

end Cert.KernelIdeal.Walk

end
-- ==== Proof.KMlpSib.lean ====
/-
  The second, third and fourth launches of the node update (h + a) · W1 + b1, clipped at zero, then · W2 + b2: each is the
  first launch again on other arrays, with the same 16 blocks of 4096 rows, the same index maps and the same body, so
  each result array ends holding the network's `mlp` of the arrays its launch finds, by the first launch's argument word for word.
-/
import proofs.«426861_j66571993088626_2_alg».proof.Proof.KMlp

set_option maxRecDepth 16384

noncomputable section

namespace Cert.KernelIdeal.KMlp

open Cert.KernelIdeal Cert.KernelIdeal.Gen
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The second launch -/

/-- The index maps over the 16 grid points: the two node arrays and the result move by row block t, the weights and
    bias rows stay at their one block. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of block t of the node features is row 4096 t + p of the array. -/
theorem rd4_0 (c : Dev nD) (t : Fin cfg4.N) (p : Fin 4096) (k : Fin 128) (r : Fin 65536) (hr : r.val = t.val * 4096 + p.val) :
    (iblk4 V c 0 t : Vec Ideal S4096x128 .f32) (ix2 p k) = (V c (Pipeline.arrRef spec4 0) : S65536x128.Idx → EReal) (ix2 r k) := by
  obtain ⟨e0, e1, -⟩ := idx4 t
  show (V c (Pipeline.arrRef spec4 0) : S65536x128.Idx → EReal) (((cfg4.win 0).blk t).view.emb (ix2 p k)) = _
  refine congrArg (V c (Pipeline.arrRef spec4 0) : S65536x128.Idx → EReal) (funext fun a => Fin.ext ?_)
  match a with
  | ⟨0, _⟩ => show win4_0.index t (0 : Fin 2) * 4096 + 1 * p.val = r.val; rw [e0, hr]; omega
  | ⟨1, _⟩ => show win4_0.index t (1 : Fin 2) * 128 + 1 * k.val = k.val; rw [e1]; omega

/-- Row p of block t of the summed messages is row 4096 t + p of the array. -/
theorem rd4_1 (c : Dev nD) (t : Fin cfg4.N) (p : Fin 4096) (k : Fin 128) (r : Fin 65536) (hr : r.val = t.val * 4096 + p.val) :
    (iblk4 V c 1 t : Vec Ideal S4096x128 .f32) (ix2 p k) = (V c (Pipeline.arrRef spec4 1) : S65536x128.Idx → EReal) (ix2 r k) := by
  obtain ⟨-, -, e0, e1, -⟩ := idx4 t
  show (V c (Pipeline.arrRef spec4 1) : S65536x128.Idx → EReal) (((cfg4.win 1).blk t).view.emb (ix2 p k)) = _
  refine congrArg (V c (Pipeline.arrRef spec4 1) : S65536x128.Idx → EReal) (funext fun a => Fin.ext ?_)
  match a with
  | ⟨0, _⟩ => show win4_1.index t (0 : Fin 2) * 4096 + 1 * p.val = r.val; rw [e0, hr]; omega
  | ⟨1, _⟩ => show win4_1.index t (1 : Fin 2) * 128 + 1 * k.val = k.val; rw [e1]; omega

/-- The first weight matrix's one block is the matrix. -/
theorem rd4_2 (c : Dev nD) (t : Fin cfg4.N) (k1 k2 : Fin 128) :
    (iblk4 V c 2 t : Vec Ideal S128x128 .f32) (ix2 k1 k2) = (V c (Pipeline.arrRef spec4 2) : S128x128.Idx → EReal) (ix2 k1 k2) := by
  obtain ⟨-, -, -, -, e0, e1, -⟩ := idx4 t
  show (V c (Pipeline.arrRef spec4 2) : S128x128.Idx → EReal) (((cfg4.win 2).blk t).view.emb (ix2 k1 k2)) = _
  refine congrArg (V c (Pipeline.arrRef spec4 2) : S128x128.Idx → EReal) (funext fun a => Fin.ext ?_)
  match a with
  | ⟨0, _⟩ => show win4_2.index t (0 : Fin 2) * 128 + 1 * k1.val = k1.val; rw [e0]; omega
  | ⟨1, _⟩ => show win4_2.index t (1 : Fin 2) * 128 + 1 * k2.val = k2.val; rw [e1]; omega

/-- The first bias row's one block is the row. -/
theorem rd4_3 (c : Dev nD) (t : Fin cfg4.N) (k : Fin 128) :
    (iblk4 V c 3 t : Vec Ideal S1x128 .f32) (ix2 (0 : Fin 1) k) = (V c (Pipeline.arrRef spec4 3) : S1x128.Idx → EReal) (ix2 (0 : Fin 1) k) := by
  obtain ⟨-, -, -, -, -, -, e0, e1, -⟩ := idx4 t
  show (V c (Pipeline.arrRef spec4 3) : S1x128.Idx → EReal) (((cfg4.win 3).blk t).view.emb (ix2 (0 : Fin 1) k)) = _
  refine congrArg (V c (Pipeline.arrRef spec4 3) : S1x128.Idx → EReal) (funext fun a => Fin.ext ?_)
  match a with
  | ⟨0, _⟩ => show win4_3.index t (0 : Fin 2) * 1 + 1 * 0 = 0; rw [e0]
  | ⟨1, _⟩ => show win4_3.index t (1 : Fin 2) * 128 + 1 * k.val = k.val; rw [e1]; omega

/-- The second weight matrix's one block is the matrix. -/
theorem rd4_4 (c : Dev nD) (t : Fin cfg4.N) (k1 k2 : Fin 128) :
    (iblk4 V c 4 t : Vec Ideal S128x128 .f32) (ix2 k1 k2) = (V c (Pipeline.arrRef spec4 4) : S128x128.Idx → EReal) (ix2 k1 k2) := by
  obtain ⟨-, -, -, -, -, -, -, -, e0, e1, -⟩ := idx4 t
  show (V c (Pipeline.arrRef spec4 4) : S128x128.Idx → EReal) (((cfg4.win 4).blk t).view.emb (ix2 k1 k2)) = _
  refine congrArg (V c (Pipeline.arrRef spec4 4) : S128x128.Idx → EReal) (funext fun a => Fin.ext ?_)
  match a with
  | ⟨0, _⟩ => show win4_4.index t (0 : Fin 2) * 128 + 1 * k1.val = k1.val; rw [e0]; omega
  | ⟨1, _⟩ => show win4_4.index t (1 : Fin 2) * 128 + 1 * k2.val = k2.val; rw [e1]; omega

/-- The second bias row's one block is the row. -/
theorem rd4_5 (c : Dev nD) (t : Fin cfg4.N) (k : Fin 128) :
    (iblk4 V c 5 t : Vec Ideal S1x128 .f32) (ix2 (0 : Fin 1) k) = (V c (Pipeline.arrRef spec4 5) : S1x128.Idx → EReal) (ix2 (0 : Fin 1) k) := by
  obtain ⟨-, -, -, -, -, -, -, -, -, -, e0, e1, -⟩ := idx4 t
  show (V c (Pipeline.arrRef spec4 5) : S1x128.Idx → EReal) (((cfg4.win 5).blk t).view.emb (ix2 (0 : Fin 1) k)) = _
  refine congrArg (V c (Pipeline.arrRef spec4 5) : S1x128.Idx → EReal) (funext fun a => Fin.ext ?_)
  match a with
  | ⟨0, _⟩ => show win4_5.index t (0 : Fin 2) * 1 + 1 * 0 = 0; rw [e0]
  | ⟨1, _⟩ => show win4_5.index t (1 : Fin 2) * 128 + 1 * k.val = k.val; rw [e1]; omega

/-- What point t writes back is the body's arithmetic on the six blocks at t. -/
theorem flushed4_body (c : Dev nD) (t : Fin cfg4.N) :
    (dat4 V c).flushed 6 t = (cfg4.win 6).cut (grid4.coords t)
      (body (iblk4 V c 0 t) (iblk4 V c 1 t) (iblk4 V c 2 t) (iblk4 V c 3 t) (iblk4 V c 4 t) (iblk4 V c 5 t)) := by
  show (cfg4.win 6).cut (grid4.coords t) ((dat4 V c).after 6 t) = _
  rw [after4_6]
  unfold out4_6
  rw [View.canon_unit_zero hz]
  simp only [View.ld_unit_zero (S := S4096x128) hz, View.ld_unit_zero (S := S128x128) hz, View.ld_unit_zero (S := S1x128) hz]
  rw [pay4]

/-- Entry (p, q) of block t of the result is entry (4096 t + p, q) of the array. -/
theorem emb4_6 (t : Fin cfg4.N) (p : Fin 4096) (q : Fin 128) (r : Fin 65536) (hr : r.val = t.val * 4096 + p.val) :
    ((cfg4.win 6).blk t).view.emb (ix2 p q) = ix2 r q := by
  obtain ⟨-, -, -, -, -, -, -, -, -, -, -, -, e0, e1⟩ := idx4 t
  funext a; apply Fin.ext
  match a with
  | ⟨0, _⟩ => show win4_6.index t (0 : Fin 2) * 4096 + 1 * p.val = r.val; rw [e0, hr]; omega
  | ⟨1, _⟩ => show win4_6.index t (1 : Fin 2) * 128 + 1 * q.val = q.val; rw [e1]; omega

/-- The body on the six blocks at t, at entry (p, q), is the network's update of the arrays at (4096 t + p, q). -/
theorem entry4 (c : Dev nD) (b1 b2 : FVec Ideal S128 .f32)
    (h3 : V c (Pipeline.arrRef spec4 3) = shapeCast S1x128 b1 shapeCasts_S128_S1x128)
    (h5 : V c (Pipeline.arrRef spec4 5) = shapeCast S1x128 b2 shapeCasts_S128_S1x128)
    (t : Fin cfg4.N) (p : Fin 4096) (q : Fin 128) (r : Fin 65536) (hr : r.val = t.val * 4096 + p.val) :
    body (iblk4 V c 0 t) (iblk4 V c 1 t) (iblk4 V c 2 t) (iblk4 V c 3 t) (iblk4 V c 4 t) (iblk4 V c 5 t) (ix2 p q)
      = Cert.Spec.mlp (F := Ideal) (V c (Pipeline.arrRef spec4 0)) (V c (Pipeline.arrRef spec4 1))
          (V c (Pipeline.arrRef spec4 2)) b1 (V c (Pipeline.arrRef spec4 4)) b2 (ix2 r q) := by
  refine blockEntry (iblk4 V c 0 t) (iblk4 V c 1 t) (iblk4 V c 2 t) (iblk4 V c 3 t) (iblk4 V c 4 t) (iblk4 V c 5 t)
    (V c (Pipeline.arrRef spec4 0)) (V c (Pipeline.arrRef spec4 1)) (V c (Pipeline.arrRef spec4 2)) b1 (V c (Pipeline.arrRef spec4 4)) b2
    p q r (fun k => rd4_0 V c t p k r hr) (fun k => rd4_1 V c t p k r hr)
    (fun k1 k2 => rd4_2 V c t k1 k2) (fun k => ?_) (fun k1 k2 => rd4_4 V c t k1 k2) (fun k => ?_)
  · refine (rd4_3 V c t k).trans ?_
    rw [h3]
    exact Cert.Lib.Layout.rowCast_apply b1 shapeCasts_S128_S1x128 0 k
  · refine (rd4_5 V c t k).trans ?_
    rw [h5]
    exact Cert.Lib.Layout.rowCast_apply b2 shapeCasts_S128_S1x128 0 k

/-- What point t writes back is block t of the network's update of the arrays as the launch finds them. -/
theorem flushed4_eq (c : Dev nD) (b1 b2 : FVec Ideal S128 .f32)
    (h3 : V c (Pipeline.arrRef spec4 3) = shapeCast S1x128 b1 shapeCasts_S128_S1x128)
    (h5 : V c (Pipeline.arrRef spec4 5) = shapeCast S1x128 b2 shapeCasts_S128_S1x128) (t : Fin cfg4.N) :
    (dat4 V c).flushed 6 t = ((cfg4.win 6).blk t).view.read (Elt Ideal)
      (Cert.Spec.mlp (F := Ideal) (V c (Pipeline.arrRef spec4 0)) (V c (Pipeline.arrRef spec4 1))
        (V c (Pipeline.arrRef spec4 2)) b1 (V c (Pipeline.arrRef spec4 4)) b2) := by
  rw [flushed4_body]
  funext j
  obtain ⟨p, q, rfl⟩ : ∃ (p : Fin 4096) (q : Fin 128), j = ix2 p q := ⟨j 0, j 1, eq_ix2 j⟩
  have ht : t.val < 16 := lt_of_lt_of_eq t.isLt N_4
  have hr : t.val * 4096 + p.val < 65536 := by have := p.isLt; omega
  show body (iblk4 V c 0 t) (iblk4 V c 1 t) (iblk4 V c 2 t) (iblk4 V c 3 t) (iblk4 V c 4 t) (iblk4 V c 5 t) (ix2 p q)
    = Cert.Spec.mlp (F := Ideal) (V c (Pipeline.arrRef spec4 0)) (V c (Pipeline.arrRef spec4 1))
        (V c (Pipeline.arrRef spec4 2)) b1 (V c (Pipeline.arrRef spec4 4)) b2 (((cfg4.win 6).blk t).view.emb (ix2 p q))
  rw [emb4_6 t p q ⟨t.val * 4096 + p.val, hr⟩ rfl]
  exact entry4 V c b1 b2 h3 h5 t p q ⟨t.val * 4096 + p.val, hr⟩ rfl

/-- An entry of the result array is in point t's block iff each coordinate is in the block's range on its axis. -/
theorem mem_blk4 (t : Fin cfg4.N) (i : S65536x128.Idx) :
    i ∈ ((cfg4.win 6).blk t).view.set ↔ ∀ a : Fin 2, win4_6.index t a * S4096x128.size a ≤ (i a).val
      ∧ (i a).val < win4_6.index t a * S4096x128.size a + S4096x128.size a := by
  show i ∈ ((View.whole main_v39).slice (win4_6.rect t)).set ↔ _
  rw [View.set_slice_whole, Rect.mem_set_unit]
  exact Iff.rfl

/-- Every entry of the result array is written: row r by point r / 4096. -/
theorem cover4 (i : S65536x128.Idx) :
    ∃ t : Fin cfg4.N, (cfg4.win 6).flush t = true ∧ i ∈ ((cfg4.win 6).blk t).view.set := by
  have hi0 : (i 0).val < 65536 := (i 0).isLt
  have hi1 : (i 1).val < 128 := (i 1).isLt
  have hN : cfg4.N = 16 := N_4
  obtain ⟨t, ht⟩ : ∃ t : Fin cfg4.N, t.val = (i 0).val / 4096 := ⟨⟨(i 0).val / 4096, by rw [hN]; omega⟩, rfl⟩
  obtain ⟨-, -, -, -, -, -, -, -, -, -, -, -, e0, e1⟩ := idx4 t
  refine ⟨t, flush4_6 t, ?_⟩
  rw [mem_blk4]
  intro a
  match a with
  | ⟨0, _⟩ =>
    show win4_6.index t (0 : Fin 2) * 4096 ≤ (i 0).val ∧ (i 0).val < win4_6.index t (0 : Fin 2) * 4096 + 4096
    rw [e0, ht]; omega
  | ⟨1, _⟩ =>
    show win4_6.index t (1 : Fin 2) * 128 ≤ (i 1).val ∧ (i 1).val < win4_6.index t (1 : Fin 2) * 128 + 128
    rw [e1]; omega

/-- After the second launch the result array is the network's update of the arrays the launch found. -/
theorem arr4 (c : Dev nD) (b1 b2 : FVec Ideal S128 .f32)
    (h3 : V c (Pipeline.arrRef spec4 3) = shapeCast S1x128 b1 shapeCasts_S128_S1x128)
    (h5 : V c (Pipeline.arrRef spec4 5) = shapeCast S1x128 b2 shapeCasts_S128_S1x128) :
    (dat4 V c).arrAt 6 cfg4.N = Cert.Spec.mlp (F := Ideal) (V c (Pipeline.arrRef spec4 0)) (V c (Pipeline.arrRef spec4 1))
      (V c (Pipeline.arrRef spec4 2)) b1 (V c (Pipeline.arrRef spec4 4)) b2 :=
  (dat4 V c).arrAt_eq_of_cover 6 _ (fun t _ => flushed4_eq V c b1 b2 h3 h5 t) cover4
/-! ## The third launch -/

/-- The index maps over the 16 grid points: the two node arrays and the result move by row block t, the weights and
    bias rows stay at their one block. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Row p of block t of the node features is row 4096 t + p of the array. -/
theorem rd6_0 (c : Dev nD) (t : Fin cfg6.N) (p : Fin 4096) (k : Fin 128) (r : Fin 65536) (hr : r.val = t.val * 4096 + p.val) :
    (iblk6 V c 0 t : Vec Ideal S4096x128 .f32) (ix2 p k) = (V c (Pipeline.arrRef spec6 0) : S65536x128.Idx → EReal) (ix2 r k) := by
  obtain ⟨e0, e1, -⟩ := idx6 t
  show (V c (Pipeline.arrRef spec6 0) : S65536x128.Idx → EReal) (((cfg6.win 0).blk t).view.emb (ix2 p k)) = _
  refine congrArg (V c (Pipeline.arrRef spec6 0) : S65536x128.Idx → EReal) (funext fun a => Fin.ext ?_)
  match a with
  | ⟨0, _⟩ => show win6_0.index t (0 : Fin 2) * 4096 + 1 * p.val = r.val; rw [e0, hr]; omega
  | ⟨1, _⟩ => show win6_0.index t (1 : Fin 2) * 128 + 1 * k.val = k.val; rw [e1]; omega

/-- Row p of block t of the summed messages is row 4096 t + p of the array. -/
theorem rd6_1 (c : Dev nD) (t : Fin cfg6.N) (p : Fin 4096) (k : Fin 128) (r : Fin 65536) (hr : r.val = t.val * 4096 + p.val) :
    (iblk6 V c 1 t : Vec Ideal S4096x128 .f32) (ix2 p k) = (V c (Pipeline.arrRef spec6 1) : S65536x128.Idx → EReal) (ix2 r k) := by
  obtain ⟨-, -, e0, e1, -⟩ := idx6 t
  show (V c (Pipeline.arrRef spec6 1) : S65536x128.Idx → EReal) (((cfg6.win 1).blk t).view.emb (ix2 p k)) = _
  refine congrArg (V c (Pipeline.arrRef spec6 1) : S65536x128.Idx → EReal) (funext fun a => Fin.ext ?_)
  match a with
  | ⟨0, _⟩ => show win6_1.index t (0 : Fin 2) * 4096 + 1 * p.val = r.val; rw [e0, hr]; omega
  | ⟨1, _⟩ => show win6_1.index t (1 : Fin 2) * 128 + 1 * k.val = k.val; rw [e1]; omega

/-- The first weight matrix's one block is the matrix. -/
theorem rd6_2 (c : Dev nD) (t : Fin cfg6.N) (k1 k2 : Fin 128) :
    (iblk6 V c 2 t : Vec Ideal S128x128 .f32) (ix2 k1 k2) = (V c (Pipeline.arrRef spec6 2) : S128x128.Idx → EReal) (ix2 k1 k2) := by
  obtain ⟨-, -, -, -, e0, e1, -⟩ := idx6 t
  show (V c (Pipeline.arrRef spec6 2) : S128x128.Idx → EReal) (((cfg6.win 2).blk t).view.emb (ix2 k1 k2)) = _
  refine congrArg (V c (Pipeline.arrRef spec6 2) : S128x128.Idx → EReal) (funext fun a => Fin.ext ?_)
  match a with
  | ⟨0, _⟩ => show win6_2.index t (0 : Fin 2) * 128 + 1 * k1.val = k1.val; rw [e0]; omega
  | ⟨1, _⟩ => show win6_2.index t (1 : Fin 2) * 128 + 1 * k2.val = k2.val; rw [e1]; omega

/-- The first bias row's one block is the row. -/
theorem rd6_3 (c : Dev nD) (t : Fin cfg6.N) (k : Fin 128) :
    (iblk6 V c 3 t : Vec Ideal S1x128 .f32) (ix2 (0 : Fin 1) k) = (V c (Pipeline.arrRef spec6 3) : S1x128.Idx → EReal) (ix2 (0 : Fin 1) k) := by
  obtain ⟨-, -, -, -, -, -, e0, e1, -⟩ := idx6 t
  show (V c (Pipeline.arrRef spec6 3) : S1x128.Idx → EReal) (((cfg6.win 3).blk t).view.emb (ix2 (0 : Fin 1) k)) = _
  refine congrArg (V c (Pipeline.arrRef spec6 3) : S1x128.Idx → EReal) (funext fun a => Fin.ext ?_)
  match a with
  | ⟨0, _⟩ => show win6_3.index t (0 : Fin 2) * 1 + 1 * 0 = 0; rw [e0]
  | ⟨1, _⟩ => show win6_3.index t (1 : Fin 2) * 128 + 1 * k.val = k.val; rw [e1]; omega

/-- The second weight matrix's one block is the matrix. -/
theorem rd6_4 (c : Dev nD) (t : Fin cfg6.N) (k1 k2 : Fin 128) :
    (iblk6 V c 4 t : Vec Ideal S128x128 .f32) (ix2 k1 k2) = (V c (Pipeline.arrRef spec6 4) : S128x128.Idx → EReal) (ix2 k1 k2) := by
  obtain ⟨-, -, -, -, -, -, -, -, e0, e1, -⟩ := idx6 t
  show (V c (Pipeline.arrRef spec6 4) : S128x128.Idx → EReal) (((cfg6.win 4).blk t).view.emb (ix2 k1 k2)) = _
  refine congrArg (V c (Pipeline.arrRef spec6 4) : S128x128.Idx → EReal) (funext fun a => Fin.ext ?_)
  match a with
  | ⟨0, _⟩ => show win6_4.index t (0 : Fin 2) * 128 + 1 * k1.val = k1.val; rw [e0]; omega
  | ⟨1, _⟩ => show win6_4.index t (1 : Fin 2) * 128 + 1 * k2.val = k2.val; rw [e1]; omega

/-- The second bias row's one block is the row. -/
theorem rd6_5 (c : Dev nD) (t : Fin cfg6.N) (k : Fin 128) :
    (iblk6 V c 5 t : Vec Ideal S1x128 .f32) (ix2 (0 : Fin 1) k) = (V c (Pipeline.arrRef spec6 5) : S1x128.Idx → EReal) (ix2 (0 : Fin 1) k) := by
  obtain ⟨-, -, -, -, -, -, -, -, -, -, e0, e1, -⟩ := idx6 t
  show (V c (Pipeline.arrRef spec6 5) : S1x128.Idx → EReal) (((cfg6.win 5).blk t).view.emb (ix2 (0 : Fin 1) k)) = _
  refine congrArg (V c (Pipeline.arrRef spec6 5) : S1x128.Idx → EReal) (funext fun a => Fin.ext ?_)
  match a with
  | ⟨0, _⟩ => show win6_5.index t (0 : Fin 2) * 1 + 1 * 0 = 0; rw [e0]
  | ⟨1, _⟩ => show win6_5.index t (1 : Fin 2) * 128 + 1 * k.val = k.val; rw [e1]; omega

/-- What point t writes back is the body's arithmetic on the six blocks at t. -/
theorem flushed6_body (c : Dev nD) (t : Fin cfg6.N) :
    (dat6 V c).flushed 6 t = (cfg6.win 6).cut (grid6.coords t)
      (body (iblk6 V c 0 t) (iblk6 V c 1 t) (iblk6 V c 2 t) (iblk6 V c 3 t) (iblk6 V c 4 t) (iblk6 V c 5 t)) := by
  show (cfg6.win 6).cut (grid6.coords t) ((dat6 V c).after 6 t) = _
  rw [after6_6]
  unfold out6_6
  rw [View.canon_unit_zero hz]
  simp only [View.ld_unit_zero (S := S4096x128) hz, View.ld_unit_zero (S := S128x128) hz, View.ld_unit_zero (S := S1x128) hz]
  rw [pay6]

/-- Entry (p, q) of block t of the result is entry (4096 t + p, q) of the array. -/
theorem emb6_6 (t : Fin cfg6.N) (p : Fin 4096) (q : Fin 128) (r : Fin 65536) (hr : r.val = t.val * 4096 + p.val) :
    ((cfg6.win 6).blk t).view.emb (ix2 p q) = ix2 r q := by
  obtain ⟨-, -, -, -, -, -, -, -, -, -, -, -, e0, e1⟩ := idx6 t
  funext a; apply Fin.ext
  match a with
  | ⟨0, _⟩ => show win6_6.index t (0 : Fin 2) * 4096 + 1 * p.val = r.val; rw [e0, hr]; omega
  | ⟨1, _⟩ => show win6_6.index t (1 : Fin 2) * 128 + 1 * q.val = q.val; rw [e1]; omega

/-- The body on the six blocks at t, at entry (p, q), is the network's update of the arrays at (4096 t + p, q). -/
theorem entry6 (c : Dev nD) (b1 b2 : FVec Ideal S128 .f32)
    (h3 : V c (Pipeline.arrRef spec6 3) = shapeCast S1x128 b1 shapeCasts_S128_S1x128)
    (h5 : V c (Pipeline.arrRef spec6 5) = shapeCast S1x128 b2 shapeCasts_S128_S1x128)
    (t : Fin cfg6.N) (p : Fin 4096) (q : Fin 128) (r : Fin 65536) (hr : r.val = t.val * 4096 + p.val) :
    body (iblk6 V c 0 t) (iblk6 V c 1 t) (iblk6 V c 2 t) (iblk6 V c 3 t) (iblk6 V c 4 t) (iblk6 V c 5 t) (ix2 p q)
      = Cert.Spec.mlp (F := Ideal) (V c (Pipeline.arrRef spec6 0)) (V c (Pipeline.arrRef spec6 1))
          (V c (Pipeline.arrRef spec6 2)) b1 (V c (Pipeline.arrRef spec6 4)) b2 (ix2 r q) := by
  refine blockEntry (iblk6 V c 0 t) (iblk6 V c 1 t) (iblk6 V c 2 t) (iblk6 V c 3 t) (iblk6 V c 4 t) (iblk6 V c 5 t)
    (V c (Pipeline.arrRef spec6 0)) (V c (Pipeline.arrRef spec6 1)) (V c (Pipeline.arrRef spec6 2)) b1 (V c (Pipeline.arrRef spec6 4)) b2
    p q r (fun k => rd6_0 V c t p k r hr) (fun k => rd6_1 V c t p k r hr)
    (fun k1 k2 => rd6_2 V c t k1 k2) (fun k => ?_) (fun k1 k2 => rd6_4 V c t k1 k2) (fun k => ?_)
  · refine (rd6_3 V c t k).trans ?_
    rw [h3]
    exact Cert.Lib.Layout.rowCast_apply b1 shapeCasts_S128_S1x128 0 k
  · refine (rd6_5 V c t k).trans ?_
    rw [h5]
    exact Cert.Lib.Layout.rowCast_apply b2 shapeCasts_S128_S1x128 0 k

/-- What point t writes back is block t of the network's update of the arrays as the launch finds them. -/
theorem flushed6_eq (c : Dev nD) (b1 b2 : FVec Ideal S128 .f32)
    (h3 : V c (Pipeline.arrRef spec6 3) = shapeCast S1x128 b1 shapeCasts_S128_S1x128)
    (h5 : V c (Pipeline.arrRef spec6 5) = shapeCast S1x128 b2 shapeCasts_S128_S1x128) (t : Fin cfg6.N) :
    (dat6 V c).flushed 6 t = ((cfg6.win 6).blk t).view.read (Elt Ideal)
      (Cert.Spec.mlp (F := Ideal) (V c (Pipeline.arrRef spec6 0)) (V c (Pipeline.arrRef spec6 1))
        (V c (Pipeline.arrRef spec6 2)) b1 (V c (Pipeline.arrRef spec6 4)) b2) := by
  rw [flushed6_body]
  funext j
  obtain ⟨p, q, rfl⟩ : ∃ (p : Fin 4096) (q : Fin 128), j = ix2 p q := ⟨j 0, j 1, eq_ix2 j⟩
  have ht : t.val < 16 := lt_of_lt_of_eq t.isLt N_6
  have hr : t.val * 4096 + p.val < 65536 := by have := p.isLt; omega
  show body (iblk6 V c 0 t) (iblk6 V c 1 t) (iblk6 V c 2 t) (iblk6 V c 3 t) (iblk6 V c 4 t) (iblk6 V c 5 t) (ix2 p q)
    = Cert.Spec.mlp (F := Ideal) (V c (Pipeline.arrRef spec6 0)) (V c (Pipeline.arrRef spec6 1))
        (V c (Pipeline.arrRef spec6 2)) b1 (V c (Pipeline.arrRef spec6 4)) b2 (((cfg6.win 6).blk t).view.emb (ix2 p q))
  rw [emb6_6 t p q ⟨t.val * 4096 + p.val, hr⟩ rfl]
  exact entry6 V c b1 b2 h3 h5 t p q ⟨t.val * 4096 + p.val, hr⟩ rfl

/-- An entry of the result array is in point t's block iff each coordinate is in the block's range on its axis. -/
theorem mem_blk6 (t : Fin cfg6.N) (i : S65536x128.Idx) :
    i ∈ ((cfg6.win 6).blk t).view.set ↔ ∀ a : Fin 2, win6_6.index t a * S4096x128.size a ≤ (i a).val
      ∧ (i a).val < win6_6.index t a * S4096x128.size a + S4096x128.size a := by
  show i ∈ ((View.whole main_v61).slice (win6_6.rect t)).set ↔ _
  rw [View.set_slice_whole, Rect.mem_set_unit]
  exact Iff.rfl

/-- Every entry of the result array is written: row r by point r / 4096. -/
theorem cover6 (i : S65536x128.Idx) :
    ∃ t : Fin cfg6.N, (cfg6.win 6).flush t = true ∧ i ∈ ((cfg6.win 6).blk t).view.set := by
  have hi0 : (i 0).val < 65536 := (i 0).isLt
  have hi1 : (i 1).val < 128 := (i 1).isLt
  have hN : cfg6.N = 16 := N_6
  obtain ⟨t, ht⟩ : ∃ t : Fin cfg6.N, t.val = (i 0).val / 4096 := ⟨⟨(i 0).val / 4096, by rw [hN]; omega⟩, rfl⟩
  obtain ⟨-, -, -, -, -, -, -, -, -, -, -, -, e0, e1⟩ := idx6 t
  refine ⟨t, flush6_6 t, ?_⟩
  rw [mem_blk6]
  intro a
  match a with
  | ⟨0, _⟩ =>
    show win6_6.index t (0 : Fin 2) * 4096 ≤ (i 0).val ∧ (i 0).val < win6_6.index t (0 : Fin 2) * 4096 + 4096
    rw [e0, ht]; omega
  | ⟨1, _⟩ =>
    show win6_6.index t (1 : Fin 2) * 128 ≤ (i 1).val ∧ (i 1).val < win6_6.index t (1 : Fin 2) * 128 + 128
    rw [e1]; omega

/-- After the third launch the result array is the network's update of the arrays the launch found. -/
theorem arr6 (c : Dev nD) (b1 b2 : FVec Ideal S128 .f32)
    (h3 : V c (Pipeline.arrRef spec6 3) = shapeCast S1x128 b1 shapeCasts_S128_S1x128)
    (h5 : V c (Pipeline.arrRef spec6 5) = shapeCast S1x128 b2 shapeCasts_S128_S1x128) :
    (dat6 V c).arrAt 6 cfg6.N = Cert.Spec.mlp (F := Ideal) (V c (Pipeline.arrRef spec6 0)) (V c (Pipeline.arrRef spec6 1))
      (V c (Pipeline.arrRef spec6 2)) b1 (V c (Pipeline.arrRef spec6 4)) b2 :=
  (dat6 V c).arrAt_eq_of_cover 6 _ (fun t _ => flushed6_eq V c b1 b2 h3 h5 t) cover6
/-! ## The fourth launch -/

/-- The index maps over the 16 grid points: the two node arrays and the result move by row block t, the weights and
    bias rows stay at their one block. -/
theorem idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- Row p of block t of the node features is row 4096 t + p of the array. -/
theorem rd8_0 (c : Dev nD) (t : Fin cfg8.N) (p : Fin 4096) (k : Fin 128) (r : Fin 65536) (hr : r.val = t.val * 4096 + p.val) :
    (iblk8 V c 0 t : Vec Ideal S4096x128 .f32) (ix2 p k) = (V c (Pipeline.arrRef spec8 0) : S65536x128.Idx → EReal) (ix2 r k) := by
  obtain ⟨e0, e1, -⟩ := idx8 t
  show (V c (Pipeline.arrRef spec8 0) : S65536x128.Idx → EReal) (((cfg8.win 0).blk t).view.emb (ix2 p k)) = _
  refine congrArg (V c (Pipeline.arrRef spec8 0) : S65536x128.Idx → EReal) (funext fun a => Fin.ext ?_)
  match a with
  | ⟨0, _⟩ => show win8_0.index t (0 : Fin 2) * 4096 + 1 * p.val = r.val; rw [e0, hr]; omega
  | ⟨1, _⟩ => show win8_0.index t (1 : Fin 2) * 128 + 1 * k.val = k.val; rw [e1]; omega

/-- Row p of block t of the summed messages is row 4096 t + p of the array. -/
theorem rd8_1 (c : Dev nD) (t : Fin cfg8.N) (p : Fin 4096) (k : Fin 128) (r : Fin 65536) (hr : r.val = t.val * 4096 + p.val) :
    (iblk8 V c 1 t : Vec Ideal S4096x128 .f32) (ix2 p k) = (V c (Pipeline.arrRef spec8 1) : S65536x128.Idx → EReal) (ix2 r k) := by
  obtain ⟨-, -, e0, e1, -⟩ := idx8 t
  show (V c (Pipeline.arrRef spec8 1) : S65536x128.Idx → EReal) (((cfg8.win 1).blk t).view.emb (ix2 p k)) = _
  refine congrArg (V c (Pipeline.arrRef spec8 1) : S65536x128.Idx → EReal) (funext fun a => Fin.ext ?_)
  match a with
  | ⟨0, _⟩ => show win8_1.index t (0 : Fin 2) * 4096 + 1 * p.val = r.val; rw [e0, hr]; omega
  | ⟨1, _⟩ => show win8_1.index t (1 : Fin 2) * 128 + 1 * k.val = k.val; rw [e1]; omega

/-- The first weight matrix's one block is the matrix. -/
theorem rd8_2 (c : Dev nD) (t : Fin cfg8.N) (k1 k2 : Fin 128) :
    (iblk8 V c 2 t : Vec Ideal S128x128 .f32) (ix2 k1 k2) = (V c (Pipeline.arrRef spec8 2) : S128x128.Idx → EReal) (ix2 k1 k2) := by
  obtain ⟨-, -, -, -, e0, e1, -⟩ := idx8 t
  show (V c (Pipeline.arrRef spec8 2) : S128x128.Idx → EReal) (((cfg8.win 2).blk t).view.emb (ix2 k1 k2)) = _
  refine congrArg (V c (Pipeline.arrRef spec8 2) : S128x128.Idx → EReal) (funext fun a => Fin.ext ?_)
  match a with
  | ⟨0, _⟩ => show win8_2.index t (0 : Fin 2) * 128 + 1 * k1.val = k1.val; rw [e0]; omega
  | ⟨1, _⟩ => show win8_2.index t (1 : Fin 2) * 128 + 1 * k2.val = k2.val; rw [e1]; omega

/-- The first bias row's one block is the row. -/
theorem rd8_3 (c : Dev nD) (t : Fin cfg8.N) (k : Fin 128) :
    (iblk8 V c 3 t : Vec Ideal S1x128 .f32) (ix2 (0 : Fin 1) k) = (V c (Pipeline.arrRef spec8 3) : S1x128.Idx → EReal) (ix2 (0 : Fin 1) k) := by
  obtain ⟨-, -, -, -, -, -, e0, e1, -⟩ := idx8 t
  show (V c (Pipeline.arrRef spec8 3) : S1x128.Idx → EReal) (((cfg8.win 3).blk t).view.emb (ix2 (0 : Fin 1) k)) = _
  refine congrArg (V c (Pipeline.arrRef spec8 3) : S1x128.Idx → EReal) (funext fun a => Fin.ext ?_)
  match a with
  | ⟨0, _⟩ => show win8_3.index t (0 : Fin 2) * 1 + 1 * 0 = 0; rw [e0]
  | ⟨1, _⟩ => show win8_3.index t (1 : Fin 2) * 128 + 1 * k.val = k.val; rw [e1]; omega

/-- The second weight matrix's one block is the matrix. -/
theorem rd8_4 (c : Dev nD) (t : Fin cfg8.N) (k1 k2 : Fin 128) :
    (iblk8 V c 4 t : Vec Ideal S128x128 .f32) (ix2 k1 k2) = (V c (Pipeline.arrRef spec8 4) : S128x128.Idx → EReal) (ix2 k1 k2) := by
  obtain ⟨-, -, -, -, -, -, -, -, e0, e1, -⟩ := idx8 t
  show (V c (Pipeline.arrRef spec8 4) : S128x128.Idx → EReal) (((cfg8.win 4).blk t).view.emb (ix2 k1 k2)) = _
  refine congrArg (V c (Pipeline.arrRef spec8 4) : S128x128.Idx → EReal) (funext fun a => Fin.ext ?_)
  match a with
  | ⟨0, _⟩ => show win8_4.index t (0 : Fin 2) * 128 + 1 * k1.val = k1.val; rw [e0]; omega
  | ⟨1, _⟩ => show win8_4.index t (1 : Fin 2) * 128 + 1 * k2.val = k2.val; rw [e1]; omega

/-- The second bias row's one block is the row. -/
theorem rd8_5 (c : Dev nD) (t : Fin cfg8.N) (k : Fin 128) :
    (iblk8 V c 5 t : Vec Ideal S1x128 .f32) (ix2 (0 : Fin 1) k) = (V c (Pipeline.arrRef spec8 5) : S1x128.Idx → EReal) (ix2 (0 : Fin 1) k) := by
  obtain ⟨-, -, -, -, -, -, -, -, -, -, e0, e1, -⟩ := idx8 t
  show (V c (Pipeline.arrRef spec8 5) : S1x128.Idx → EReal) (((cfg8.win 5).blk t).view.emb (ix2 (0 : Fin 1) k)) = _
  refine congrArg (V c (Pipeline.arrRef spec8 5) : S1x128.Idx → EReal) (funext fun a => Fin.ext ?_)
  match a with
  | ⟨0, _⟩ => show win8_5.index t (0 : Fin 2) * 1 + 1 * 0 = 0; rw [e0]
  | ⟨1, _⟩ => show win8_5.index t (1 : Fin 2) * 128 + 1 * k.val = k.val; rw [e1]; omega

/-- What point t writes back is the body's arithmetic on the six blocks at t. -/
theorem flushed8_body (c : Dev nD) (t : Fin cfg8.N) :
    (dat8 V c).flushed 6 t = (cfg8.win 6).cut (grid8.coords t)
      (body (iblk8 V c 0 t) (iblk8 V c 1 t) (iblk8 V c 2 t) (iblk8 V c 3 t) (iblk8 V c 4 t) (iblk8 V c 5 t)) := by
  show (cfg8.win 6).cut (grid8.coords t) ((dat8 V c).after 6 t) = _
  rw [after8_6]
  unfold out8_6
  rw [View.canon_unit_zero hz]
  simp only [View.ld_unit_zero (S := S4096x128) hz, View.ld_unit_zero (S := S128x128) hz, View.ld_unit_zero (S := S1x128) hz]
  rw [pay8]

/-- Entry (p, q) of block t of the result is entry (4096 t + p, q) of the array. -/
theorem emb8_6 (t : Fin cfg8.N) (p : Fin 4096) (q : Fin 128) (r : Fin 65536) (hr : r.val = t.val * 4096 + p.val) :
    ((cfg8.win 6).blk t).view.emb (ix2 p q) = ix2 r q := by
  obtain ⟨-, -, -, -, -, -, -, -, -, -, -, -, e0, e1⟩ := idx8 t
  funext a; apply Fin.ext
  match a with
  | ⟨0, _⟩ => show win8_6.index t (0 : Fin 2) * 4096 + 1 * p.val = r.val; rw [e0, hr]; omega
  | ⟨1, _⟩ => show win8_6.index t (1 : Fin 2) * 128 + 1 * q.val = q.val; rw [e1]; omega

/-- The body on the six blocks at t, at entry (p, q), is the network's update of the arrays at (4096 t + p, q). -/
theorem entry8 (c : Dev nD) (b1 b2 : FVec Ideal S128 .f32)
    (h3 : V c (Pipeline.arrRef spec8 3) = shapeCast S1x128 b1 shapeCasts_S128_S1x128)
    (h5 : V c (Pipeline.arrRef spec8 5) = shapeCast S1x128 b2 shapeCasts_S128_S1x128)
    (t : Fin cfg8.N) (p : Fin 4096) (q : Fin 128) (r : Fin 65536) (hr : r.val = t.val * 4096 + p.val) :
    body (iblk8 V c 0 t) (iblk8 V c 1 t) (iblk8 V c 2 t) (iblk8 V c 3 t) (iblk8 V c 4 t) (iblk8 V c 5 t) (ix2 p q)
      = Cert.Spec.mlp (F := Ideal) (V c (Pipeline.arrRef spec8 0)) (V c (Pipeline.arrRef spec8 1))
          (V c (Pipeline.arrRef spec8 2)) b1 (V c (Pipeline.arrRef spec8 4)) b2 (ix2 r q) := by
  refine blockEntry (iblk8 V c 0 t) (iblk8 V c 1 t) (iblk8 V c 2 t) (iblk8 V c 3 t) (iblk8 V c 4 t) (iblk8 V c 5 t)
    (V c (Pipeline.arrRef spec8 0)) (V c (Pipeline.arrRef spec8 1)) (V c (Pipeline.arrRef spec8 2)) b1 (V c (Pipeline.arrRef spec8 4)) b2
    p q r (fun k => rd8_0 V c t p k r hr) (fun k => rd8_1 V c t p k r hr)
    (fun k1 k2 => rd8_2 V c t k1 k2) (fun k => ?_) (fun k1 k2 => rd8_4 V c t k1 k2) (fun k => ?_)
  · refine (rd8_3 V c t k).trans ?_
    rw [h3]
    exact Cert.Lib.Layout.rowCast_apply b1 shapeCasts_S128_S1x128 0 k
  · refine (rd8_5 V c t k).trans ?_
    rw [h5]
    exact Cert.Lib.Layout.rowCast_apply b2 shapeCasts_S128_S1x128 0 k

/-- What point t writes back is block t of the network's update of the arrays as the launch finds them. -/
theorem flushed8_eq (c : Dev nD) (b1 b2 : FVec Ideal S128 .f32)
    (h3 : V c (Pipeline.arrRef spec8 3) = shapeCast S1x128 b1 shapeCasts_S128_S1x128)
    (h5 : V c (Pipeline.arrRef spec8 5) = shapeCast S1x128 b2 shapeCasts_S128_S1x128) (t : Fin cfg8.N) :
    (dat8 V c).flushed 6 t = ((cfg8.win 6).blk t).view.read (Elt Ideal)
      (Cert.Spec.mlp (F := Ideal) (V c (Pipeline.arrRef spec8 0)) (V c (Pipeline.arrRef spec8 1))
        (V c (Pipeline.arrRef spec8 2)) b1 (V c (Pipeline.arrRef spec8 4)) b2) := by
  rw [flushed8_body]
  funext j
  obtain ⟨p, q, rfl⟩ : ∃ (p : Fin 4096) (q : Fin 128), j = ix2 p q := ⟨j 0, j 1, eq_ix2 j⟩
  have ht : t.val < 16 := lt_of_lt_of_eq t.isLt N_8
  have hr : t.val * 4096 + p.val < 65536 := by have := p.isLt; omega
  show body (iblk8 V c 0 t) (iblk8 V c 1 t) (iblk8 V c 2 t) (iblk8 V c 3 t) (iblk8 V c 4 t) (iblk8 V c 5 t) (ix2 p q)
    = Cert.Spec.mlp (F := Ideal) (V c (Pipeline.arrRef spec8 0)) (V c (Pipeline.arrRef spec8 1))
        (V c (Pipeline.arrRef spec8 2)) b1 (V c (Pipeline.arrRef spec8 4)) b2 (((cfg8.win 6).blk t).view.emb (ix2 p q))
  rw [emb8_6 t p q ⟨t.val * 4096 + p.val, hr⟩ rfl]
  exact entry8 V c b1 b2 h3 h5 t p q ⟨t.val * 4096 + p.val, hr⟩ rfl

/-- An entry of the result array is in point t's block iff each coordinate is in the block's range on its axis. -/
theorem mem_blk8 (t : Fin cfg8.N) (i : S65536x128.Idx) :
    i ∈ ((cfg8.win 6).blk t).view.set ↔ ∀ a : Fin 2, win8_6.index t a * S4096x128.size a ≤ (i a).val
      ∧ (i a).val < win8_6.index t a * S4096x128.size a + S4096x128.size a := by
  show i ∈ ((View.whole main_v83).slice (win8_6.rect t)).set ↔ _
  rw [View.set_slice_whole, Rect.mem_set_unit]
  exact Iff.rfl

/-- Every entry of the result array is written: row r by point r / 4096. -/
theorem cover8 (i : S65536x128.Idx) :
    ∃ t : Fin cfg8.N, (cfg8.win 6).flush t = true ∧ i ∈ ((cfg8.win 6).blk t).view.set := by
  have hi0 : (i 0).val < 65536 := (i 0).isLt
  have hi1 : (i 1).val < 128 := (i 1).isLt
  have hN : cfg8.N = 16 := N_8
  obtain ⟨t, ht⟩ : ∃ t : Fin cfg8.N, t.val = (i 0).val / 4096 := ⟨⟨(i 0).val / 4096, by rw [hN]; omega⟩, rfl⟩
  obtain ⟨-, -, -, -, -, -, -, -, -, -, -, -, e0, e1⟩ := idx8 t
  refine ⟨t, flush8_6 t, ?_⟩
  rw [mem_blk8]
  intro a
  match a with
  | ⟨0, _⟩ =>
    show win8_6.index t (0 : Fin 2) * 4096 ≤ (i 0).val ∧ (i 0).val < win8_6.index t (0 : Fin 2) * 4096 + 4096
    rw [e0, ht]; omega
  | ⟨1, _⟩ =>
    show win8_6.index t (1 : Fin 2) * 128 ≤ (i 1).val ∧ (i 1).val < win8_6.index t (1 : Fin 2) * 128 + 128
    rw [e1]; omega

/-- After the fourth launch the result array is the network's update of the arrays the launch found. -/
theorem arr8 (c : Dev nD) (b1 b2 : FVec Ideal S128 .f32)
    (h3 : V c (Pipeline.arrRef spec8 3) = shapeCast S1x128 b1 shapeCasts_S128_S1x128)
    (h5 : V c (Pipeline.arrRef spec8 5) = shapeCast S1x128 b2 shapeCasts_S128_S1x128) :
    (dat8 V c).arrAt 6 cfg8.N = Cert.Spec.mlp (F := Ideal) (V c (Pipeline.arrRef spec8 0)) (V c (Pipeline.arrRef spec8 1))
      (V c (Pipeline.arrRef spec8 2)) b1 (V c (Pipeline.arrRef spec8 4)) b2 :=
  (dat8 V c).arrAt_eq_of_cover 6 _ (fun t _ => flushed8_eq V c b1 b2 h3 h5 t) cover8

end Cert.KernelIdeal.KMlp

end
-- ==== Proof.KBnSib.lean ====
/-
  Launches 5, 7 and 9 run the body of launch 3 over the same grid and the same block shapes, on other arrays: what is
  proved of launch 3 holds of each of them, by the same steps.
-/
import proofs.«426861_j66571993088626_2_alg».proof.Proof.KBn

noncomputable section

namespace Cert.KernelIdeal.KBn

open Cert.KernelIdeal Cert.KernelIdeal.Gen
open Idealize.ShloMosaic Idealize.ShloMosaic.ValueIdx Idealize.ShloMosaic.TcCoe Idealize.SL.Sem
open Idealize.ShloMosaic.Pipeline (Dat)

/-! ## Launch 5 -/

/-- The printed index maps of launch 5, decided over its eight points: point t stages rows 8192 t … 8192 t + 8191 of the
    input and of the output, and the one scale row and the one shift row. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Launch 5's body does the same arithmetic as launch 3's. -/
theorem pay5_eq (x0 : Vec Ideal S8192x128 .f32) (x1 x2 : Vec Ideal S1x128 .f32) :
    k5_pay1 (F := Ideal) x0 x1 x2 = k3_pay1 (F := Ideal) x0 x1 x2 := rfl

section
variable (V : (c : Dev nD) → (b : Ref sig .tc) → Buf (Elt Ideal) ((c : Thread nD τ).loc b)) (c : Dev nD)

/-- The column of an entry of the output's block t is its column inside the block. -/
theorem col5 (t : Fin cfg5.N) (p : Fin 8192) (q : Fin 128) :
    ((((cfg5.win 3).blk t).view.emb (ix2 p q)) 1).val = q.val := by
  obtain ⟨-, -, -, -, -, -, -, d1⟩ := idx5 t
  show win5_3.index t (1 : Fin 2) * 128 + 1 * q.val = q.val
  omega

/-- The input's block t holds, entry by entry, what the input array holds where the output's block t lies. -/
theorem zblk5 (t : Fin cfg5.N) (p : Fin 8192) (q : Fin 128) :
    iblk5 V c 0 t (ix2 p q) = V c (Pipeline.arrRef spec5 0) (((cfg5.win 3).blk t).view.emb (ix2 p q)) := by
  obtain ⟨a0, a1, -, -, -, -, d0, d1⟩ := idx5 t
  show V c (Pipeline.arrRef spec5 0) (((cfg5.win 0).blk t).view.emb (ix2 p q))
    = V c (Pipeline.arrRef spec5 0) (((cfg5.win 3).blk t).view.emb (ix2 p q))
  refine congrArg _ (funext fun a => Fin.ext ?_)
  match a with
  | ⟨0, _⟩ => show win5_0.index t (0 : Fin 2) * 8192 + 1 * p.val = win5_3.index t (0 : Fin 2) * 8192 + 1 * p.val; omega
  | ⟨1, _⟩ => show win5_0.index t (1 : Fin 2) * 128 + 1 * q.val = win5_3.index t (1 : Fin 2) * 128 + 1 * q.val; omega

/-- The scale window's block is, at every point, the one row the scale vector was reshaped to. -/
theorem scblk5 (sc : FVec Ideal S128 .f32)
    (h1 : V c (Pipeline.arrRef spec5 1) = shapeCast S1x128 sc shapeCasts_S128_S1x128) (t : Fin cfg5.N) (q : Fin 128) :
    iblk5 V c 1 t (ix2 (0 : Fin 1) q) = sc (ix1 q) := by
  obtain ⟨-, -, b0, b1, -, -, -, -⟩ := idx5 t
  show V c (Pipeline.arrRef spec5 1) (((cfg5.win 1).blk t).view.emb (ix2 (0 : Fin 1) q)) = sc (ix1 q)
  refine (congrFun h1 _).trans ((congrArg _ (funext fun a => Fin.ext ?_)).trans
    (Cert.Lib.Layout.rowCast_apply sc shapeCasts_S128_S1x128 0 q))
  match a with
  | ⟨0, _⟩ => show win5_1.index t (0 : Fin 2) * 1 + 1 * 0 = 0; omega
  | ⟨1, _⟩ => show win5_1.index t (1 : Fin 2) * 128 + 1 * q.val = q.val; omega

/-- The shift window's block likewise. -/
theorem shblk5 (sh : FVec Ideal S128 .f32)
    (h2 : V c (Pipeline.arrRef spec5 2) = shapeCast S1x128 sh shapeCasts_S128_S1x128) (t : Fin cfg5.N) (q : Fin 128) :
    iblk5 V c 2 t (ix2 (0 : Fin 1) q) = sh (ix1 q) := by
  obtain ⟨-, -, -, -, c0, c1, -, -⟩ := idx5 t
  show V c (Pipeline.arrRef spec5 2) (((cfg5.win 2).blk t).view.emb (ix2 (0 : Fin 1) q)) = sh (ix1 q)
  refine (congrFun h2 _).trans ((congrArg _ (funext fun a => Fin.ext ?_)).trans
    (Cert.Lib.Layout.rowCast_apply sh shapeCasts_S128_S1x128 0 q))
  match a with
  | ⟨0, _⟩ => show win5_2.index t (0 : Fin 2) * 1 + 1 * 0 = 0; omega
  | ⟨1, _⟩ => show win5_2.index t (1 : Fin 2) * 128 + 1 * q.val = q.val; omega

/-- What point t writes back is block t of the specification's array. -/
theorem flushed5_eq (sc sh : FVec Ideal S128 .f32)
    (h1 : V c (Pipeline.arrRef spec5 1) = shapeCast S1x128 sc shapeCasts_S128_S1x128)
    (h2 : V c (Pipeline.arrRef spec5 2) = shapeCast S1x128 sh shapeCasts_S128_S1x128) (t : Fin cfg5.N) :
    (dat5 V c).flushed 3 t = ((cfg5.win 3).blk t).view.read (Elt Ideal)
      (Cert.Spec.affRelu (F := Ideal) (V c (Pipeline.arrRef spec5 0)) sc sh) := by
  show (cfg5.win 3).cut (grid5.coords t) ((dat5 V c).after 3 t) = _
  rw [after5_3]
  unfold out5_3
  rw [View.canon_unit_zero hz]
  simp only [View.ld_unit_zero (S := S8192x128) hz, View.ld_unit_zero (S := S1x128) hz]
  funext j
  obtain ⟨p, q, rfl⟩ : ∃ (p : Fin 8192) (q : Fin 128), j = ix2 p q := ⟨j 0, j 1, eq_ix2 j⟩
  refine (congrFun (pay5_eq (iblk5 V c 0 t) (iblk5 V c 1 t) (iblk5 V c 2 t)) (ix2 p q)).trans ?_
  exact pay_eq_affRelu (iblk5 V c 0 t) (iblk5 V c 1 t) (iblk5 V c 2 t) (V c (Pipeline.arrRef spec5 0)) sc sh p q
    (((cfg5.win 3).blk t).view.emb (ix2 p q)) (col5 t p q) (zblk5 V c t p q) (scblk5 V c sc h1 t q) (shblk5 V c sh h2 t q)

end

/-- An entry of the output array is in point t's block iff each coordinate is in the block's range on its axis. -/
theorem mem_blk5 (t : Fin cfg5.N) (i : S65536x128.Idx) :
    i ∈ ((cfg5.win 3).blk t).view.set ↔ ∀ a : Fin 2, win5_3.index t a * S8192x128.size a ≤ (i a).val
      ∧ (i a).val < win5_3.index t a * S8192x128.size a + S8192x128.size a := by
  show i ∈ ((View.whole main_v52).slice (win5_3.rect t)).set ↔ _
  rw [View.set_slice_whole, Rect.mem_set_unit]
  exact Iff.rfl

/-- Row r of the output lies in the block of point r / 8192: the eight blocks tile the array. -/
theorem cover5 (i : S65536x128.Idx) :
    ∃ t : Fin cfg5.N, (cfg5.win 3).flush t = true ∧ i ∈ ((cfg5.win 3).blk t).view.set := by
  have hi0 : (i 0).val < 65536 := (i 0).isLt
  have hi1 : (i 1).val < 128 := (i 1).isLt
  obtain ⟨t, ht⟩ : ∃ t : Fin cfg5.N, t.val = (i 0).val / 8192 := ⟨⟨(i 0).val / 8192, by rw [show cfg5.N = 8 from N_5]; omega⟩, rfl⟩
  obtain ⟨-, -, -, -, -, -, d0, d1⟩ := idx5 t
  refine ⟨t, flush5_3 t, ?_⟩
  rw [mem_blk5]
  intro a
  match a with
  | ⟨0, _⟩ => show win5_3.index t (0 : Fin 2) * 8192 ≤ (i 0).val ∧ (i 0).val < win5_3.index t (0 : Fin 2) * 8192 + 8192; omega
  | ⟨1, _⟩ => show win5_3.index t (1 : Fin 2) * 128 ≤ (i 1).val ∧ (i 1).val < win5_3.index t (1 : Fin 2) * 128 + 128; omega

/-- The output array of launch 5, after its eight write-backs, is the input scaled, shifted and clipped. -/
theorem arr5 (V : (c : Dev nD) → (b : Ref sig .tc) → Buf (Elt Ideal) ((c : Thread nD τ).loc b)) (c : Dev nD)
    (sc sh : FVec Ideal S128 .f32)
    (h1 : V c (Pipeline.arrRef spec5 1) = shapeCast S1x128 sc shapeCasts_S128_S1x128)
    (h2 : V c (Pipeline.arrRef spec5 2) = shapeCast S1x128 sh shapeCasts_S128_S1x128) :
    (dat5 V c).arrAt 3 cfg5.N = Cert.Spec.affRelu (F := Ideal) (V c (Pipeline.arrRef spec5 0)) sc sh :=
  (dat5 V c).arrAt_eq_of_cover 3 (Cert.Spec.affRelu (F := Ideal) (V c (Pipeline.arrRef spec5 0)) sc sh)
    (fun t _ => flushed5_eq V c sc sh h1 h2 t) cover5

/-! ## Launch 7 -/

/-- The printed index maps of launch 7, decided over its eight points: point t stages rows 8192 t … 8192 t + 8191 of the
    input and of the output, and the one scale row and the one shift row. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Launch 7's body does the same arithmetic as launch 3's. -/
theorem pay7_eq (x0 : Vec Ideal S8192x128 .f32) (x1 x2 : Vec Ideal S1x128 .f32) :
    k7_pay1 (F := Ideal) x0 x1 x2 = k3_pay1 (F := Ideal) x0 x1 x2 := rfl

section
variable (V : (c : Dev nD) → (b : Ref sig .tc) → Buf (Elt Ideal) ((c : Thread nD τ).loc b)) (c : Dev nD)

/-- The column of an entry of the output's block t is its column inside the block. -/
theorem col7 (t : Fin cfg7.N) (p : Fin 8192) (q : Fin 128) :
    ((((cfg7.win 3).blk t).view.emb (ix2 p q)) 1).val = q.val := by
  obtain ⟨-, -, -, -, -, -, -, d1⟩ := idx7 t
  show win7_3.index t (1 : Fin 2) * 128 + 1 * q.val = q.val
  omega

/-- The input's block t holds, entry by entry, what the input array holds where the output's block t lies. -/
theorem zblk7 (t : Fin cfg7.N) (p : Fin 8192) (q : Fin 128) :
    iblk7 V c 0 t (ix2 p q) = V c (Pipeline.arrRef spec7 0) (((cfg7.win 3).blk t).view.emb (ix2 p q)) := by
  obtain ⟨a0, a1, -, -, -, -, d0, d1⟩ := idx7 t
  show V c (Pipeline.arrRef spec7 0) (((cfg7.win 0).blk t).view.emb (ix2 p q))
    = V c (Pipeline.arrRef spec7 0) (((cfg7.win 3).blk t).view.emb (ix2 p q))
  refine congrArg _ (funext fun a => Fin.ext ?_)
  match a with
  | ⟨0, _⟩ => show win7_0.index t (0 : Fin 2) * 8192 + 1 * p.val = win7_3.index t (0 : Fin 2) * 8192 + 1 * p.val; omega
  | ⟨1, _⟩ => show win7_0.index t (1 : Fin 2) * 128 + 1 * q.val = win7_3.index t (1 : Fin 2) * 128 + 1 * q.val; omega

/-- The scale window's block is, at every point, the one row the scale vector was reshaped to. -/
theorem scblk7 (sc : FVec Ideal S128 .f32)
    (h1 : V c (Pipeline.arrRef spec7 1) = shapeCast S1x128 sc shapeCasts_S128_S1x128) (t : Fin cfg7.N) (q : Fin 128) :
    iblk7 V c 1 t (ix2 (0 : Fin 1) q) = sc (ix1 q) := by
  obtain ⟨-, -, b0, b1, -, -, -, -⟩ := idx7 t
  show V c (Pipeline.arrRef spec7 1) (((cfg7.win 1).blk t).view.emb (ix2 (0 : Fin 1) q)) = sc (ix1 q)
  refine (congrFun h1 _).trans ((congrArg _ (funext fun a => Fin.ext ?_)).trans
    (Cert.Lib.Layout.rowCast_apply sc shapeCasts_S128_S1x128 0 q))
  match a with
  | ⟨0, _⟩ => show win7_1.index t (0 : Fin 2) * 1 + 1 * 0 = 0; omega
  | ⟨1, _⟩ => show win7_1.index t (1 : Fin 2) * 128 + 1 * q.val = q.val; omega

/-- The shift window's block likewise. -/
theorem shblk7 (sh : FVec Ideal S128 .f32)
    (h2 : V c (Pipeline.arrRef spec7 2) = shapeCast S1x128 sh shapeCasts_S128_S1x128) (t : Fin cfg7.N) (q : Fin 128) :
    iblk7 V c 2 t (ix2 (0 : Fin 1) q) = sh (ix1 q) := by
  obtain ⟨-, -, -, -, c0, c1, -, -⟩ := idx7 t
  show V c (Pipeline.arrRef spec7 2) (((cfg7.win 2).blk t).view.emb (ix2 (0 : Fin 1) q)) = sh (ix1 q)
  refine (congrFun h2 _).trans ((congrArg _ (funext fun a => Fin.ext ?_)).trans
    (Cert.Lib.Layout.rowCast_apply sh shapeCasts_S128_S1x128 0 q))
  match a with
  | ⟨0, _⟩ => show win7_2.index t (0 : Fin 2) * 1 + 1 * 0 = 0; omega
  | ⟨1, _⟩ => show win7_2.index t (1 : Fin 2) * 128 + 1 * q.val = q.val; omega

/-- What point t writes back is block t of the specification's array. -/
theorem flushed7_eq (sc sh : FVec Ideal S128 .f32)
    (h1 : V c (Pipeline.arrRef spec7 1) = shapeCast S1x128 sc shapeCasts_S128_S1x128)
    (h2 : V c (Pipeline.arrRef spec7 2) = shapeCast S1x128 sh shapeCasts_S128_S1x128) (t : Fin cfg7.N) :
    (dat7 V c).flushed 3 t = ((cfg7.win 3).blk t).view.read (Elt Ideal)
      (Cert.Spec.affRelu (F := Ideal) (V c (Pipeline.arrRef spec7 0)) sc sh) := by
  show (cfg7.win 3).cut (grid7.coords t) ((dat7 V c).after 3 t) = _
  rw [after7_3]
  unfold out7_3
  rw [View.canon_unit_zero hz]
  simp only [View.ld_unit_zero (S := S8192x128) hz, View.ld_unit_zero (S := S1x128) hz]
  funext j
  obtain ⟨p, q, rfl⟩ : ∃ (p : Fin 8192) (q : Fin 128), j = ix2 p q := ⟨j 0, j 1, eq_ix2 j⟩
  refine (congrFun (pay7_eq (iblk7 V c 0 t) (iblk7 V c 1 t) (iblk7 V c 2 t)) (ix2 p q)).trans ?_
  exact pay_eq_affRelu (iblk7 V c 0 t) (iblk7 V c 1 t) (iblk7 V c 2 t) (V c (Pipeline.arrRef spec7 0)) sc sh p q
    (((cfg7.win 3).blk t).view.emb (ix2 p q)) (col7 t p q) (zblk7 V c t p q) (scblk7 V c sc h1 t q) (shblk7 V c sh h2 t q)

end

/-- An entry of the output array is in point t's block iff each coordinate is in the block's range on its axis. -/
theorem mem_blk7 (t : Fin cfg7.N) (i : S65536x128.Idx) :
    i ∈ ((cfg7.win 3).blk t).view.set ↔ ∀ a : Fin 2, win7_3.index t a * S8192x128.size a ≤ (i a).val
      ∧ (i a).val < win7_3.index t a * S8192x128.size a + S8192x128.size a := by
  show i ∈ ((View.whole main_v74).slice (win7_3.rect t)).set ↔ _
  rw [View.set_slice_whole, Rect.mem_set_unit]
  exact Iff.rfl

/-- Row r of the output lies in the block of point r / 8192: the eight blocks tile the array. -/
theorem cover7 (i : S65536x128.Idx) :
    ∃ t : Fin cfg7.N, (cfg7.win 3).flush t = true ∧ i ∈ ((cfg7.win 3).blk t).view.set := by
  have hi0 : (i 0).val < 65536 := (i 0).isLt
  have hi1 : (i 1).val < 128 := (i 1).isLt
  obtain ⟨t, ht⟩ : ∃ t : Fin cfg7.N, t.val = (i 0).val / 8192 := ⟨⟨(i 0).val / 8192, by rw [show cfg7.N = 8 from N_7]; omega⟩, rfl⟩
  obtain ⟨-, -, -, -, -, -, d0, d1⟩ := idx7 t
  refine ⟨t, flush7_3 t, ?_⟩
  rw [mem_blk7]
  intro a
  match a with
  | ⟨0, _⟩ => show win7_3.index t (0 : Fin 2) * 8192 ≤ (i 0).val ∧ (i 0).val < win7_3.index t (0 : Fin 2) * 8192 + 8192; omega
  | ⟨1, _⟩ => show win7_3.index t (1 : Fin 2) * 128 ≤ (i 1).val ∧ (i 1).val < win7_3.index t (1 : Fin 2) * 128 + 128; omega

/-- The output array of launch 7, after its eight write-backs, is the input scaled, shifted and clipped. -/
theorem arr7 (V : (c : Dev nD) → (b : Ref sig .tc) → Buf (Elt Ideal) ((c : Thread nD τ).loc b)) (c : Dev nD)
    (sc sh : FVec Ideal S128 .f32)
    (h1 : V c (Pipeline.arrRef spec7 1) = shapeCast S1x128 sc shapeCasts_S128_S1x128)
    (h2 : V c (Pipeline.arrRef spec7 2) = shapeCast S1x128 sh shapeCasts_S128_S1x128) :
    (dat7 V c).arrAt 3 cfg7.N = Cert.Spec.affRelu (F := Ideal) (V c (Pipeline.arrRef spec7 0)) sc sh :=
  (dat7 V c).arrAt_eq_of_cover 3 (Cert.Spec.affRelu (F := Ideal) (V c (Pipeline.arrRef spec7 0)) sc sh)
    (fun t _ => flushed7_eq V c sc sh h1 h2 t) cover7

/-! ## Launch 9 -/

/-- The printed index maps of launch 9, decided over its eight points: point t stages rows 8192 t … 8192 t + 8191 of the
    input and of the output, and the one scale row and the one shift row. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Launch 9's body does the same arithmetic as launch 3's. -/
theorem pay9_eq (x0 : Vec Ideal S8192x128 .f32) (x1 x2 : Vec Ideal S1x128 .f32) :
    k9_pay1 (F := Ideal) x0 x1 x2 = k3_pay1 (F := Ideal) x0 x1 x2 := rfl

section
variable (V : (c : Dev nD) → (b : Ref sig .tc) → Buf (Elt Ideal) ((c : Thread nD τ).loc b)) (c : Dev nD)

/-- The column of an entry of the output's block t is its column inside the block. -/
theorem col9 (t : Fin cfg9.N) (p : Fin 8192) (q : Fin 128) :
    ((((cfg9.win 3).blk t).view.emb (ix2 p q)) 1).val = q.val := by
  obtain ⟨-, -, -, -, -, -, -, d1⟩ := idx9 t
  show win9_3.index t (1 : Fin 2) * 128 + 1 * q.val = q.val
  omega

/-- The input's block t holds, entry by entry, what the input array holds where the output's block t lies. -/
theorem zblk9 (t : Fin cfg9.N) (p : Fin 8192) (q : Fin 128) :
    iblk9 V c 0 t (ix2 p q) = V c (Pipeline.arrRef spec9 0) (((cfg9.win 3).blk t).view.emb (ix2 p q)) := by
  obtain ⟨a0, a1, -, -, -, -, d0, d1⟩ := idx9 t
  show V c (Pipeline.arrRef spec9 0) (((cfg9.win 0).blk t).view.emb (ix2 p q))
    = V c (Pipeline.arrRef spec9 0) (((cfg9.win 3).blk t).view.emb (ix2 p q))
  refine congrArg _ (funext fun a => Fin.ext ?_)
  match a with
  | ⟨0, _⟩ => show win9_0.index t (0 : Fin 2) * 8192 + 1 * p.val = win9_3.index t (0 : Fin 2) * 8192 + 1 * p.val; omega
  | ⟨1, _⟩ => show win9_0.index t (1 : Fin 2) * 128 + 1 * q.val = win9_3.index t (1 : Fin 2) * 128 + 1 * q.val; omega

/-- The scale window's block is, at every point, the one row the scale vector was reshaped to. -/
theorem scblk9 (sc : FVec Ideal S128 .f32)
    (h1 : V c (Pipeline.arrRef spec9 1) = shapeCast S1x128 sc shapeCasts_S128_S1x128) (t : Fin cfg9.N) (q : Fin 128) :
    iblk9 V c 1 t (ix2 (0 : Fin 1) q) = sc (ix1 q) := by
  obtain ⟨-, -, b0, b1, -, -, -, -⟩ := idx9 t
  show V c (Pipeline.arrRef spec9 1) (((cfg9.win 1).blk t).view.emb (ix2 (0 : Fin 1) q)) = sc (ix1 q)
  refine (congrFun h1 _).trans ((congrArg _ (funext fun a => Fin.ext ?_)).trans
    (Cert.Lib.Layout.rowCast_apply sc shapeCasts_S128_S1x128 0 q))
  match a with
  | ⟨0, _⟩ => show win9_1.index t (0 : Fin 2) * 1 + 1 * 0 = 0; omega
  | ⟨1, _⟩ => show win9_1.index t (1 : Fin 2) * 128 + 1 * q.val = q.val; omega

/-- The shift window's block likewise. -/
theorem shblk9 (sh : FVec Ideal S128 .f32)
    (h2 : V c (Pipeline.arrRef spec9 2) = shapeCast S1x128 sh shapeCasts_S128_S1x128) (t : Fin cfg9.N) (q : Fin 128) :
    iblk9 V c 2 t (ix2 (0 : Fin 1) q) = sh (ix1 q) := by
  obtain ⟨-, -, -, -, c0, c1, -, -⟩ := idx9 t
  show V c (Pipeline.arrRef spec9 2) (((cfg9.win 2).blk t).view.emb (ix2 (0 : Fin 1) q)) = sh (ix1 q)
  refine (congrFun h2 _).trans ((congrArg _ (funext fun a => Fin.ext ?_)).trans
    (Cert.Lib.Layout.rowCast_apply sh shapeCasts_S128_S1x128 0 q))
  match a with
  | ⟨0, _⟩ => show win9_2.index t (0 : Fin 2) * 1 + 1 * 0 = 0; omega
  | ⟨1, _⟩ => show win9_2.index t (1 : Fin 2) * 128 + 1 * q.val = q.val; omega

/-- What point t writes back is block t of the specification's array. -/
theorem flushed9_eq (sc sh : FVec Ideal S128 .f32)
    (h1 : V c (Pipeline.arrRef spec9 1) = shapeCast S1x128 sc shapeCasts_S128_S1x128)
    (h2 : V c (Pipeline.arrRef spec9 2) = shapeCast S1x128 sh shapeCasts_S128_S1x128) (t : Fin cfg9.N) :
    (dat9 V c).flushed 3 t = ((cfg9.win 3).blk t).view.read (Elt Ideal)
      (Cert.Spec.affRelu (F := Ideal) (V c (Pipeline.arrRef spec9 0)) sc sh) := by
  show (cfg9.win 3).cut (grid9.coords t) ((dat9 V c).after 3 t) = _
  rw [after9_3]
  unfold out9_3
  rw [View.canon_unit_zero hz]
  simp only [View.ld_unit_zero (S := S8192x128) hz, View.ld_unit_zero (S := S1x128) hz]
  funext j
  obtain ⟨p, q, rfl⟩ : ∃ (p : Fin 8192) (q : Fin 128), j = ix2 p q := ⟨j 0, j 1, eq_ix2 j⟩
  refine (congrFun (pay9_eq (iblk9 V c 0 t) (iblk9 V c 1 t) (iblk9 V c 2 t)) (ix2 p q)).trans ?_
  exact pay_eq_affRelu (iblk9 V c 0 t) (iblk9 V c 1 t) (iblk9 V c 2 t) (V c (Pipeline.arrRef spec9 0)) sc sh p q
    (((cfg9.win 3).blk t).view.emb (ix2 p q)) (col9 t p q) (zblk9 V c t p q) (scblk9 V c sc h1 t q) (shblk9 V c sh h2 t q)

end

/-- An entry of the output array is in point t's block iff each coordinate is in the block's range on its axis. -/
theorem mem_blk9 (t : Fin cfg9.N) (i : S65536x128.Idx) :
    i ∈ ((cfg9.win 3).blk t).view.set ↔ ∀ a : Fin 2, win9_3.index t a * S8192x128.size a ≤ (i a).val
      ∧ (i a).val < win9_3.index t a * S8192x128.size a + S8192x128.size a := by
  show i ∈ ((View.whole main_v96).slice (win9_3.rect t)).set ↔ _
  rw [View.set_slice_whole, Rect.mem_set_unit]
  exact Iff.rfl

/-- Row r of the output lies in the block of point r / 8192: the eight blocks tile the array. -/
theorem cover9 (i : S65536x128.Idx) :
    ∃ t : Fin cfg9.N, (cfg9.win 3).flush t = true ∧ i ∈ ((cfg9.win 3).blk t).view.set := by
  have hi0 : (i 0).val < 65536 := (i 0).isLt
  have hi1 : (i 1).val < 128 := (i 1).isLt
  obtain ⟨t, ht⟩ : ∃ t : Fin cfg9.N, t.val = (i 0).val / 8192 := ⟨⟨(i 0).val / 8192, by rw [show cfg9.N = 8 from N_9]; omega⟩, rfl⟩
  obtain ⟨-, -, -, -, -, -, d0, d1⟩ := idx9 t
  refine ⟨t, flush9_3 t, ?_⟩
  rw [mem_blk9]
  intro a
  match a with
  | ⟨0, _⟩ => show win9_3.index t (0 : Fin 2) * 8192 ≤ (i 0).val ∧ (i 0).val < win9_3.index t (0 : Fin 2) * 8192 + 8192; omega
  | ⟨1, _⟩ => show win9_3.index t (1 : Fin 2) * 128 ≤ (i 1).val ∧ (i 1).val < win9_3.index t (1 : Fin 2) * 128 + 128; omega

/-- The output array of launch 9, after its eight write-backs, is the input scaled, shifted and clipped. -/
theorem arr9 (V : (c : Dev nD) → (b : Ref sig .tc) → Buf (Elt Ideal) ((c : Thread nD τ).loc b)) (c : Dev nD)
    (sc sh : FVec Ideal S128 .f32)
    (h1 : V c (Pipeline.arrRef spec9 1) = shapeCast S1x128 sc shapeCasts_S128_S1x128)
    (h2 : V c (Pipeline.arrRef spec9 2) = shapeCast S1x128 sh shapeCasts_S128_S1x128) :
    (dat9 V c).arrAt 3 cfg9.N = Cert.Spec.affRelu (F := Ideal) (V c (Pipeline.arrRef spec9 0)) sc sh :=
  (dat9 V c).arrAt_eq_of_cover 3 (Cert.Spec.affRelu (F := Ideal) (V c (Pipeline.arrRef spec9 0)) sc sh)
    (fun t _ => flushed9_eq V c sc sh h1 h2 t) cover9

end Cert.KernelIdeal.KBn

end
-- ==== Proof.WalkF2.lean ====
import proofs.«426861_j66571993088626_2_alg».proof.Proof.Gen.KernelIdeal.Frame
import proofs.«426861_j66571993088626_2_alg».proof.Proof.Spec
import proofs.«426861_j66571993088626_2_alg».proof.Proof.Basic
import proofs.«426861_j66571993088626_2_alg».proof.Proof.Keep
import proofs.«426861_j66571993088626_2_alg».proof.Proof.KMlp
import proofs.«426861_j66571993088626_2_alg».proof.Proof.KMlpSib
import proofs.«426861_j66571993088626_2_alg».proof.Proof.KBnSib
import proofs.«426861_j66571993088626_2_alg».proof.Proof.BnLaw
import proofs.«426861_j66571993088626_2_alg».proof.Proof.WalkF1
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StableHlo.Predicate

noncomputable section

namespace Cert.KernelIdeal.Walk

open Cert.KernelIdeal Cert.KernelIdeal.Gen Cert.Basic
open Idealize.ShloMosaic Idealize.ShloMosaic.TcCoe Idealize.ShloMosaic.ValueIdx

set_option maxHeartbeats 2000000 in

theorem take_f2 (V : Valuation τ sig (Elt Ideal)) :
    StableHlo.after hostOps4 V (Proc.devRef .tc main_v31)
      = takeK (V (Proc.devRef .tc main_v30)) (V (Proc.devRef .tc main_v1)) := by
  after_results_simp
  all_goals (try simp only [StableHlo.TRef.ofBuf, StableHlo.TRef.toBuf, cast_eq])
  all_goals rfl

theorem add_f2 (V : Valuation τ sig (Elt Ideal)) :
    StableHlo.after hostOps4_1 V (Proc.devRef .tc main_v32)
      = (addf (F := Ideal) (V (Proc.devRef .tc main_v31)) (V (Proc.devRef .tc main_v8)) : FVec Ideal S524288x128 .f32) := by
  after_results_simp

theorem relu_f2 (V : Valuation τ sig (Elt Ideal)) :
    StableHlo.after hostOps4_2 V (Proc.devRef .tc main_v33)
      = Cert.Spec.reluE (F := Ideal) (V (Proc.devRef .tc main_v32)) := by
  after_results_simp
  all_goals (try simp only [StableHlo.TRef.ofBuf, StableHlo.TRef.toBuf, cast_eq])
  all_goals rfl

theorem agg_f2 (V : Valuation τ sig (Elt Ideal)) :
    StableHlo.after hostOps4_3 V (Proc.devRef .tc main_v36)
      = aggK (V (Proc.devRef .tc main_v3)) (V (Proc.devRef .tc main_v33)) := by
  after_results_simp
  all_goals rfl

theorem rowb1_f2 (V : Valuation τ sig (Elt Ideal)) :
    StableHlo.after hostOps4_3 V (Proc.devRef .tc main_v37)
      = shapeCast S1x128 (V (Proc.devRef .tc main_arg13) : FVec Ideal S128 .f32) shapeCasts_S128_S1x128 := by
  after_results_simp
  all_goals rfl

theorem rowb2_f2 (V : Valuation τ sig (Elt Ideal)) :
    StableHlo.after hostOps4_3 V (Proc.devRef .tc main_v38)
      = shapeCast S1x128 (V (Proc.devRef .tc main_arg15) : FVec Ideal S128 .f32) shapeCasts_S128_S1x128 := by
  after_results_simp
  all_goals rfl

theorem mean_f2 (V : Valuation τ sig (Elt Ideal)) :
    StableHlo.after hostOps5 V (Proc.devRef .tc main_v42)
      = Cert.Spec.mean (F := Ideal) (V (Proc.devRef .tc main_v39)) := by
  after_results_simp
  all_goals rfl

theorem zero_f2 (V : Valuation τ sig (Elt Ideal)) :
    StableHlo.after hostOps5 V (Proc.devRef .tc main_c_6) = constantI S_ 32 0#32 := by
  after_results_simp

set_option maxHeartbeats 2000000 in

theorem var_f2 (V : Valuation τ sig (Elt Ideal)) :
    StableHlo.after hostOps5_1 V (Proc.devRef .tc main_v43)
      = Cert.Spec.var (F := Ideal) (V (Proc.devRef .tc main_v39)) (V (Proc.devRef .tc main_c_6)) := by
  after_results_simp
  all_goals (try simp only [StableHlo.TRef.ofBuf, StableHlo.TRef.toBuf, cast_eq])
  all_goals rfl

theorem rowsc_f2 (V : Valuation τ sig (Elt Ideal)) :
    StableHlo.after hostOps5_2 V (Proc.devRef .tc main_v50)
      = shapeCast S1x128 (scaleK (V (Proc.devRef .tc main_arg26)) (V (Proc.devRef .tc main_v43))) shapeCasts_S128_S1x128 := by
  after_results_simp
  all_goals rfl

theorem rowsh_f2 (V : Valuation τ sig (Elt Ideal)) :
    StableHlo.after hostOps5_2 V (Proc.devRef .tc main_v51)
      = shapeCast S1x128 (subf (V (Proc.devRef .tc main_arg27) : FVec Ideal S128 .f32)
          (mulf (V (Proc.devRef .tc main_v42)) (scaleK (V (Proc.devRef .tc main_arg26)) (V (Proc.devRef .tc main_v43)))))
          shapeCasts_S128_S1x128 := by
  after_results_simp
  all_goals rfl

section Layer

variable (m : (ℓ : Loc nD τ sig) → Buf (Elt Ideal) ℓ) (ρ : Dev nD → PrngReg) (c : Dev nD)

set_option quotPrecheck false

local notation "Hin" => (W13 m ρ c (Proc.devRef .tc main_v30) : FVec Ideal S65536x128 .f32)
local notation "Ein" => (W4 m ρ c (Proc.devRef .tc main_v8) : FVec Ideal S524288x128 .f32)
local notation "Sin" => (W4 m ρ c (Proc.devRef .tc main_v1) : IVec S524288 32)
local notation "Din" => (W4 m ρ c (Proc.devRef .tc main_v3) : IVec S524288 32)

local notation "Pw1" => (m ((c : Thread nD τ).loc main_arg12) : FVec Ideal S128x128 .f32)
local notation "Pb1" => (m ((c : Thread nD τ).loc main_arg13) : FVec Ideal S128 .f32)
local notation "Pw2" => (m ((c : Thread nD τ).loc main_arg14) : FVec Ideal S128x128 .f32)
local notation "Pb2" => (m ((c : Thread nD τ).loc main_arg15) : FVec Ideal S128 .f32)
local notation "Pg" => (m ((c : Thread nD τ).loc main_arg26) : FVec Ideal S128 .f32)
local notation "Pb" => (m ((c : Thread nD τ).loc main_arg27) : FVec Ideal S128 .f32)

local notation "Zmid" => Cert.Spec.mlp (F := Ideal) Hin (Cert.Spec.agg (F := Ideal) Hin Ein Sin Din) Pw1 Pb1 Pw2 Pb2

set_option maxHeartbeats 1000000 in

theorem mid_f2 (hs : Below 65536 Sin) : W18 m ρ c (Proc.devRef .tc main_v39) = Zmid := by

  have hH0 : W13 m ρ c (Proc.devRef .tc main_v30) = Hin := rfl
  have hS0 : W13 m ρ c (Proc.devRef .tc main_v1) = Sin := Keep.s4_13 m ρ c main_v1 (by decide)
  have hE1 : W14 m ρ c (Proc.devRef .tc main_v8) = Ein := Keep.s4_14 m ρ c main_v8 (by decide)
  have hD3 : W16 m ρ c (Proc.devRef .tc main_v3) = Din := Keep.s4_16 m ρ c main_v3 (by decide)
  have hH4 : W17 m ρ c (Proc.devRef .tc main_v30) = Hin :=
    (Keep.s13_17 m ρ c main_v30 (by decide)).trans hH0

  have e9 : W14 m ρ c (Proc.devRef .tc main_v31) = Cert.Spec.rowsAt (F := Ideal) Hin Sin := by
    refine (take_f2 (W13 m ρ c)).trans ?_
    rw [hH0, hS0]
    exact takeK_eq _ _ hs
  have e10 : W15 m ρ c (Proc.devRef .tc main_v32) = addf (Cert.Spec.rowsAt (F := Ideal) Hin Sin) Ein := by
    refine (add_f2 (W14 m ρ c)).trans ?_
    rw [e9, hE1]
  have e11 : W16 m ρ c (Proc.devRef .tc main_v33) = Cert.Spec.msg (F := Ideal) Hin Ein Sin := by
    refine (relu_f2 (W15 m ρ c)).trans ?_
    rw [e10]
    exact msg_eq _ _ _
  have e14 : W17 m ρ c (Proc.devRef .tc main_v36) = Cert.Spec.agg (F := Ideal) Hin Ein Sin Din := by
    refine (agg_f2 (W16 m ρ c)).trans ?_
    rw [e11, hD3]
    exact aggK_eq _ _ _ _

  have e15 : W17 m ρ c (Proc.devRef .tc main_v37) = shapeCast S1x128 Pb1 shapeCasts_S128_S1x128 := by
    refine (rowb1_f2 (W16 m ρ c)).trans ?_
    rw [show W16 m ρ c (Proc.devRef .tc main_arg13) = Pb1 from Keep.s0_16 m ρ c main_arg13 (by decide)]
  have e16 : W17 m ρ c (Proc.devRef .tc main_v38) = shapeCast S1x128 Pb2 shapeCasts_S128_S1x128 := by
    refine (rowb2_f2 (W16 m ρ c)).trans ?_
    rw [show W16 m ρ c (Proc.devRef .tc main_arg15) = Pb2 from Keep.s0_16 m ρ c main_arg15 (by decide)]

  refine (W18_arr m ρ c 6).trans ((KMlp.arr4 (V17 m ρ) c Pb1 Pb2 e15 e16).trans ?_)
  rw [show V17 m ρ c (Pipeline.arrRef spec4 0) = Hin from hH4,
    show V17 m ρ c (Pipeline.arrRef spec4 1) = Cert.Spec.agg (F := Ideal) Hin Ein Sin Din from e14,
    show V17 m ρ c (Pipeline.arrRef spec4 2) = Pw1 from Keep.s0_17 m ρ c main_arg12 (by decide),
    show V17 m ρ c (Pipeline.arrRef spec4 4) = Pw2 from Keep.s0_17 m ρ c main_arg14 (by decide)]

set_option maxHeartbeats 1000000 in

theorem layer_f2 (hs : Below 65536 Sin) (hz : Cert.Basic.Real Zmid) (hg : Cert.Basic.Real Pg) (hb : Cert.Basic.Real Pb) :
    W22 m ρ c (Proc.devRef .tc main_v52) = Cert.Spec.layer (F := Ideal) Hin Ein Sin Din Pw1 Pb1 Pw2 Pb2 Pg Pb := by
  have e17 : W18 m ρ c (Proc.devRef .tc main_v39) = Zmid := mid_f2 m ρ c hs

  have k10 : W19 m ρ c (Proc.devRef .tc main_v39) = Zmid := (Keep.s18_19 m ρ c main_v39 (by decide)).trans e17
  have e20 : W19 m ρ c (Proc.devRef .tc main_v42) = Cert.Spec.mean (F := Ideal) Zmid := by
    refine (mean_f2 (W18 m ρ c)).trans ?_
    rw [e17]
  have ec : W19 m ρ c (Proc.devRef .tc main_c_6) = constantI S_ 32 0#32 := zero_f2 (W18 m ρ c)
  have e21 : W20 m ρ c (Proc.devRef .tc main_v43) = Cert.Spec.var (F := Ideal) Zmid (constantI S_ 32 0#32) := by
    refine (var_f2 (W19 m ρ c)).trans ?_
    rw [k10, ec]
  have k20 : W20 m ρ c (Proc.devRef .tc main_v42) = Cert.Spec.mean (F := Ideal) Zmid :=
    (Keep.s19_20 m ρ c main_v42 (by decide)).trans e20
  have k17 : W21 m ρ c (Proc.devRef .tc main_v39) = Zmid :=
    (Keep.s19_21 m ρ c main_v39 (by decide)).trans k10

  have e28 : W21 m ρ c (Proc.devRef .tc main_v50)
      = shapeCast S1x128 (mulf Pg (Cert.Spec.rstd (F := Ideal) Zmid)) shapeCasts_S128_S1x128 := by
    refine (rowsc_f2 (W20 m ρ c)).trans ?_
    rw [show W20 m ρ c (Proc.devRef .tc main_arg26) = Pg from Keep.s0_20 m ρ c main_arg26 (by decide), e21, scaleK_eq]
  have e29 : W21 m ρ c (Proc.devRef .tc main_v51)
      = shapeCast S1x128 (subf Pb (mulf (Cert.Spec.mean (F := Ideal) Zmid) (mulf Pg (Cert.Spec.rstd (F := Ideal) Zmid))))
          shapeCasts_S128_S1x128 := by
    refine (rowsh_f2 (W20 m ρ c)).trans ?_
    rw [show W20 m ρ c (Proc.devRef .tc main_arg27) = Pb from Keep.s0_20 m ρ c main_arg27 (by decide), show W20 m ρ c (Proc.devRef .tc main_arg26) = Pg from Keep.s0_20 m ρ c main_arg26 (by decide), k20, e21, scaleK_eq]

  refine (W22_arr m ρ c 3).trans ((KBn.arr5 (V21 m ρ) c _ _ e28 e29).trans ?_)
  rw [show V21 m ρ c (Pipeline.arrRef spec5 0) = Zmid from k17]
  exact Cert.BnLaw.affRelu_eq_bn hz hg hb

end Layer

end Cert.KernelIdeal.Walk

end
-- ==== Proof.WalkB1.lean ====
import proofs.«426861_j66571993088626_2_alg».proof.Proof.Gen.KernelIdeal.Frame
import proofs.«426861_j66571993088626_2_alg».proof.Proof.Spec
import proofs.«426861_j66571993088626_2_alg».proof.Proof.Basic
import proofs.«426861_j66571993088626_2_alg».proof.Proof.Keep
import proofs.«426861_j66571993088626_2_alg».proof.Proof.KMlp
import proofs.«426861_j66571993088626_2_alg».proof.Proof.KMlpSib
import proofs.«426861_j66571993088626_2_alg».proof.Proof.KBnSib
import proofs.«426861_j66571993088626_2_alg».proof.Proof.BnLaw
import proofs.«426861_j66571993088626_2_alg».proof.Proof.WalkF1
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StableHlo.Predicate

noncomputable section

namespace Cert.KernelIdeal.Walk

open Cert.KernelIdeal Cert.KernelIdeal.Gen Cert.Basic
open Idealize.ShloMosaic Idealize.ShloMosaic.TcCoe Idealize.ShloMosaic.ValueIdx

set_option maxHeartbeats 2000000 in

theorem take_b1 (V : Valuation τ sig (Elt Ideal)) :
    StableHlo.after hostOps6 V (Proc.devRef .tc main_v53)
      = takeK (V (Proc.devRef .tc main_v6)) (V (Proc.devRef .tc main_v3)) := by
  after_results_simp
  all_goals (try simp only [StableHlo.TRef.ofBuf, StableHlo.TRef.toBuf, cast_eq])
  all_goals rfl

theorem add_b1 (V : Valuation τ sig (Elt Ideal)) :
    StableHlo.after hostOps6_1 V (Proc.devRef .tc main_v54)
      = (addf (F := Ideal) (V (Proc.devRef .tc main_v53)) (V (Proc.devRef .tc main_v8)) : FVec Ideal S524288x128 .f32) := by
  after_results_simp

theorem relu_b1 (V : Valuation τ sig (Elt Ideal)) :
    StableHlo.after hostOps6_2 V (Proc.devRef .tc main_v55)
      = Cert.Spec.reluE (F := Ideal) (V (Proc.devRef .tc main_v54)) := by
  after_results_simp
  all_goals (try simp only [StableHlo.TRef.ofBuf, StableHlo.TRef.toBuf, cast_eq])
  all_goals rfl

theorem agg_b1 (V : Valuation τ sig (Elt Ideal)) :
    StableHlo.after hostOps6_3 V (Proc.devRef .tc main_v58)
      = aggK (V (Proc.devRef .tc main_v1)) (V (Proc.devRef .tc main_v55)) := by
  after_results_simp
  all_goals rfl

theorem rowb1_b1 (V : Valuation τ sig (Elt Ideal)) :
    StableHlo.after hostOps6_3 V (Proc.devRef .tc main_v59)
      = shapeCast S1x128 (V (Proc.devRef .tc main_arg17) : FVec Ideal S128 .f32) shapeCasts_S128_S1x128 := by
  after_results_simp
  all_goals rfl

theorem rowb2_b1 (V : Valuation τ sig (Elt Ideal)) :
    StableHlo.after hostOps6_3 V (Proc.devRef .tc main_v60)
      = shapeCast S1x128 (V (Proc.devRef .tc main_arg19) : FVec Ideal S128 .f32) shapeCasts_S128_S1x128 := by
  after_results_simp
  all_goals rfl

theorem mean_b1 (V : Valuation τ sig (Elt Ideal)) :
    StableHlo.after hostOps7 V (Proc.devRef .tc main_v64)
      = Cert.Spec.mean (F := Ideal) (V (Proc.devRef .tc main_v61)) := by
  after_results_simp
  all_goals rfl

theorem zero_b1 (V : Valuation τ sig (Elt Ideal)) :
    StableHlo.after hostOps7 V (Proc.devRef .tc main_c_11) = constantI S_ 32 0#32 := by
  after_results_simp

set_option maxHeartbeats 2000000 in

theorem var_b1 (V : Valuation τ sig (Elt Ideal)) :
    StableHlo.after hostOps7_1 V (Proc.devRef .tc main_v65)
      = Cert.Spec.var (F := Ideal) (V (Proc.devRef .tc main_v61)) (V (Proc.devRef .tc main_c_11)) := by
  after_results_simp
  all_goals (try simp only [StableHlo.TRef.ofBuf, StableHlo.TRef.toBuf, cast_eq])
  all_goals rfl

theorem rowsc_b1 (V : Valuation τ sig (Elt Ideal)) :
    StableHlo.after hostOps7_2 V (Proc.devRef .tc main_v72)
      = shapeCast S1x128 (scaleK (V (Proc.devRef .tc main_arg28)) (V (Proc.devRef .tc main_v65))) shapeCasts_S128_S1x128 := by
  after_results_simp
  all_goals rfl

theorem rowsh_b1 (V : Valuation τ sig (Elt Ideal)) :
    StableHlo.after hostOps7_2 V (Proc.devRef .tc main_v73)
      = shapeCast S1x128 (subf (V (Proc.devRef .tc main_arg29) : FVec Ideal S128 .f32)
          (mulf (V (Proc.devRef .tc main_v64)) (scaleK (V (Proc.devRef .tc main_arg28)) (V (Proc.devRef .tc main_v65)))))
          shapeCasts_S128_S1x128 := by
  after_results_simp
  all_goals rfl

section Layer

variable (m : (ℓ : Loc nD τ sig) → Buf (Elt Ideal) ℓ) (ρ : Dev nD → PrngReg) (c : Dev nD)

set_option quotPrecheck false

local notation "Hin" => (W4 m ρ c (Proc.devRef .tc main_v6) : FVec Ideal S65536x128 .f32)
local notation "Ein" => (W4 m ρ c (Proc.devRef .tc main_v8) : FVec Ideal S524288x128 .f32)
local notation "Sin" => (W4 m ρ c (Proc.devRef .tc main_v3) : IVec S524288 32)
local notation "Din" => (W4 m ρ c (Proc.devRef .tc main_v1) : IVec S524288 32)

local notation "Pw1" => (m ((c : Thread nD τ).loc main_arg16) : FVec Ideal S128x128 .f32)
local notation "Pb1" => (m ((c : Thread nD τ).loc main_arg17) : FVec Ideal S128 .f32)
local notation "Pw2" => (m ((c : Thread nD τ).loc main_arg18) : FVec Ideal S128x128 .f32)
local notation "Pb2" => (m ((c : Thread nD τ).loc main_arg19) : FVec Ideal S128 .f32)
local notation "Pg" => (m ((c : Thread nD τ).loc main_arg28) : FVec Ideal S128 .f32)
local notation "Pb" => (m ((c : Thread nD τ).loc main_arg29) : FVec Ideal S128 .f32)

local notation "Zmid" => Cert.Spec.mlp (F := Ideal) Hin (Cert.Spec.agg (F := Ideal) Hin Ein Sin Din) Pw1 Pb1 Pw2 Pb2

set_option maxHeartbeats 1000000 in

theorem mid_b1 (hs : Below 65536 Sin) : W27 m ρ c (Proc.devRef .tc main_v61) = Zmid := by

  have hH0 : W22 m ρ c (Proc.devRef .tc main_v6) = Hin := Keep.s4_22 m ρ c main_v6 (by decide)
  have hS0 : W22 m ρ c (Proc.devRef .tc main_v3) = Sin := Keep.s4_22 m ρ c main_v3 (by decide)
  have hE1 : W23 m ρ c (Proc.devRef .tc main_v8) = Ein := Keep.s4_23 m ρ c main_v8 (by decide)
  have hD3 : W25 m ρ c (Proc.devRef .tc main_v1) = Din := Keep.s4_25 m ρ c main_v1 (by decide)
  have hH4 : W26 m ρ c (Proc.devRef .tc main_v6) = Hin :=
    Keep.s4_26 m ρ c main_v6 (by decide)

  have e9 : W23 m ρ c (Proc.devRef .tc main_v53) = Cert.Spec.rowsAt (F := Ideal) Hin Sin := by
    refine (take_b1 (W22 m ρ c)).trans ?_
    rw [hH0, hS0]
    exact takeK_eq _ _ hs
  have e10 : W24 m ρ c (Proc.devRef .tc main_v54) = addf (Cert.Spec.rowsAt (F := Ideal) Hin Sin) Ein := by
    refine (add_b1 (W23 m ρ c)).trans ?_
    rw [e9, hE1]
  have e11 : W25 m ρ c (Proc.devRef .tc main_v55) = Cert.Spec.msg (F := Ideal) Hin Ein Sin := by
    refine (relu_b1 (W24 m ρ c)).trans ?_
    rw [e10]
    exact msg_eq _ _ _
  have e14 : W26 m ρ c (Proc.devRef .tc main_v58) = Cert.Spec.agg (F := Ideal) Hin Ein Sin Din := by
    refine (agg_b1 (W25 m ρ c)).trans ?_
    rw [e11, hD3]
    exact aggK_eq _ _ _ _

  have e15 : W26 m ρ c (Proc.devRef .tc main_v59) = shapeCast S1x128 Pb1 shapeCasts_S128_S1x128 := by
    refine (rowb1_b1 (W25 m ρ c)).trans ?_
    rw [show W25 m ρ c (Proc.devRef .tc main_arg17) = Pb1 from Keep.s0_25 m ρ c main_arg17 (by decide)]
  have e16 : W26 m ρ c (Proc.devRef .tc main_v60) = shapeCast S1x128 Pb2 shapeCasts_S128_S1x128 := by
    refine (rowb2_b1 (W25 m ρ c)).trans ?_
    rw [show W25 m ρ c (Proc.devRef .tc main_arg19) = Pb2 from Keep.s0_25 m ρ c main_arg19 (by decide)]

  refine (W27_arr m ρ c 6).trans ((KMlp.arr6 (V26 m ρ) c Pb1 Pb2 e15 e16).trans ?_)
  rw [show V26 m ρ c (Pipeline.arrRef spec6 0) = Hin from hH4,
    show V26 m ρ c (Pipeline.arrRef spec6 1) = Cert.Spec.agg (F := Ideal) Hin Ein Sin Din from e14,
    show V26 m ρ c (Pipeline.arrRef spec6 2) = Pw1 from Keep.s0_26 m ρ c main_arg16 (by decide),
    show V26 m ρ c (Pipeline.arrRef spec6 4) = Pw2 from Keep.s0_26 m ρ c main_arg18 (by decide)]

set_option maxHeartbeats 1000000 in

theorem layer_b1 (hs : Below 65536 Sin) (hz : Cert.Basic.Real Zmid) (hg : Cert.Basic.Real Pg) (hb : Cert.Basic.Real Pb) :
    W31 m ρ c (Proc.devRef .tc main_v74) = Cert.Spec.layer (F := Ideal) Hin Ein Sin Din Pw1 Pb1 Pw2 Pb2 Pg Pb := by
  have e17 : W27 m ρ c (Proc.devRef .tc main_v61) = Zmid := mid_b1 m ρ c hs

  have k10 : W28 m ρ c (Proc.devRef .tc main_v61) = Zmid := (Keep.s27_28 m ρ c main_v61 (by decide)).trans e17
  have e20 : W28 m ρ c (Proc.devRef .tc main_v64) = Cert.Spec.mean (F := Ideal) Zmid := by
    refine (mean_b1 (W27 m ρ c)).trans ?_
    rw [e17]
  have ec : W28 m ρ c (Proc.devRef .tc main_c_11) = constantI S_ 32 0#32 := zero_b1 (W27 m ρ c)
  have e21 : W29 m ρ c (Proc.devRef .tc main_v65) = Cert.Spec.var (F := Ideal) Zmid (constantI S_ 32 0#32) := by
    refine (var_b1 (W28 m ρ c)).trans ?_
    rw [k10, ec]
  have k20 : W29 m ρ c (Proc.devRef .tc main_v64) = Cert.Spec.mean (F := Ideal) Zmid :=
    (Keep.s28_29 m ρ c main_v64 (by decide)).trans e20
  have k17 : W30 m ρ c (Proc.devRef .tc main_v61) = Zmid :=
    (Keep.s28_30 m ρ c main_v61 (by decide)).trans k10

  have e28 : W30 m ρ c (Proc.devRef .tc main_v72)
      = shapeCast S1x128 (mulf Pg (Cert.Spec.rstd (F := Ideal) Zmid)) shapeCasts_S128_S1x128 := by
    refine (rowsc_b1 (W29 m ρ c)).trans ?_
    rw [show W29 m ρ c (Proc.devRef .tc main_arg28) = Pg from Keep.s0_29 m ρ c main_arg28 (by decide), e21, scaleK_eq]
  have e29 : W30 m ρ c (Proc.devRef .tc main_v73)
      = shapeCast S1x128 (subf Pb (mulf (Cert.Spec.mean (F := Ideal) Zmid) (mulf Pg (Cert.Spec.rstd (F := Ideal) Zmid))))
          shapeCasts_S128_S1x128 := by
    refine (rowsh_b1 (W29 m ρ c)).trans ?_
    rw [show W29 m ρ c (Proc.devRef .tc main_arg29) = Pb from Keep.s0_29 m ρ c main_arg29 (by decide), show W29 m ρ c (Proc.devRef .tc main_arg28) = Pg from Keep.s0_29 m ρ c main_arg28 (by decide), k20, e21, scaleK_eq]

  refine (W31_arr m ρ c 3).trans ((KBn.arr7 (V30 m ρ) c _ _ e28 e29).trans ?_)
  rw [show V30 m ρ c (Pipeline.arrRef spec7 0) = Zmid from k17]
  exact Cert.BnLaw.affRelu_eq_bn hz hg hb

end Layer

end Cert.KernelIdeal.Walk

end
-- ==== Proof.WalkB2.lean ====
import proofs.«426861_j66571993088626_2_alg».proof.Proof.Gen.KernelIdeal.Frame
import proofs.«426861_j66571993088626_2_alg».proof.Proof.Spec
import proofs.«426861_j66571993088626_2_alg».proof.Proof.Basic
import proofs.«426861_j66571993088626_2_alg».proof.Proof.Keep
import proofs.«426861_j66571993088626_2_alg».proof.Proof.KMlp
import proofs.«426861_j66571993088626_2_alg».proof.Proof.KMlpSib
import proofs.«426861_j66571993088626_2_alg».proof.Proof.KBnSib
import proofs.«426861_j66571993088626_2_alg».proof.Proof.BnLaw
import proofs.«426861_j66571993088626_2_alg».proof.Proof.WalkF1
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StableHlo.Predicate

noncomputable section

namespace Cert.KernelIdeal.Walk

open Cert.KernelIdeal Cert.KernelIdeal.Gen Cert.Basic
open Idealize.ShloMosaic Idealize.ShloMosaic.TcCoe Idealize.ShloMosaic.ValueIdx

set_option maxHeartbeats 2000000 in

theorem take_b2 (V : Valuation τ sig (Elt Ideal)) :
    StableHlo.after hostOps8 V (Proc.devRef .tc main_v75)
      = takeK (V (Proc.devRef .tc main_v74)) (V (Proc.devRef .tc main_v3)) := by
  after_results_simp
  all_goals (try simp only [StableHlo.TRef.ofBuf, StableHlo.TRef.toBuf, cast_eq])
  all_goals rfl

theorem add_b2 (V : Valuation τ sig (Elt Ideal)) :
    StableHlo.after hostOps8_1 V (Proc.devRef .tc main_v76)
      = (addf (F := Ideal) (V (Proc.devRef .tc main_v75)) (V (Proc.devRef .tc main_v8)) : FVec Ideal S524288x128 .f32) := by
  after_results_simp

theorem relu_b2 (V : Valuation τ sig (Elt Ideal)) :
    StableHlo.after hostOps8_2 V (Proc.devRef .tc main_v77)
      = Cert.Spec.reluE (F := Ideal) (V (Proc.devRef .tc main_v76)) := by
  after_results_simp
  all_goals (try simp only [StableHlo.TRef.ofBuf, StableHlo.TRef.toBuf, cast_eq])
  all_goals rfl

theorem agg_b2 (V : Valuation τ sig (Elt Ideal)) :
    StableHlo.after hostOps8_3 V (Proc.devRef .tc main_v80)
      = aggK (V (Proc.devRef .tc main_v1)) (V (Proc.devRef .tc main_v77)) := by
  after_results_simp
  all_goals rfl

theorem rowb1_b2 (V : Valuation τ sig (Elt Ideal)) :
    StableHlo.after hostOps8_3 V (Proc.devRef .tc main_v81)
      = shapeCast S1x128 (V (Proc.devRef .tc main_arg21) : FVec Ideal S128 .f32) shapeCasts_S128_S1x128 := by
  after_results_simp
  all_goals rfl

theorem rowb2_b2 (V : Valuation τ sig (Elt Ideal)) :
    StableHlo.after hostOps8_3 V (Proc.devRef .tc main_v82)
      = shapeCast S1x128 (V (Proc.devRef .tc main_arg23) : FVec Ideal S128 .f32) shapeCasts_S128_S1x128 := by
  after_results_simp
  all_goals rfl

theorem mean_b2 (V : Valuation τ sig (Elt Ideal)) :
    StableHlo.after hostOps9 V (Proc.devRef .tc main_v86)
      = Cert.Spec.mean (F := Ideal) (V (Proc.devRef .tc main_v83)) := by
  after_results_simp
  all_goals rfl

theorem zero_b2 (V : Valuation τ sig (Elt Ideal)) :
    StableHlo.after hostOps9 V (Proc.devRef .tc main_c_16) = constantI S_ 32 0#32 := by
  after_results_simp

set_option maxHeartbeats 2000000 in

theorem var_b2 (V : Valuation τ sig (Elt Ideal)) :
    StableHlo.after hostOps9_1 V (Proc.devRef .tc main_v87)
      = Cert.Spec.var (F := Ideal) (V (Proc.devRef .tc main_v83)) (V (Proc.devRef .tc main_c_16)) := by
  after_results_simp
  all_goals (try simp only [StableHlo.TRef.ofBuf, StableHlo.TRef.toBuf, cast_eq])
  all_goals rfl

theorem rowsc_b2 (V : Valuation τ sig (Elt Ideal)) :
    StableHlo.after hostOps9_2 V (Proc.devRef .tc main_v94)
      = shapeCast S1x128 (scaleK (V (Proc.devRef .tc main_arg30)) (V (Proc.devRef .tc main_v87))) shapeCasts_S128_S1x128 := by
  after_results_simp
  all_goals rfl

theorem rowsh_b2 (V : Valuation τ sig (Elt Ideal)) :
    StableHlo.after hostOps9_2 V (Proc.devRef .tc main_v95)
      = shapeCast S1x128 (subf (V (Proc.devRef .tc main_arg31) : FVec Ideal S128 .f32)
          (mulf (V (Proc.devRef .tc main_v86)) (scaleK (V (Proc.devRef .tc main_arg30)) (V (Proc.devRef .tc main_v87)))))
          shapeCasts_S128_S1x128 := by
  after_results_simp
  all_goals rfl

section Layer

variable (m : (ℓ : Loc nD τ sig) → Buf (Elt Ideal) ℓ) (ρ : Dev nD → PrngReg) (c : Dev nD)

set_option quotPrecheck false

local notation "Hin" => (W31 m ρ c (Proc.devRef .tc main_v74) : FVec Ideal S65536x128 .f32)
local notation "Ein" => (W4 m ρ c (Proc.devRef .tc main_v8) : FVec Ideal S524288x128 .f32)
local notation "Sin" => (W4 m ρ c (Proc.devRef .tc main_v3) : IVec S524288 32)
local notation "Din" => (W4 m ρ c (Proc.devRef .tc main_v1) : IVec S524288 32)

local notation "Pw1" => (m ((c : Thread nD τ).loc main_arg20) : FVec Ideal S128x128 .f32)
local notation "Pb1" => (m ((c : Thread nD τ).loc main_arg21) : FVec Ideal S128 .f32)
local notation "Pw2" => (m ((c : Thread nD τ).loc main_arg22) : FVec Ideal S128x128 .f32)
local notation "Pb2" => (m ((c : Thread nD τ).loc main_arg23) : FVec Ideal S128 .f32)
local notation "Pg" => (m ((c : Thread nD τ).loc main_arg30) : FVec Ideal S128 .f32)
local notation "Pb" => (m ((c : Thread nD τ).loc main_arg31) : FVec Ideal S128 .f32)

local notation "Zmid" => Cert.Spec.mlp (F := Ideal) Hin (Cert.Spec.agg (F := Ideal) Hin Ein Sin Din) Pw1 Pb1 Pw2 Pb2

set_option maxHeartbeats 1000000 in

theorem mid_b2 (hs : Below 65536 Sin) : W36 m ρ c (Proc.devRef .tc main_v83) = Zmid := by

  have hH0 : W31 m ρ c (Proc.devRef .tc main_v74) = Hin := rfl
  have hS0 : W31 m ρ c (Proc.devRef .tc main_v3) = Sin := Keep.s4_31 m ρ c main_v3 (by decide)
  have hE1 : W32 m ρ c (Proc.devRef .tc main_v8) = Ein := Keep.s4_32 m ρ c main_v8 (by decide)
  have hD3 : W34 m ρ c (Proc.devRef .tc main_v1) = Din := Keep.s4_34 m ρ c main_v1 (by decide)
  have hH4 : W35 m ρ c (Proc.devRef .tc main_v74) = Hin :=
    (Keep.s31_35 m ρ c main_v74 (by decide)).trans hH0

  have e9 : W32 m ρ c (Proc.devRef .tc main_v75) = Cert.Spec.rowsAt (F := Ideal) Hin Sin := by
    refine (take_b2 (W31 m ρ c)).trans ?_
    rw [hH0, hS0]
    exact takeK_eq _ _ hs
  have e10 : W33 m ρ c (Proc.devRef .tc main_v76) = addf (Cert.Spec.rowsAt (F := Ideal) Hin Sin) Ein := by
    refine (add_b2 (W32 m ρ c)).trans ?_
    rw [e9, hE1]
  have e11 : W34 m ρ c (Proc.devRef .tc main_v77) = Cert.Spec.msg (F := Ideal) Hin Ein Sin := by
    refine (relu_b2 (W33 m ρ c)).trans ?_
    rw [e10]
    exact msg_eq _ _ _
  have e14 : W35 m ρ c (Proc.devRef .tc main_v80) = Cert.Spec.agg (F := Ideal) Hin Ein Sin Din := by
    refine (agg_b2 (W34 m ρ c)).trans ?_
    rw [e11, hD3]
    exact aggK_eq _ _ _ _

  have e15 : W35 m ρ c (Proc.devRef .tc main_v81) = shapeCast S1x128 Pb1 shapeCasts_S128_S1x128 := by
    refine (rowb1_b2 (W34 m ρ c)).trans ?_
    rw [show W34 m ρ c (Proc.devRef .tc main_arg21) = Pb1 from Keep.s0_34 m ρ c main_arg21 (by decide)]
  have e16 : W35 m ρ c (Proc.devRef .tc main_v82) = shapeCast S1x128 Pb2 shapeCasts_S128_S1x128 := by
    refine (rowb2_b2 (W34 m ρ c)).trans ?_
    rw [show W34 m ρ c (Proc.devRef .tc main_arg23) = Pb2 from Keep.s0_34 m ρ c main_arg23 (by decide)]

  refine (W36_arr m ρ c 6).trans ((KMlp.arr8 (V35 m ρ) c Pb1 Pb2 e15 e16).trans ?_)
  rw [show V35 m ρ c (Pipeline.arrRef spec8 0) = Hin from hH4,
    show V35 m ρ c (Pipeline.arrRef spec8 1) = Cert.Spec.agg (F := Ideal) Hin Ein Sin Din from e14,
    show V35 m ρ c (Pipeline.arrRef spec8 2) = Pw1 from Keep.s0_35 m ρ c main_arg20 (by decide),
    show V35 m ρ c (Pipeline.arrRef spec8 4) = Pw2 from Keep.s0_35 m ρ c main_arg22 (by decide)]

set_option maxHeartbeats 1000000 in

theorem layer_b2 (hs : Below 65536 Sin) (hz : Cert.Basic.Real Zmid) (hg : Cert.Basic.Real Pg) (hb : Cert.Basic.Real Pb) :
    W40 m ρ c (Proc.devRef .tc main_v96) = Cert.Spec.layer (F := Ideal) Hin Ein Sin Din Pw1 Pb1 Pw2 Pb2 Pg Pb := by
  have e17 : W36 m ρ c (Proc.devRef .tc main_v83) = Zmid := mid_b2 m ρ c hs

  have k10 : W37 m ρ c (Proc.devRef .tc main_v83) = Zmid := (Keep.s36_37 m ρ c main_v83 (by decide)).trans e17
  have e20 : W37 m ρ c (Proc.devRef .tc main_v86) = Cert.Spec.mean (F := Ideal) Zmid := by
    refine (mean_b2 (W36 m ρ c)).trans ?_
    rw [e17]
  have ec : W37 m ρ c (Proc.devRef .tc main_c_16) = constantI S_ 32 0#32 := zero_b2 (W36 m ρ c)
  have e21 : W38 m ρ c (Proc.devRef .tc main_v87) = Cert.Spec.var (F := Ideal) Zmid (constantI S_ 32 0#32) := by
    refine (var_b2 (W37 m ρ c)).trans ?_
    rw [k10, ec]
  have k20 : W38 m ρ c (Proc.devRef .tc main_v86) = Cert.Spec.mean (F := Ideal) Zmid :=
    (Keep.s37_38 m ρ c main_v86 (by decide)).trans e20
  have k17 : W39 m ρ c (Proc.devRef .tc main_v83) = Zmid :=
    (Keep.s37_39 m ρ c main_v83 (by decide)).trans k10

  have e28 : W39 m ρ c (Proc.devRef .tc main_v94)
      = shapeCast S1x128 (mulf Pg (Cert.Spec.rstd (F := Ideal) Zmid)) shapeCasts_S128_S1x128 := by
    refine (rowsc_b2 (W38 m ρ c)).trans ?_
    rw [show W38 m ρ c (Proc.devRef .tc main_arg30) = Pg from Keep.s0_38 m ρ c main_arg30 (by decide), e21, scaleK_eq]
  have e29 : W39 m ρ c (Proc.devRef .tc main_v95)
      = shapeCast S1x128 (subf Pb (mulf (Cert.Spec.mean (F := Ideal) Zmid) (mulf Pg (Cert.Spec.rstd (F := Ideal) Zmid))))
          shapeCasts_S128_S1x128 := by
    refine (rowsh_b2 (W38 m ρ c)).trans ?_
    rw [show W38 m ρ c (Proc.devRef .tc main_arg31) = Pb from Keep.s0_38 m ρ c main_arg31 (by decide), show W38 m ρ c (Proc.devRef .tc main_arg30) = Pg from Keep.s0_38 m ρ c main_arg30 (by decide), k20, e21, scaleK_eq]

  refine (W40_arr m ρ c 3).trans ((KBn.arr9 (V39 m ρ) c _ _ e28 e29).trans ?_)
  rw [show V39 m ρ c (Pipeline.arrRef spec9 0) = Zmid from k17]
  exact Cert.BnLaw.affRelu_eq_bn hz hg hb

end Layer

end Cert.KernelIdeal.Walk

end
-- ==== Proof.LibRowGatherScatter.lean ====
import Idealize.ShloMosaic.Lib.ValueIdx
import Idealize.ShloMosaic.PureOps.Ideal.Laws

noncomputable section

namespace Cert.Lib.RowPass

open Idealize.ShloMosaic Idealize.ShloMosaic.ValueIdx

section Generic

abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

theorem fin2_cases (a : Fin 2) : a = 0 ∨ a = 1 := by
  revert a; decide

theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.KPool.lean ====
import proofs.«426861_j66571993088626_2_alg».proof.Proof.Gen.KernelIdeal.Frame
import proofs.«426861_j66571993088626_2_alg».proof.Proof.Spec
import proofs.«426861_j66571993088626_2_alg».proof.Proof.LibRowGatherScatter
import proofs.«426861_j66571993088626_2_alg».proof.Proof.LibMatmul
import proofs.«426861_j66571993088626_2_alg».proof.Proof.LibLayout
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.KPool

open Cert.KernelIdeal Cert.KernelIdeal.Gen
open Idealize.ShloMosaic Idealize.ShloMosaic.TcCoe Idealize.ShloMosaic.ValueIdx
open Idealize.ShloMosaic.Pipeline (Dat Cfg Window)

def oh (g : Fin 64) (w : BitVec 32) : EReal := if w.toInt = (g.val : Int) then 1 else 0

theorem ofNat_eq_iff (g : Fin 64) (w : BitVec 32) : BitVec.ofNat 32 g.val = w ↔ w.toInt = (g.val : Int) := by
  have hg := g.isLt
  constructor
  · rintro rfl
    have e := BitVec.toInt_eq_toNat_cond (BitVec.ofNat 32 g.val)
    rw [BitVec.toNat_ofNat] at e
    omega
  · intro h
    have := BitVec.ofInt_toInt (x := w)
    rw [h] at this
    rw [← this]
    rfl

theorem oh_eq (g : Fin 64) (w : BitVec 32) :
    FloatOps.sitofp (F := Ideal) .f32 ((IntOp.cmpi .eq (BitVec.ofNat 32 g.val) w).setWidth 32) = oh g w := by
  unfold oh
  by_cases h : w.toInt = (g.val : Int)
  · rw [if_pos h]
    have e : BitVec.ofNat 32 g.val = w := (ofNat_eq_iff g w).mpr h
    rw [e]
    have c : IntOp.cmpi .eq w w = 1#1 := by simp [IntOp.cmpi]
    rw [c]
    show ((((((1#1 : BitVec 1).setWidth 32).toInt : Int) : ℝ) : EReal)) = 1
    rw [show ((1#1 : BitVec 1).setWidth 32).toInt = 1 by decide]
    norm_num
  · rw [if_neg h]
    have e : ¬ BitVec.ofNat 32 g.val = w := fun e => h ((ofNat_eq_iff g w).mp e)
    have c : IntOp.cmpi .eq (BitVec.ofNat 32 g.val) w = 0#1 := by
      have e' : (BitVec.ofNat 32 g.val == w) = false := by simpa using e
      simp [IntOp.cmpi, e']
    rw [c]
    show ((((((0#1 : BitVec 1).setWidth 32).toInt : Int) : ℝ) : EReal)) = 0
    rw [show ((0#1 : BitVec 1).setWidth 32).toInt = 0 by decide]
    norm_num

theorem onehot_apply (x2 : Vec Ideal S1x4096 .i32) (g : Fin 64) (j : Fin 4096) :
    (sitofp (F := Ideal) .f32 (extui 32 (cmpi .eq (iota .tc S64x4096 32 [0] iota_S64x4096_d0_w32)
      (broadcastTo S64x4096 (x2 : IVec S1x4096 32) broadcasts_S1x4096_S64x4096)) natLt_1_32)
        : FVec Ideal S64x4096 .f32) (ix2 g j)
      = oh g (x2 (ix2 0 j)) := by
  rw [sitofp_apply, extui_apply]
  refine Eq.trans ?_ (oh_eq g (x2 (ix2 0 j)))
  congr 2
  show IntOp.cmpi .eq _ _ = IntOp.cmpi .eq _ _
  congr 1
  · exact iota_single_apply .tc S64x4096 32 0 iota_S64x4096_d0_w32 (ix2 g j)
  · refine broadcastTo_apply (x2 : IVec S1x4096 32) broadcasts_S1x4096_S64x4096 (ix2 g j) (ix2 0 j) fun a => ?_
    match a with
    | ⟨0, _⟩ => rfl
    | ⟨1, _⟩ => rfl

def cat {A : Nat} (x0 x1 : (⟨2, ![A, 128]⟩ : Shape).Idx → EReal) (j : Fin A) (q : Fin 256) : EReal :=
  if h : q.val < 128 then x0 (ix2 j ⟨q.val, h⟩) else x1 (ix2 j ⟨q.val - 128, by have := q.isLt; omega⟩)

theorem pay_apply (x2 : Vec Ideal S1x4096 .i32) (x0 x1 : Vec Ideal S4096x128 .f32) (z : Fin 1) (g : Fin 64) (q : Fin 256) :
    k10_pay1 (F := Ideal) x2 x0 x1 (ix3 z g q) = ∑ j : Fin 4096, oh g (x2 (ix2 0 j)) * cat x0 x1 j q := by
  unfold k10_pay1
  refine (shapeCast_addUnit_apply (n := 2) ![64, 256] _ shapeCasts_S64x256_S1x64x256 (ix3 z g q)).trans ?_
  by_cases h : q.val < 128
  · refine (concatenate_pair_apply_left (t := S64x256) (s₁ := S64x128) (s₂ := S64x128) (1 : Fin 2) _ _ concatenates_S64x128_S64x128_S64x256_d1 _ rfl (ix2 g ⟨q.val, h⟩) ?_).trans ?_
    · intro b
      match b with
      | ⟨0, _⟩ => rfl
      | ⟨1, _⟩ => rfl
    · refine (Cert.Lib.Matmul.matmul_zero_apply (A := 64) (K := 4096) (C := 128) (some .fp32) _ _ g ⟨q.val, h⟩).trans ?_
      refine Finset.sum_congr rfl fun j _ => ?_
      unfold cat
      rw [dif_pos h, shapeCast_self, shapeCast_self]
      exact congrArg (· * x0 (ix2 j ⟨q.val, h⟩)) (onehot_apply x2 g j)
  · have hq := q.isLt
    have hq' : q.val - 128 < 128 := by omega
    refine (concatenate_pair_apply_right (t := S64x256) (s₁ := S64x128) (s₂ := S64x128) (1 : Fin 2) _ _ concatenates_S64x128_S64x128_S64x256_d1 _ rfl rfl (ix2 g ⟨q.val - 128, hq'⟩) ?_ ?_).trans ?_
    · intro b hb
      match b with
      | ⟨0, _⟩ => rfl
      | ⟨1, _⟩ => exact absurd rfl hb
    · show q.val - 128 + 128 = q.val
      omega
    · refine (Cert.Lib.Matmul.matmul_zero_apply (A := 64) (K := 4096) (C := 128) (some .fp32) _ _ g ⟨q.val - 128, hq'⟩).trans ?_
      refine Finset.sum_congr rfl fun j _ => ?_
      unfold cat
      rw [dif_neg h, shapeCast_self, shapeCast_self]
      exact congrArg (· * x1 (ix2 j ⟨q.val - 128, hq'⟩)) (onehot_apply x2 g j)

variable (V : (c : Dev nD) → (b : Ref sig .tc) → Buf (Elt Ideal) ((c : Thread nD τ).loc b))

def node (t : Fin 16) (j : Fin 4096) : Fin 65536 := ⟨t.val * 4096 + j.val, by have := t.isLt; have := j.isLt; omega⟩

abbrev xfA (c : Dev nD) : Vec Ideal S65536x128 .f32 := V c (Pipeline.arrRef spec10 0)
abbrev xbA (c : Dev nD) : Vec Ideal S65536x128 .f32 := V c (Pipeline.arrRef spec10 1)
abbrev btA (c : Dev nD) : Vec Ideal S1x65536 .i32 := V c (Pipeline.arrRef spec10 2)

abbrev xfB (c : Dev nD) (t : Fin cfg10.N) : Vec Ideal S4096x128 .f32 := iblk10 V c 0 t
abbrev xbB (c : Dev nD) (t : Fin cfg10.N) : Vec Ideal S4096x128 .f32 := iblk10 V c 1 t
abbrev btB (c : Dev nD) (t : Fin cfg10.N) : Vec Ideal S1x4096 .i32 := iblk10 V c 2 t

theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = t.val
    ∧ win10_3.index t (0 : Fin 3) = t.val ∧ win10_3.index t (1 : Fin 3) = 0 ∧ win10_3.index t (2 : Fin 3) = 0 :=
  (by decide +kernel : ∀ t : Fin grid10.N, _)

def blkOf (t : Fin cfg10.N) : Fin 16 := ⟨t.val, (show cfg10.N = 16 from N_10) ▸ t.isLt⟩

theorem xfB_apply (c : Dev nD) (t : Fin cfg10.N) (j : Fin 4096) (q : Fin 128) :
    xfB V c t (ix2 j q) = xfA V c (ix2 (node (blkOf t) j) q) := by
  obtain ⟨e0, e1, -⟩ := idx_facts t
  unfold xfB iblk10
  rw [View.read_apply]
  show xfA V c _ = xfA V c _
  congr 1
  funext a
  apply Fin.ext
  match a with
  | ⟨0, _⟩ => show win10_0.index t (0 : Fin 2) * 4096 + 1 * j.val = t.val * 4096 + j.val; rw [e0]; omega
  | ⟨1, _⟩ => show win10_0.index t (1 : Fin 2) * 128 + 1 * q.val = q.val; rw [e1]; omega

theorem xbB_apply (c : Dev nD) (t : Fin cfg10.N) (j : Fin 4096) (q : Fin 128) :
    xbB V c t (ix2 j q) = xbA V c (ix2 (node (blkOf t) j) q) := by
  obtain ⟨-, -, e0, e1, -⟩ := idx_facts t
  unfold xbB iblk10
  rw [View.read_apply]
  show xbA V c _ = xbA V c _
  congr 1
  funext a
  apply Fin.ext
  match a with
  | ⟨0, _⟩ => show win10_1.index t (0 : Fin 2) * 4096 + 1 * j.val = t.val * 4096 + j.val; rw [e0]; omega
  | ⟨1, _⟩ => show win10_1.index t (1 : Fin 2) * 128 + 1 * q.val = q.val; rw [e1]; omega

theorem btB_apply (c : Dev nD) (t : Fin cfg10.N) (z : Fin 1) (j : Fin 4096) :
    btB V c t (ix2 z j) = btA V c (ix2 0 (node (blkOf t) j)) := by
  obtain ⟨-, -, -, -, e0, e1, -⟩ := idx_facts t
  unfold btB iblk10
  rw [View.read_apply]
  show btA V c _ = btA V c _
  congr 1
  funext a
  apply Fin.ext
  match a with
  | ⟨0, _⟩ => show win10_2.index t (0 : Fin 2) * 1 + 1 * z.val = 0; rw [e0]; omega
  | ⟨1, _⟩ => show win10_2.index t (1 : Fin 2) * 4096 + 1 * j.val = t.val * 4096 + j.val; rw [e1]; omega

theorem cat_blocks (c : Dev nD) (t : Fin cfg10.N) (j : Fin 4096) (q : Fin 256) :
    cat (xfB V c t) (xbB V c t) j q = cat (xfA V c) (xbA V c) (node (blkOf t) j) q := by
  unfold cat
  split
  · exact xfB_apply V c t j _
  · exact xbB_apply V c t j _

def blockSum (xf xb : (⟨2, ![65536, 128]⟩ : Shape).Idx → EReal) (bt : (⟨2, ![1, 65536]⟩ : Shape).Idx → BitVec 32)
    (t : Fin 16) (g : Fin 64) (q : Fin 256) : EReal :=
  ∑ j : Fin 4096, oh g (bt (ix2 0 (node t j))) * cat xf xb (node t j) q

def blockSums (c : Dev nD) : Vec Ideal S16x64x256 .f32 :=
  fun i => blockSum (xfA V c) (xbA V c) (btA V c) (i 0) (i 1) (i 2)

theorem flushed_eq (c : Dev nD) (t : Fin cfg10.N) :
    (dat10 V c).flushed 3 t = ((cfg10.win 3).blk t).view.read (Elt Ideal) (blockSums V c) := by
  show (cfg10.win 3).cut (grid10.coords t) ((dat10 V c).after 3 t) = _
  rw [after10_3]
  unfold out10_3
  rw [View.canon_unit_zero hz3]
  simp only [View.ld_unit_zero (S := S1x4096) hz2, View.ld_unit_zero (S := S4096x128) hz2]
  obtain ⟨-, -, -, -, -, -, e0, e1, e2⟩ := idx_facts t
  funext y
  show k10_pay1 (btB V c t) (xfB V c t) (xbB V c t) y = blockSums V c (((cfg10.win 3).blk t).view.emb y)
  obtain ⟨z, g, q, rfl⟩ : ∃ (z : Fin 1) (g : Fin 64) (q : Fin 256), y = ix3 z g q := ⟨y 0, y 1, y 2, eq_ix3 y⟩
  refine (pay_apply (btB V c t) (xfB V c t) (xbB V c t) z g q).trans ?_
  have h0 : (((cfg10.win 3).blk t).view.emb (ix3 z g q)) 0 = blkOf t :=
    Fin.ext (by show win10_3.index t (0 : Fin 3) * 1 + 1 * z.val = t.val; rw [e0]; omega)
  have h1 : (((cfg10.win 3).blk t).view.emb (ix3 z g q)) 1 = g :=
    Fin.ext (by show win10_3.index t (1 : Fin 3) * 64 + 1 * g.val = g.val; rw [e1]; omega)
  have h2 : (((cfg10.win 3).blk t).view.emb (ix3 z g q)) 2 = q :=
    Fin.ext (by show win10_3.index t (2 : Fin 3) * 256 + 1 * q.val = q.val; rw [e2]; omega)
  show _ = blockSum (xfA V c) (xbA V c) (btA V c) ((((cfg10.win 3).blk t).view.emb (ix3 z g q)) 0)
    ((((cfg10.win 3).blk t).view.emb (ix3 z g q)) 1) ((((cfg10.win 3).blk t).view.emb (ix3 z g q)) 2)
  rw [h0, h1, h2]
  unfold blockSum
  refine Finset.sum_congr rfl fun j _ => ?_
  rw [btB_apply V c t 0 j, cat_blocks]

theorem mem_blk (t : Fin cfg10.N) (i : S16x64x256.Idx) :
    i ∈ ((cfg10.win 3).blk t).view.set ↔ ∀ a : Fin 3, win10_3.index t a * S1x64x256.size a ≤ (i a).val
      ∧ (i a).val < win10_3.index t a * S1x64x256.size a + S1x64x256.size a := by
  show i ∈ ((View.whole main_v97).slice (win10_3.rect t)).set ↔ _
  rw [View.set_slice_whole, Rect.mem_set_unit]
  exact Iff.rfl

theorem final (c : Dev nD) : (dat10 V c).arrAt 3 cfg10.N = blockSums V c :=
  (dat10 V c).arrAt_eq_of_cover 3 (blockSums V c) (fun t _ => flushed_eq V c t) fun i => by
    have hi0 : (i 0).val < 16 := (i 0).isLt
    have hi1 : (i 1).val < 64 := (i 1).isLt
    have hi2 : (i 2).val < 256 := (i 2).isLt
    obtain ⟨t, ht⟩ : ∃ t : Fin cfg10.N, t.val = (i 0).val := ⟨⟨(i 0).val, (show cfg10.N = 16 from N_10).symm ▸ hi0⟩, rfl⟩
    obtain ⟨-, -, -, -, -, -, e0, e1, e2⟩ := idx_facts t
    refine ⟨t, flush10_3 t, ?_⟩
    rw [mem_blk]
    intro a
    match a with
    | ⟨0, _⟩ =>
      show win10_3.index t (0 : Fin 3) * 1 ≤ (i 0).val ∧ (i 0).val < win10_3.index t (0 : Fin 3) * 1 + 1
      rw [e0]; omega
    | ⟨1, _⟩ =>
      show win10_3.index t (1 : Fin 3) * 64 ≤ (i 1).val ∧ (i 1).val < win10_3.index t (1 : Fin 3) * 64 + 64
      rw [e1]; omega
    | ⟨2, _⟩ =>
      show win10_3.index t (2 : Fin 3) * 256 ≤ (i 2).val ∧ (i 2).val < win10_3.index t (2 : Fin 3) * 256 + 256
      rw [e2]; omega

theorem reduce_apply (X : Vec Ideal S16x64x256 .f32) (g : Fin 64) (q : Fin 256) :
    Host.reduceAdd (F := Ideal) X (constant (F := Ideal) S_ .f32 0x00000000#32) reducesTo_S16x64x256_S64x256_d0 h_S_ (ix2 g q)
      = ∑ t : Fin 16, X (ix3 t g q) := by
  rw [hostReduceAdd_apply, Ideal.hostReduceAdd_single reducesTo_S16x64x256_S64x256_d0 (by decide : S16x64x256.Reduces [0] S64x256),
    constant_apply, Ideal.ofBits_zero_f32, zero_add]
  refine Finset.sum_congr rfl fun t _ => congrArg X ?_
  funext a
  match a with
  | ⟨0, _⟩ => rfl
  | ⟨1, _⟩ => rfl
  | ⟨2, _⟩ => rfl

theorem oh_mul (g : Fin 64) (w : BitVec 32) (x : EReal) : oh g w * x = if w.toInt = (g.val : Int) then x else 0 := by
  unfold oh
  split
  · exact one_mul x
  · exact zero_mul x

theorem concat_apply (xf xb : FVec Ideal Cert.ReferenceIdeal.S65536x128 .f32) (n : Fin 65536) (q : Fin 256) :
    concatenate Cert.ReferenceIdeal.S65536x256 1 [⟨Cert.ReferenceIdeal.S65536x128, xf⟩, ⟨Cert.ReferenceIdeal.S65536x128, xb⟩]
      Cert.ReferenceIdeal.Gen.concatenates_S65536x128_S65536x128_S65536x256_d1 (ix2 n q) = cat xf xb n q := by
  unfold cat
  have hq := q.isLt
  by_cases h : q.val < 128
  · rw [dif_pos h]
    refine concatenate_pair_apply_left (t := Cert.ReferenceIdeal.S65536x256) (s₁ := Cert.ReferenceIdeal.S65536x128)
      (s₂ := Cert.ReferenceIdeal.S65536x128) (1 : Fin 2) _ _ _ _ rfl (ix2 n ⟨q.val, h⟩) fun b => ?_
    match b with
    | ⟨0, _⟩ => rfl
    | ⟨1, _⟩ => rfl
  · rw [dif_neg h]
    have hq' : q.val - 128 < 128 := by omega
    refine concatenate_pair_apply_right (t := Cert.ReferenceIdeal.S65536x256) (s₁ := Cert.ReferenceIdeal.S65536x128)
      (s₂ := Cert.ReferenceIdeal.S65536x128) (1 : Fin 2) _ _ _ _ rfl rfl (ix2 n ⟨q.val - 128, hq'⟩) (fun b hb => ?_) ?_
    · match b with
      | ⟨0, _⟩ => rfl
      | ⟨1, _⟩ => exact absurd rfl hb
    · show q.val - 128 + 128 = q.val
      omega

theorem pool_apply (xf xb : FVec Ideal Cert.ReferenceIdeal.S65536x128 .f32) (batch : IVec Cert.ReferenceIdeal.S65536 32)
    (g : Fin 64) (q : Fin 256) :
    Cert.Spec.pool (F := Ideal) xf xb batch (ix2 g q) = ∑ n : Fin 65536, oh g (batch (ix1 n)) * cat xf xb n q := by
  unfold Cert.Spec.pool
  refine (Cert.Lib.RowPass.sc_apply (N := 64) (E := 65536) (W := 256)
    Cert.ReferenceIdeal.Gen.scatter_S64x256_S65536x1_S65536x256_1_0_0_1_wf _ _ _ g q).trans ?_
  rw [broadcastInDim_scalar_apply]
  show Ideal.ofBits .f32 0x00000000#32 + _ = _
  rw [Ideal.ofBits_zero_f32, zero_add]
  refine Finset.sum_congr rfl fun n _ => ?_
  rw [oh_mul, concat_apply]
  have e : broadcastInDim Cert.ReferenceIdeal.S65536x1 ![0] Cert.ReferenceIdeal.Gen.bcast_S65536_S65536x1_0 batch (ix2 n 0)
      = batch (ix1 n) := by
    refine broadcastInDim_apply _ _ batch (ix2 n 0) (ix1 n) fun a => ?_
    match a with
    | ⟨0, _⟩ =>
      show n.val = if (65536 : Nat) = 1 then 0 else n.val
      rw [if_neg (by decide)]
  rw [e]

theorem sum_nodes (f : Fin 65536 → EReal) : ∑ n : Fin 65536, f n = ∑ t : Fin 16, ∑ j : Fin 4096, f (node t j) := by
  have h1 : ∑ n : Fin 65536, f n = ∑ x : Fin 16 × Fin 4096, f (node x.1 x.2) := by
    rw [← Equiv.sum_comp (finProdFinEquiv (m := 16) (n := 4096)) (f : Fin (16 * 4096) → EReal)]
    refine Finset.sum_congr rfl fun x _ => congrArg f (Fin.ext ?_)
    show x.2.val + 4096 * x.1.val = x.1.val * 4096 + x.2.val
    omega
  rw [h1, Fintype.sum_prod_type]

theorem pooled (c : Dev nD) (batch : IVec S65536 32)
    (hb : V c (Pipeline.arrRef spec10 2) = shapeCast S1x65536 batch shapeCasts_S65536_S1x65536) :
    (fun x v => Host.reduceAdd (F := Ideal) x v reducesTo_S16x64x256_S64x256_d0 h_S_)
        ((dat10 (F := Ideal) V c).arrAt 3 cfg10.N) (constant (F := Ideal) S_ .f32 0x00000000#32)
      = Cert.Spec.pool (F := Ideal) (V c (Pipeline.arrRef spec10 0)) (V c (Pipeline.arrRef spec10 1)) batch := by
  funext i
  obtain ⟨g, q, rfl⟩ : ∃ (g : Fin 64) (q : Fin 256), i = ix2 g q := ⟨i 0, i 1, eq_ix2 i⟩
  show Host.reduceAdd (F := Ideal) ((dat10 (F := Ideal) V c).arrAt 3 cfg10.N) (constant (F := Ideal) S_ .f32 0x00000000#32)
    reducesTo_S16x64x256_S64x256_d0 h_S_ (ix2 g q) = _
  rw [final V c, reduce_apply]
  refine Eq.trans ?_ (pool_apply (xfA V c) (xbA V c) batch g q).symm
  rw [sum_nodes]
  refine Finset.sum_congr rfl fun t _ => ?_
  show blockSum (xfA V c) (xbA V c) (btA V c) t g q = _
  unfold blockSum
  refine Finset.sum_congr rfl fun j _ => ?_
  have e : btA V c (ix2 0 (node t j)) = batch (ix1 (node t j)) := by
    show V c (Pipeline.arrRef spec10 2) (ix2 0 (node t j)) = _
    rw [hb]
    exact Cert.Lib.Layout.rowCast_apply batch shapeCasts_S65536_S1x65536 0 (node t j)
  rw [e]

end Cert.KernelIdeal.KPool

end
-- ==== Proof.WalkT.lean ====
import proofs.«426861_j66571993088626_2_alg».proof.Proof.Gen.KernelIdeal.Frame
import proofs.«426861_j66571993088626_2_alg».proof.Proof.Spec
import proofs.«426861_j66571993088626_2_alg».proof.Proof.Basic
import proofs.«426861_j66571993088626_2_alg».proof.Proof.Keep
import proofs.«426861_j66571993088626_2_alg».proof.Proof.KPool
import proofs.«426861_j66571993088626_2_alg».proof.Proof.WalkA
import Idealize.ShloMosaic.Lib.StableHlo.Run

noncomputable section

namespace Cert.KernelIdeal.Walk

open Cert.KernelIdeal Cert.KernelIdeal.Gen Cert.Basic Idealize.ShloMosaic Idealize.ShloMosaic.TcCoe

variable (m : (ℓ : Loc nD τ sig) → Buf (Elt Ideal) ℓ) (ρ : Dev nD → PrngReg)

def headA (p : FVec Ideal S64x256 .f32) (w1 : FVec Ideal S256x128 .f32) (b1 : FVec Ideal S128 .f32) : FVec Ideal S64x128 .f32 :=
  addf (Host.dotGeneral (F := Ideal) dot_S64x256_S256x128_S64x128_1_0_0_1_n_n none p w1)
    (broadcastInDim S64x128 ![0, 1] bcast_S1x128_S64x128_0_1 (broadcastInDim S1x128 ![1] bcast_S128_S1x128_1 b1))

def headB (h : FVec Ideal S64x128 .f32) : FVec Ideal S64x128 .f32 :=
  maximumf h (broadcastInDim S64x128 ![] bcast_S_S64x128 (constant (F := Ideal) S_ .f32 0x00000000#32))

def headC (h : FVec Ideal S64x128 .f32) (w2 : FVec Ideal S128x1 .f32) (b2 : FVec Ideal S1 .f32) : FVec Ideal S64 .f32 :=
  shapeCast S64
    (addf (Host.dotGeneral (F := Ideal) dot_S64x128_S128x1_S64x1_1_0_0_1_n_n none h w2)
      (broadcastInDim S64x1 ![0, 1] bcast_S1x1_S64x1_0_1 (broadcastInDim S1x1 ![1] bcast_S1_S1x1_1 b2)))
    shapeCasts_S64x1_S64

theorem v102_of (V : Valuation τ sig (Elt Ideal)) :
    StableHlo.after (hostOps11 (F := Ideal)) V (Proc.devRef .tc main_v102)
      = headA (Host.reduceAdd (F := Ideal) (V (Proc.devRef .tc main_v97)) (constant (F := Ideal) S_ .f32 0x00000000#32)
            reducesTo_S16x64x256_S64x256_d0 h_S_)
          (V (Proc.devRef .tc main_arg32)) (V (Proc.devRef .tc main_arg33)) := by
  after_results
  rfl

theorem v103_of (V : Valuation τ sig (Elt Ideal)) :
    StableHlo.after (hostOps11_1 (F := Ideal)) V (Proc.devRef .tc main_v103) = headB (V (Proc.devRef .tc main_v102)) := by
  after_results
  rfl

theorem v108_of (V : Valuation τ sig (Elt Ideal)) :
    StableHlo.after (hostOps11_2 (F := Ideal)) V (Proc.devRef .tc main_v108)
      = headC (V (Proc.devRef .tc main_v103)) (V (Proc.devRef .tc main_arg34)) (V (Proc.devRef .tc main_arg35)) := by
  after_results
  rfl

theorem dotA_eq : (dot_S64x256_S256x128_S64x128_1_0_0_1_n_n : DotDims S64x256 S256x128 S64x128)
    = Cert.ReferenceIdeal.dot_S64x256_S256x128_S64x128_1_0_0_1_n_n := rfl
theorem dotC_eq : (dot_S64x128_S128x1_S64x1_1_0_0_1_n_n : DotDims S64x128 S128x1 S64x1)
    = Cert.ReferenceIdeal.dot_S64x128_S128x1_S64x1_1_0_0_1_n_n := rfl

theorem head_eq (p : FVec Ideal S64x256 .f32) (w1 : FVec Ideal S256x128 .f32) (b1 : FVec Ideal S128 .f32)
    (w2 : FVec Ideal S128x1 .f32) (b2 : FVec Ideal S1 .f32) :
    headC (headB (headA p w1 b1)) w2 b2 = Cert.Spec.head (F := Ideal) p w1 b1 w2 b2 := by
  unfold headC headB headA Cert.Spec.head Cert.Spec.zeroS
  rw [dotA_eq, dotC_eq]

theorem v52_kept (c : Dev nD) :
    W40 m ρ c (Proc.devRef .tc main_v52) = W22 m ρ c (Proc.devRef .tc main_v52) :=
  Keep.s22_40 m ρ c main_v52 (by decide)

theorem v4_kept (c : Dev nD) :
    W40 m ρ c (Proc.devRef .tc main_v4) = W4 m ρ c (Proc.devRef .tc main_v4) :=
  Keep.s4_40 m ρ c main_v4 (by decide)

theorem a32 (c : Dev nD) : W41 m ρ c (Proc.devRef .tc main_arg32) = m ((c : Thread nD τ).loc main_arg32) :=
  Keep.s0_41 m ρ c main_arg32 (by decide)
theorem a33 (c : Dev nD) : W41 m ρ c (Proc.devRef .tc main_arg33) = m ((c : Thread nD τ).loc main_arg33) :=
  Keep.s0_41 m ρ c main_arg33 (by decide)
theorem a34 (c : Dev nD) : W43 m ρ c (Proc.devRef .tc main_arg34) = m ((c : Thread nD τ).loc main_arg34) :=
  Keep.s0_43 m ρ c main_arg34 (by decide)
theorem a35 (c : Dev nD) : W43 m ρ c (Proc.devRef .tc main_arg35) = m ((c : Thread nD τ).loc main_arg35) :=
  Keep.s0_43 m ρ c main_arg35 (by decide)

theorem tail_eq (c : Dev nD) :
    W44 m ρ c (Proc.devRef .tc main_v108)
      = Cert.Spec.head (F := Ideal)
          (Cert.Spec.pool (F := Ideal) (W40 m ρ c (Proc.devRef .tc main_v52)) (W40 m ρ c (Proc.devRef .tc main_v96))
            (m ((c : Thread nD τ).loc main_arg3)))
          (m ((c : Thread nD τ).loc main_arg32)) (m ((c : Thread nD τ).loc main_arg33))
          (m ((c : Thread nD τ).loc main_arg34)) (m ((c : Thread nD τ).loc main_arg35)) := by

  have hb : V40 m ρ c (Pipeline.arrRef spec10 2)
      = shapeCast S1x65536 (m ((c : Thread nD τ).loc main_arg3)) shapeCasts_S65536_S1x65536 :=
    (v4_kept m ρ c).trans (brow_eq m ρ c)

  have hp : Host.reduceAdd (F := Ideal) ((dat10 (V40 m ρ) c).arrAt 3 cfg10.N) (constant (F := Ideal) S_ .f32 0x00000000#32)
        reducesTo_S16x64x256_S64x256_d0 h_S_
      = Cert.Spec.pool (F := Ideal) (W40 m ρ c (Proc.devRef .tc main_v52)) (W40 m ρ c (Proc.devRef .tc main_v96))
          (m ((c : Thread nD τ).loc main_arg3)) :=
    Cert.KernelIdeal.KPool.pooled (V40 m ρ) c (m ((c : Thread nD τ).loc main_arg3)) hb
  have e97 : W41 m ρ c (Proc.devRef .tc main_v97) = (dat10 (V40 m ρ) c).arrAt 3 cfg10.N := W41_arr m ρ c 3

  have e102 := v102_of (W41 m ρ c)
  rw [e97, hp, a32 m ρ c, a33 m ρ c] at e102
  have e103 := v103_of (W42 m ρ c)
  have e108 := v108_of (W43 m ρ c)
  rw [a34 m ρ c, a35 m ρ c] at e108
  refine e108.trans ?_
  rw [show W43 m ρ c (Proc.devRef .tc main_v103) = _ from e103,
    show W42 m ρ c (Proc.devRef .tc main_v102) = _ from e102]
  exact head_eq _ _ _ _ _

end Cert.KernelIdeal.Walk

end
-- ==== Proof.Assemble.lean ====
import proofs.«426861_j66571993088626_2_alg».proof.Proof.Gen.KernelIdeal.Frame
import proofs.«426861_j66571993088626_2_alg».proof.Proof.Spec
import proofs.«426861_j66571993088626_2_alg».proof.Proof.Basic
import proofs.«426861_j66571993088626_2_alg».proof.Proof.SpecReal
import proofs.«426861_j66571993088626_2_alg».proof.Proof.BnLaw
import proofs.«426861_j66571993088626_2_alg».proof.Proof.PreFacts
import proofs.«426861_j66571993088626_2_alg».proof.Proof.WalkA
import proofs.«426861_j66571993088626_2_alg».proof.Proof.WalkF1
import proofs.«426861_j66571993088626_2_alg».proof.Proof.WalkF2
import proofs.«426861_j66571993088626_2_alg».proof.Proof.WalkB1
import proofs.«426861_j66571993088626_2_alg».proof.Proof.WalkB2
import proofs.«426861_j66571993088626_2_alg».proof.Proof.WalkT

set_option maxRecDepth 16384

noncomputable section

open Idealize.ShloMosaic Idealize.ShloMosaic.TcCoe Idealize.SL.Sem Cert.Basic

namespace Cert.KernelIdeal.Assemble
open Cert.KernelIdeal Cert.KernelIdeal.Gen Cert.KernelIdeal.Walk
variable (m : (ℓ : Loc nD τ sig) → Buf (Elt Ideal) ℓ) (ρ : Dev nD → PrngReg)

set_option maxHeartbeats 4000000 in

theorem kernel_value (c : Dev nD) (P : Cert.PreFacts.Facts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) :
    (W44 m ρ c (Proc.devRef .tc main_v108)) = Cert.Spec.G (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  have hh := h_eq m ρ c
  have he := ea_eq m ρ c
  have hs := src_eq m ρ c
  have hd := dst_eq m ρ c
  have Rh : Real (W4 m ρ c (Proc.devRef .tc main_v6)) := by rw [hh]; exact Cert.SpecReal.real_linN P.r0 P.r4 P.r5
  have Re : Real (W4 m ρ c (Proc.devRef .tc main_v8)) := by rw [he]; exact Cert.SpecReal.real_linE P.r1 P.r6 P.r7
  have Bs : Below 65536 (W4 m ρ c (Proc.devRef .tc main_v1)) := by rw [hs]; exact src_below m c P.i2
  have Bd : Below 65536 (W4 m ρ c (Proc.devRef .tc main_v3)) := by rw [hd]; exact dst_below m c P.i2

  have Z1 := Cert.SpecReal.real_mlp Rh (Cert.SpecReal.real_agg (s := (W4 m ρ c (Proc.devRef .tc main_v1))) (d := (W4 m ρ c (Proc.devRef .tc main_v3))) Rh Re) P.r8 P.r9 P.r10 P.r11
  have L1 := layer_f1 m ρ c Bs Z1 P.r24 P.r25
  have R1 : Real (W13 m ρ c (Proc.devRef .tc main_v30)) := by rw [L1]; exact Cert.BnLaw.real_bn Z1 P.r24 P.r25
  have Z2 := Cert.SpecReal.real_mlp R1 (Cert.SpecReal.real_agg (s := (W4 m ρ c (Proc.devRef .tc main_v1))) (d := (W4 m ρ c (Proc.devRef .tc main_v3))) R1 Re) P.r12 P.r13 P.r14 P.r15
  have L2 := layer_f2 m ρ c Bs Z2 P.r26 P.r27

  have Z3 := Cert.SpecReal.real_mlp Rh (Cert.SpecReal.real_agg (s := (W4 m ρ c (Proc.devRef .tc main_v3))) (d := (W4 m ρ c (Proc.devRef .tc main_v1))) Rh Re) P.r16 P.r17 P.r18 P.r19
  have L3 := layer_b1 m ρ c Bd Z3 P.r28 P.r29
  have R3 : Real (W31 m ρ c (Proc.devRef .tc main_v74)) := by rw [L3]; exact Cert.BnLaw.real_bn Z3 P.r28 P.r29
  have Z4 := Cert.SpecReal.real_mlp R3 (Cert.SpecReal.real_agg (s := (W4 m ρ c (Proc.devRef .tc main_v3))) (d := (W4 m ρ c (Proc.devRef .tc main_v1))) R3 Re) P.r20 P.r21 P.r22 P.r23
  have L4 := layer_b2 m ρ c Bd Z4 P.r30 P.r31
  rw [tail_eq m ρ c, v52_kept m ρ c, L2, L4, L1, L3, hh, he, hs, hd]
  unfold Cert.Spec.G
  rfl

end Cert.KernelIdeal.Assemble

end
-- ==== Proof.RefOps.lean ====
import proofs.«426861_j66571993088626_2_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

-- What holds of every operation of two lists holds of every operation of their concatenation.
theorem forall_append {p : HloOp τ sig (Elt F) → Prop} {A B : List (HloOp τ sig (Elt F))}
    (hA : A.Forall p) (hB : B.Forall p) : (A ++ B).Forall p :=
  List.forall_iff_forall_mem.mpr fun x h => (List.mem_append.mp h).elim
    (List.forall_iff_forall_mem.mp hA x) (List.forall_iff_forall_mem.mp hB x)

abbrev cC0 : List (HloOp τ sig (Elt F)) :=
  [ StableHlo.binary main_arg0 main_arg4 main_v0 (fun l r => Host.dotGeneral dot_S65536x64_S64x128_S65536x128_1_0_0_1_n_n none l r),
    StableHlo.unary main_arg5 main_v1 (broadcastInDim S1x128 ![1] bcast_S128_S1x128_1),
    StableHlo.unary main_v1 main_v2 (broadcastInDim S65536x128 ![0, 1] bcast_S1x128_S65536x128_0_1),
    StableHlo.binary main_v0 main_v2 main_v3 addf,
    StableHlo.binary main_arg1 main_arg6 main_v4 (fun l r => Host.dotGeneral dot_S524288x32_S32x128_S524288x128_1_0_0_1_n_n none l r),
    StableHlo.unary main_arg7 main_v5 (broadcastInDim S1x128 ![1] bcast_S128_S1x128_1),
    StableHlo.unary main_v5 main_v6 (broadcastInDim S524288x128 ![0, 1] bcast_S1x128_S524288x128_0_1),
    StableHlo.binary main_v4 main_v6 main_v7 addf,
    StableHlo.unary main_arg2 main_v8 (extractStridedSlice S1x524288 ![0, 0] · slices_S2x524288_S1x524288_0_0),
    StableHlo.reshape main_v8 main_v9 rfl shapeCasts_S1x524288_S524288,
    StableHlo.unary main_arg2 main_v10 (extractStridedSlice S1x524288 ![1, 0] · slices_S2x524288_S1x524288_1_0),
    StableHlo.reshape main_v10 main_v11 rfl shapeCasts_S1x524288_S524288 ]

set_option maxRecDepth 8192 in
theorem cC0_sub : (cC0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub ..⟩

set_option maxRecDepth 8192 in
theorem cC0_fresh : (cC0 : List (HloOp τ sig (Elt F))).Forall fun op => op.fresh = ∅ := by
  simp only [List.Forall]; repeat' constructor

abbrev cL1a : List (HloOp τ sig (Elt F)) :=
  [ StableHlo.nullary main_c (constantI S_ 32 0#32),
    StableHlo.unary main_c main_v12 (broadcastInDim S524288 ![] bcast_S_S524288),
    StableHlo.binary main_v9 main_v12 main_v13 (cmpi .slt),
    StableHlo.nullary main_c_0 (constantI S_ 32 65536#32),
    StableHlo.unary main_c_0 main_v14 (broadcastInDim S524288 ![] bcast_S_S524288),
    StableHlo.binary main_v9 main_v14 main_v15 addi,
    StableHlo.ternary main_v13 main_v15 main_v9 main_v16 select,
    StableHlo.unary main_v16 main_v17 (broadcastInDim S524288x1 ![0] bcast_S524288_S524288x1_0),
    StableHlo.binary main_v3 main_v17 main_v18 (fun x i => Host.gather gather_S65536x128_S524288x1_S524288x128_1_0_n_n_0_1_1128 x i),
    StableHlo.binary main_v18 main_v7 main_v19 addf,
    StableHlo.TRef.nullary (.of main_call0_cst) (constant S_ .f32 0x00000000#32),
    StableHlo.TRef.unary (.of main_call0_cst) (.of main_call0_v0) (broadcastInDim S524288x128 ![] bcast_S_S524288x128),
    StableHlo.TRef.binary (.of main_v19) (.of main_call0_v0) (.of main_v20) maximumf,
    StableHlo.nullary main_cst (constant S_ .f32 0x00000000#32),
    StableHlo.unary main_cst main_v21 (broadcastInDim S65536x128 ![] bcast_S_S65536x128),
    StableHlo.unary main_v11 main_v22 (broadcastInDim S524288x1 ![0] bcast_S524288_S524288x1_0),
    StableHlo.ternary main_v21 main_v22 main_v20 main_v23 (fun x i u => Host.scatterAdd scatter_S65536x128_S524288x1_S524288x128_1_0_0_1 x i u),
    StableHlo.binary main_v3 main_v23 main_v24 addf,
    StableHlo.binary main_v24 main_arg8 main_v25 (fun l r => Host.dotGeneral dot_S65536x128_S128x128_S65536x128_1_0_0_1_n_n none l r),
    StableHlo.unary main_arg9 main_v26 (broadcastInDim S1x128 ![1] bcast_S128_S1x128_1),
    StableHlo.unary main_v26 main_v27 (broadcastInDim S65536x128 ![0, 1] bcast_S1x128_S65536x128_0_1),
    StableHlo.binary main_v25 main_v27 main_v28 addf,
    StableHlo.TRef.nullary (.of main_call1_cst) (constant S_ .f32 0x00000000#32),
    StableHlo.TRef.unary (.of main_call1_cst) (.of main_call1_v0) (broadcastInDim S65536x128 ![] bcast_S_S65536x128),
    StableHlo.TRef.binary (.of main_v28) (.of main_call1_v0) (.of main_v29) maximumf,
    StableHlo.binary main_v29 main_arg10 main_v30 (fun l r => Host.dotGeneral dot_S65536x128_S128x128_S65536x128_1_0_0_1_n_n none l r),
    StableHlo.unary main_arg11 main_v31 (broadcastInDim S1x128 ![1] bcast_S128_S1x128_1),
    StableHlo.unary main_v31 main_v32 (broadcastInDim S65536x128 ![0, 1] bcast_S1x128_S65536x128_0_1),
    StableHlo.binary main_v30 main_v32 main_v33 addf,
    StableHlo.nullary main_cst_1 (constant S_ .f32 0x00000000#32),
    StableHlo.binary main_v33 main_cst_1 main_v34 (fun x v => Host.reduceAdd x v reducesTo_S65536x128_S128_d0 h_S_),
    StableHlo.nullary main_cst_2 (constant S_ .f32 0x47800000#32),
    StableHlo.unary main_cst_2 main_v35 (broadcastInDim S128 ![] bcast_S_S128),
    StableHlo.binary main_v34 main_v35 main_v36 Host.divf,
    StableHlo.nullary main_c_3 (constantI S_ 32 0#32),
    StableHlo.TRef.nullary (.of main_call2_cst) (constant S_ .f32 0x00000000#32),
    StableHlo.TRef.binary (.of main_v33) (.of main_call2_cst) (.of main_call2_v0) (fun x v => Host.reduceAdd x v reducesTo_S65536x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0) (constant S_ .f32 0x47800000#32),
    StableHlo.TRef.unary (.of main_call2_cst_0) (.of main_call2_v2) (broadcastInDim S1x128 ![] bcast_S_S1x128),
    StableHlo.TRef.binary (.of main_call2_v1) (.of main_call2_v2) (.of main_call2_v3) Host.divf,
    StableHlo.TRef.unary (.of main_call2_v3 : StableHlo.TRef sig ⟨S1x128, .f32⟩) (.of main_call2_v4 : StableHlo.TRef sig ⟨S65536x128, .f32⟩) (broadcastInDim S65536x128 ![0, 1] bcast_S1x128_S65536x128_0_1),
    StableHlo.TRef.binary (.of main_v33) (.of main_call2_v4) (.of main_call2_v5) subf,
    StableHlo.TRef.binary (.of main_call2_v5) (.of main_call2_v5) (.of main_call2_v6) mulf,
    StableHlo.TRef.unary (.of main_c_3) (.of main_call2_v7) (sitofp .f32),
    StableHlo.TRef.nullary (.of main_call2_cst_1) (constant S_ .f32 0x47800000#32),
    StableHlo.TRef.binary (.of main_call2_cst_1) (.of main_call2_v7) (.of main_call2_v8) subf,
    StableHlo.TRef.nullary (.of main_call2_cst_2) (constant S_ .f32 0x00000000#32),
    StableHlo.TRef.binary (.of main_call2_v6) (.of main_call2_cst_2) (.of main_call2_v9) (fun x v => Host.reduceAdd x v reducesTo_S65536x128_S128_d0 h_S_),
    StableHlo.TRef.unary (.of main_call2_v8) (.of main_call2_v10) (broadcastInDim S128 ![] bcast_S_S128),
    StableHlo.TRef.binary (.of main_call2_v9) (.of main_call2_v10) (.of main_call2_v11) Host.divf,
    StableHlo.TRef.nullary (.of main_call2_cst_3) (constant S_ .f32 0x00000000#32),
    StableHlo.TRef.binary (.of main_call2_v8) (.of main_call2_cst_3) (.of main_call2_v12) (cmpf .ogt),
    StableHlo.TRef.nullary (.of main_call2_cst_4) (constant S_ .f32 0x7FC00000#32),
    StableHlo.TRef.unary (.of main_call2_cst_4) (.of main_call2_call0_v0) id,
    StableHlo.TRef.unary (.of main_call2_call0_v0) (.of main_call2_call0_v1) (broadcastInDim S128 ![] bcast_S_S128),
    StableHlo.TRef.ternary (.of main_call2_v12) (.of main_call2_v11) (.of main_call2_call0_v1) (.of main_v37) (fun p a b => select (broadcastInDim S128 ![] bcast_S_S128 p) a b),
    StableHlo.unary main_v36 main_v38 (broadcastInDim S1x128 ![1] bcast_S128_S1x128_1),
    StableHlo.unary main_v38 main_v39 (broadcastInDim S65536x128 ![0, 1] bcast_S1x128_S65536x128_0_1),
    StableHlo.binary main_v33 main_v39 main_v40 subf,
    StableHlo.nullary main_cst_4 (constant S_ .f32 0x3727C5AC#32),
    StableHlo.unary main_cst_4 main_v41 (broadcastInDim S128 ![] bcast_S_S128),
    StableHlo.binary main_v37 main_v41 main_v42 addf,
    StableHlo.unary main_v42 main_v43 Host.rsqrt,
    StableHlo.unary main_v43 main_v44 (broadcastInDim S1x128 ![1] bcast_S128_S1x128_1),
    StableHlo.unary main_v44 main_v45 (broadcastInDim S65536x128 ![0, 1] bcast_S1x128_S65536x128_0_1),
    StableHlo.binary main_v40 main_v45 main_v46 mulf,
    StableHlo.unary main_arg24 main_v47 (broadcastInDim S1x128 ![1] bcast_S128_S1x128_1),
    StableHlo.unary main_v47 main_v48 (broadcastInDim S65536x128 ![0, 1] bcast_S1x128_S65536x128_0_1),
    StableHlo.binary main_v46 main_v48 main_v49 mulf,
    StableHlo.unary main_arg25 main_v50 (broadcastInDim S1x128 ![1] bcast_S128_S1x128_1),
    StableHlo.unary main_v50 main_v51 (broadcastInDim S65536x128 ![0, 1] bcast_S1x128_S65536x128_0_1),
    StableHlo.binary main_v49 main_v51 main_v52 addf ]

set_option maxRecDepth 8192 in
theorem cL1a_sub : (cL1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem cL1a_fresh : (cL1a : List (HloOp τ sig (Elt F))).Forall fun op => op.fresh = ∅ := by
  simp only [List.Forall]; repeat' constructor

abbrev cL1b : List (HloOp τ sig (Elt F)) :=
  [ StableHlo.TRef.nullary (.of main_call3_cst) (constant S_ .f32 0x00000000#32),
    StableHlo.TRef.unary (.of main_call3_cst) (.of main_call3_v0) (broadcastInDim S65536x128 ![] bcast_S_S65536x128),
    StableHlo.TRef.binary (.of main_v52) (.of main_call3_v0) (.of main_v53) maximumf ]

set_option maxRecDepth 8192 in
theorem cL1b_sub : (cL1b : List (HloOp τ sig (Elt F))).Forall fun op => op.bufs ⊆ tcRefs τ sig :=
  ⟨nullary_bufs_sub .., unary_bufs_sub .., binary_bufs_sub ..⟩

set_option maxRecDepth 8192 in
theorem cL1b_fresh : (cL1b : List (HloOp τ sig (Elt F))).Forall fun op => op.fresh = ∅ := by
  simp only [List.Forall]; repeat' constructor

abbrev cL2 : List (HloOp τ sig (Elt F)) :=
  [ StableHlo.nullary main_c_5 (constantI S_ 32 0#32),
    StableHlo.unary main_c_5 main_v54 (broadcastInDim S524288 ![] bcast_S_S524288),
    StableHlo.binary main_v9 main_v54 main_v55 (cmpi .slt),
    StableHlo.nullary main_c_6 (constantI S_ 32 65536#32),
    StableHlo.unary main_c_6 main_v56 (broadcastInDim S524288 ![] bcast_S_S524288),
    StableHlo.binary main_v9 main_v56 main_v57 addi,
    StableHlo.ternary main_v55 main_v57 main_v9 main_v58 select,
    StableHlo.unary main_v58 main_v59 (broadcastInDim S524288x1 ![0] bcast_S524288_S524288x1_0),
    StableHlo.binary main_v53 main_v59 main_v60 (fun x i => Host.gather gather_S65536x128_S524288x1_S524288x128_1_0_n_n_0_1_1128 x i),
    StableHlo.binary main_v60 main_v7 main_v61 addf,
    StableHlo.TRef.nullary (.of main_call4_cst) (constant S_ .f32 0x00000000#32),
    StableHlo.TRef.unary (.of main_call4_cst) (.of main_call4_v0) (broadcastInDim S524288x128 ![] bcast_S_S524288x128),
    StableHlo.TRef.binary (.of main_v61) (.of main_call4_v0) (.of main_v62) maximumf,
    StableHlo.nullary main_cst_7 (constant S_ .f32 0x00000000#32),
    StableHlo.unary main_cst_7 main_v63 (broadcastInDim S65536x128 ![] bcast_S_S65536x128),
    StableHlo.unary main_v11 main_v64 (broadcastInDim S524288x1 ![0] bcast_S524288_S524288x1_0),
    StableHlo.ternary main_v63 main_v64 main_v62 main_v65 (fun x i u => Host.scatterAdd scatter_S65536x128_S524288x1_S524288x128_1_0_0_1 x i u),
    StableHlo.binary main_v53 main_v65 main_v66 addf,
    StableHlo.binary main_v66 main_arg12 main_v67 (fun l r => Host.dotGeneral dot_S65536x128_S128x128_S65536x128_1_0_0_1_n_n none l r),
    StableHlo.unary main_arg13 main_v68 (broadcastInDim S1x128 ![1] bcast_S128_S1x128_1),
    StableHlo.unary main_v68 main_v69 (broadcastInDim S65536x128 ![0, 1] bcast_S1x128_S65536x128_0_1),
    StableHlo.binary main_v67 main_v69 main_v70 addf,
    StableHlo.TRef.nullary (.of main_call5_cst) (constant S_ .f32 0x00000000#32),
    StableHlo.TRef.unary (.of main_call5_cst) (.of main_call5_v0) (broadcastInDim S65536x128 ![] bcast_S_S65536x128),
    StableHlo.TRef.binary (.of main_v70) (.of main_call5_v0) (.of main_v71) maximumf,
    StableHlo.binary main_v71 main_arg14 main_v72 (fun l r => Host.dotGeneral dot_S65536x128_S128x128_S65536x128_1_0_0_1_n_n none l r),
    StableHlo.unary main_arg15 main_v73 (broadcastInDim S1x128 ![1] bcast_S128_S1x128_1),
    StableHlo.unary main_v73 main_v74 (broadcastInDim S65536x128 ![0, 1] bcast_S1x128_S65536x128_0_1),
    StableHlo.binary main_v72 main_v74 main_v75 addf,
    StableHlo.nullary main_cst_8 (constant S_ .f32 0x00000000#32),
    StableHlo.binary main_v75 main_cst_8 main_v76 (fun x v => Host.reduceAdd x v reducesTo_S65536x128_S128_d0 h_S_),
    StableHlo.nullary main_cst_9 (constant S_ .f32 0x47800000#32),
    StableHlo.unary main_cst_9 main_v77 (broadcastInDim S128 ![] bcast_S_S128),
    StableHlo.binary main_v76 main_v77 main_v78 Host.divf,
    StableHlo.nullary main_c_10 (constantI S_ 32 0#32),
    StableHlo.TRef.nullary (.of main_call6_cst) (constant S_ .f32 0x00000000#32),
    StableHlo.TRef.binary (.of main_v75) (.of main_call6_cst) (.of main_call6_v0) (fun x v => Host.reduceAdd x v reducesTo_S65536x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0) (constant S_ .f32 0x47800000#32),
    StableHlo.TRef.unary (.of main_call6_cst_0) (.of main_call6_v2) (broadcastInDim S1x128 ![] bcast_S_S1x128),
    StableHlo.TRef.binary (.of main_call6_v1) (.of main_call6_v2) (.of main_call6_v3) Host.divf,
    StableHlo.TRef.unary (.of main_call6_v3 : StableHlo.TRef sig ⟨S1x128, .f32⟩) (.of main_call6_v4 : StableHlo.TRef sig ⟨S65536x128, .f32⟩) (broadcastInDim S65536x128 ![0, 1] bcast_S1x128_S65536x128_0_1),
    StableHlo.TRef.binary (.of main_v75) (.of main_call6_v4) (.of main_call6_v5) subf,
    StableHlo.TRef.binary (.of main_call6_v5) (.of main_call6_v5) (.of main_call6_v6) mulf,
    StableHlo.TRef.unary (.of main_c_10) (.of main_call6_v7) (sitofp .f32),
    StableHlo.TRef.nullary (.of main_call6_cst_1) (constant S_ .f32 0x47800000#32),
    StableHlo.TRef.binary (.of main_call6_cst_1) (.of main_call6_v7) (.of main_call6_v8) subf,
    StableHlo.TRef.nullary (.of main_call6_cst_2) (constant S_ .f32 0x00000000#32),
    StableHlo.TRef.binary (.of main_call6_v6) (.of main_call6_cst_2) (.of main_call6_v9) (fun x v => Host.reduceAdd x v reducesTo_S65536x128_S128_d0 h_S_),
    StableHlo.TRef.unary (.of main_call6_v8) (.of main_call6_v10) (broadcastInDim S128 ![] bcast_S_S128),
    StableHlo.TRef.binary (.of main_call6_v9) (.of main_call6_v10) (.of main_call6_v11) Host.divf,
    StableHlo.TRef.nullary (.of main_call6_cst_3) (constant S_ .f32 0x00000000#32),
    StableHlo.TRef.binary (.of main_call6_v8) (.of main_call6_cst_3) (.of main_call6_v12) (cmpf .ogt),
    StableHlo.TRef.nullary (.of main_call6_cst_4) (constant S_ .f32 0x7FC00000#32),
    StableHlo.TRef.unary (.of main_call6_cst_4) (.of main_call6_call0_v0) id,
    StableHlo.TRef.unary (.of main_call6_call0_v0) (.of main_call6_call0_v1) (broadcastInDim S128 ![] bcast_S_S128),
    StableHlo.TRef.ternary (.of main_call6_v12) (.of main_call6_v11) (.of main_call6_call0_v1) (.of main_v79) (fun p a b => select (broadcastInDim S128 ![] bcast_S_S128 p) a b),
    StableHlo.unary main_v78 main_v80 (broadcastInDim S1x128 ![1] bcast_S128_S1x128_1),
    StableHlo.unary main_v80 main_v81 (broadcastInDim S65536x128 ![0, 1] bcast_S1x128_S65536x128_0_1),
    StableHlo.binary main_v75 main_v81 main_v82 subf,
    StableHlo.nullary main_cst_11 (constant S_ .f32 0x3727C5AC#32),
    StableHlo.unary main_cst_11 main_v83 (broadcastInDim S128 ![] bcast_S_S128),
    StableHlo.binary main_v79 main_v83 main_v84 addf,
    StableHlo.unary main_v84 main_v85 Host.rsqrt,
    StableHlo.unary main_v85 main_v86 (broadcastInDim S1x128 ![1] bcast_S128_S1x128_1),
    StableHlo.unary main_v86 main_v87 (broadcastInDim S65536x128 ![0, 1] bcast_S1x128_S65536x128_0_1),
    StableHlo.binary main_v82 main_v87 main_v88 mulf,
    StableHlo.unary main_arg26 main_v89 (broadcastInDim S1x128 ![1] bcast_S128_S1x128_1),
    StableHlo.unary main_v89 main_v90 (broadcastInDim S65536x128 ![0, 1] bcast_S1x128_S65536x128_0_1),
    StableHlo.binary main_v88 main_v90 main_v91 mulf,
    StableHlo.unary main_arg27 main_v92 (broadcastInDim S1x128 ![1] bcast_S128_S1x128_1),
    StableHlo.unary main_v92 main_v93 (broadcastInDim S65536x128 ![0, 1] bcast_S1x128_S65536x128_0_1),
    StableHlo.binary main_v91 main_v93 main_v94 addf,
    StableHlo.TRef.nullary (.of main_call7_cst) (constant S_ .f32 0x00000000#32),
    StableHlo.TRef.unary (.of main_call7_cst) (.of main_call7_v0) (broadcastInDim S65536x128 ![] bcast_S_S65536x128),
    StableHlo.TRef.binary (.of main_v94) (.of main_call7_v0) (.of main_v95) maximumf ]

set_option maxRecDepth 8192 in
theorem cL2_sub : (cL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem cL2_fresh : (cL2 : List (HloOp τ sig (Elt F))).Forall fun op => op.fresh = ∅ := by
  simp only [List.Forall]; repeat' constructor

abbrev cB1a : List (HloOp τ sig (Elt F)) :=
  [ StableHlo.nullary main_c_12 (constantI S_ 32 0#32),
    StableHlo.unary main_c_12 main_v96 (broadcastInDim S524288 ![] bcast_S_S524288),
    StableHlo.binary main_v11 main_v96 main_v97 (cmpi .slt),
    StableHlo.nullary main_c_13 (constantI S_ 32 65536#32),
    StableHlo.unary main_c_13 main_v98 (broadcastInDim S524288 ![] bcast_S_S524288),
    StableHlo.binary main_v11 main_v98 main_v99 addi,
    StableHlo.ternary main_v97 main_v99 main_v11 main_v100 select,
    StableHlo.unary main_v100 main_v101 (broadcastInDim S524288x1 ![0] bcast_S524288_S524288x1_0),
    StableHlo.binary main_v3 main_v101 main_v102 (fun x i => Host.gather gather_S65536x128_S524288x1_S524288x128_1_0_n_n_0_1_1128 x i),
    StableHlo.binary main_v102 main_v7 main_v103 addf ]

set_option maxRecDepth 8192 in
theorem cB1a_sub : (cB1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem cB1a_fresh : (cB1a : List (HloOp τ sig (Elt F))).Forall fun op => op.fresh = ∅ := by
  simp only [List.Forall]; repeat' constructor

abbrev cB1b : List (HloOp τ sig (Elt F)) :=
  [ StableHlo.TRef.nullary (.of main_call8_cst) (constant S_ .f32 0x00000000#32),
    StableHlo.TRef.unary (.of main_call8_cst) (.of main_call8_v0) (broadcastInDim S524288x128 ![] bcast_S_S524288x128),
    StableHlo.TRef.binary (.of main_v103) (.of main_call8_v0) (.of main_v104) maximumf,
    StableHlo.nullary main_cst_14 (constant S_ .f32 0x00000000#32),
    StableHlo.unary main_cst_14 main_v105 (broadcastInDim S65536x128 ![] bcast_S_S65536x128),
    StableHlo.unary main_v9 main_v106 (broadcastInDim S524288x1 ![0] bcast_S524288_S524288x1_0),
    StableHlo.ternary main_v105 main_v106 main_v104 main_v107 (fun x i u => Host.scatterAdd scatter_S65536x128_S524288x1_S524288x128_1_0_0_1 x i u),
    StableHlo.binary main_v3 main_v107 main_v108 addf,
    StableHlo.binary main_v108 main_arg16 main_v109 (fun l r => Host.dotGeneral dot_S65536x128_S128x128_S65536x128_1_0_0_1_n_n none l r),
    StableHlo.unary main_arg17 main_v110 (broadcastInDim S1x128 ![1] bcast_S128_S1x128_1),
    StableHlo.unary main_v110 main_v111 (broadcastInDim S65536x128 ![0, 1] bcast_S1x128_S65536x128_0_1),
    StableHlo.binary main_v109 main_v111 main_v112 addf,
    StableHlo.TRef.nullary (.of main_call9_cst) (constant S_ .f32 0x00000000#32),
    StableHlo.TRef.unary (.of main_call9_cst) (.of main_call9_v0) (broadcastInDim S65536x128 ![] bcast_S_S65536x128),
    StableHlo.TRef.binary (.of main_v112) (.of main_call9_v0) (.of main_v113) maximumf,
    StableHlo.binary main_v113 main_arg18 main_v114 (fun l r => Host.dotGeneral dot_S65536x128_S128x128_S65536x128_1_0_0_1_n_n none l r),
    StableHlo.unary main_arg19 main_v115 (broadcastInDim S1x128 ![1] bcast_S128_S1x128_1),
    StableHlo.unary main_v115 main_v116 (broadcastInDim S65536x128 ![0, 1] bcast_S1x128_S65536x128_0_1),
    StableHlo.binary main_v114 main_v116 main_v117 addf,
    StableHlo.nullary main_cst_15 (constant S_ .f32 0x00000000#32),
    StableHlo.binary main_v117 main_cst_15 main_v118 (fun x v => Host.reduceAdd x v reducesTo_S65536x128_S128_d0 h_S_),
    StableHlo.nullary main_cst_16 (constant S_ .f32 0x47800000#32),
    StableHlo.unary main_cst_16 main_v119 (broadcastInDim S128 ![] bcast_S_S128),
    StableHlo.binary main_v118 main_v119 main_v120 Host.divf,
    StableHlo.nullary main_c_17 (constantI S_ 32 0#32),
    StableHlo.TRef.nullary (.of main_call10_cst) (constant S_ .f32 0x00000000#32),
    StableHlo.TRef.binary (.of main_v117) (.of main_call10_cst) (.of main_call10_v0) (fun x v => Host.reduceAdd x v reducesTo_S65536x128_S128_d0 h_S_),
    StableHlo.TRef.unary (.of main_call10_v0 : StableHlo.TRef sig ⟨S128, .f32⟩) (.of main_call10_v1 : StableHlo.TRef sig ⟨S1x128, .f32⟩) (broadcastInDim S1x128 ![1] bcast_S128_S1x128_1),
    StableHlo.TRef.nullary (.of main_call10_cst_0) (constant S_ .f32 0x47800000#32),
    StableHlo.TRef.unary (.of main_call10_cst_0) (.of main_call10_v2) (broadcastInDim S1x128 ![] bcast_S_S1x128),
    StableHlo.TRef.binary (.of main_call10_v1) (.of main_call10_v2) (.of main_call10_v3) Host.divf,
    StableHlo.TRef.unary (.of main_call10_v3 : StableHlo.TRef sig ⟨S1x128, .f32⟩) (.of main_call10_v4 : StableHlo.TRef sig ⟨S65536x128, .f32⟩) (broadcastInDim S65536x128 ![0, 1] bcast_S1x128_S65536x128_0_1),
    StableHlo.TRef.binary (.of main_v117) (.of main_call10_v4) (.of main_call10_v5) subf,
    StableHlo.TRef.binary (.of main_call10_v5) (.of main_call10_v5) (.of main_call10_v6) mulf,
    StableHlo.TRef.unary (.of main_c_17) (.of main_call10_v7) (sitofp .f32),
    StableHlo.TRef.nullary (.of main_call10_cst_1) (constant S_ .f32 0x47800000#32),
    StableHlo.TRef.binary (.of main_call10_cst_1) (.of main_call10_v7) (.of main_call10_v8) subf,
    StableHlo.TRef.nullary (.of main_call10_cst_2) (constant S_ .f32 0x00000000#32),
    StableHlo.TRef.binary (.of main_call10_v6) (.of main_call10_cst_2) (.of main_call10_v9) (fun x v => Host.reduceAdd x v reducesTo_S65536x128_S128_d0 h_S_),
    StableHlo.TRef.unary (.of main_call10_v8) (.of main_call10_v10) (broadcastInDim S128 ![] bcast_S_S128),
    StableHlo.TRef.binary (.of main_call10_v9) (.of main_call10_v10) (.of main_call10_v11) Host.divf,
    StableHlo.TRef.nullary (.of main_call10_cst_3) (constant S_ .f32 0x00000000#32),
    StableHlo.TRef.binary (.of main_call10_v8) (.of main_call10_cst_3) (.of main_call10_v12) (cmpf .ogt),
    StableHlo.TRef.nullary (.of main_call10_cst_4) (constant S_ .f32 0x7FC00000#32),
    StableHlo.TRef.unary (.of main_call10_cst_4) (.of main_call10_call0_v0) id,
    StableHlo.TRef.unary (.of main_call10_call0_v0) (.of main_call10_call0_v1) (broadcastInDim S128 ![] bcast_S_S128),
    StableHlo.TRef.ternary (.of main_call10_v12) (.of main_call10_v11) (.of main_call10_call0_v1) (.of main_v121) (fun p a b => select (broadcastInDim S128 ![] bcast_S_S128 p) a b),
    StableHlo.unary main_v120 main_v122 (broadcastInDim S1x128 ![1] bcast_S128_S1x128_1),
    StableHlo.unary main_v122 main_v123 (broadcastInDim S65536x128 ![0, 1] bcast_S1x128_S65536x128_0_1),
    StableHlo.binary main_v117 main_v123 main_v124 subf,
    StableHlo.nullary main_cst_18 (constant S_ .f32 0x3727C5AC#32),
    StableHlo.unary main_cst_18 main_v125 (broadcastInDim S128 ![] bcast_S_S128),
    StableHlo.binary main_v121 main_v125 main_v126 addf,
    StableHlo.unary main_v126 main_v127 Host.rsqrt,
    StableHlo.unary main_v127 main_v128 (broadcastInDim S1x128 ![1] bcast_S128_S1x128_1),
    StableHlo.unary main_v128 main_v129 (broadcastInDim S65536x128 ![0, 1] bcast_S1x128_S65536x128_0_1),
    StableHlo.binary main_v124 main_v129 main_v130 mulf,
    StableHlo.unary main_arg28 main_v131 (broadcastInDim S1x128 ![1] bcast_S128_S1x128_1),
    StableHlo.unary main_v131 main_v132 (broadcastInDim S65536x128 ![0, 1] bcast_S1x128_S65536x128_0_1),
    StableHlo.binary main_v130 main_v132 main_v133 mulf,
    StableHlo.unary main_arg29 main_v134 (broadcastInDim S1x128 ![1] bcast_S128_S1x128_1),
    StableHlo.unary main_v134 main_v135 (broadcastInDim S65536x128 ![0, 1] bcast_S1x128_S65536x128_0_1),
    StableHlo.binary main_v133 main_v135 main_v136 addf,
    StableHlo.TRef.nullary (.of main_call11_cst) (constant S_ .f32 0x00000000#32),
    StableHlo.TRef.unary (.of main_call11_cst) (.of main_call11_v0) (broadcastInDim S65536x128 ![] bcast_S_S65536x128),
    StableHlo.TRef.binary (.of main_v136) (.of main_call11_v0) (.of main_v137) maximumf ]

set_option maxRecDepth 8192 in
theorem cB1b_sub : (cB1b : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem cB1b_fresh : (cB1b : List (HloOp τ sig (Elt F))).Forall fun op => op.fresh = ∅ := by
  simp only [List.Forall]; repeat' constructor

abbrev cB2a : List (HloOp τ sig (Elt F)) :=
  [ StableHlo.nullary main_c_19 (constantI S_ 32 0#32),
    StableHlo.unary main_c_19 main_v138 (broadcastInDim S524288 ![] bcast_S_S524288),
    StableHlo.binary main_v11 main_v138 main_v139 (cmpi .slt),
    StableHlo.nullary main_c_20 (constantI S_ 32 65536#32),
    StableHlo.unary main_c_20 main_v140 (broadcastInDim S524288 ![] bcast_S_S524288),
    StableHlo.binary main_v11 main_v140 main_v141 addi,
    StableHlo.ternary main_v139 main_v141 main_v11 main_v142 select,
    StableHlo.unary main_v142 main_v143 (broadcastInDim S524288x1 ![0] bcast_S524288_S524288x1_0),
    StableHlo.binary main_v137 main_v143 main_v144 (fun x i => Host.gather gather_S65536x128_S524288x1_S524288x128_1_0_n_n_0_1_1128 x i),
    StableHlo.binary main_v144 main_v7 main_v145 addf,
    StableHlo.TRef.nullary (.of main_call12_cst) (constant S_ .f32 0x00000000#32),
    StableHlo.TRef.unary (.of main_call12_cst) (.of main_call12_v0) (broadcastInDim S524288x128 ![] bcast_S_S524288x128),
    StableHlo.TRef.binary (.of main_v145) (.of main_call12_v0) (.of main_v146) maximumf,
    StableHlo.nullary main_cst_21 (constant S_ .f32 0x00000000#32),
    StableHlo.unary main_cst_21 main_v147 (broadcastInDim S65536x128 ![] bcast_S_S65536x128),
    StableHlo.unary main_v9 main_v148 (broadcastInDim S524288x1 ![0] bcast_S524288_S524288x1_0),
    StableHlo.ternary main_v147 main_v148 main_v146 main_v149 (fun x i u => Host.scatterAdd scatter_S65536x128_S524288x1_S524288x128_1_0_0_1 x i u),
    StableHlo.binary main_v137 main_v149 main_v150 addf,
    StableHlo.binary main_v150 main_arg20 main_v151 (fun l r => Host.dotGeneral dot_S65536x128_S128x128_S65536x128_1_0_0_1_n_n none l r),
    StableHlo.unary main_arg21 main_v152 (broadcastInDim S1x128 ![1] bcast_S128_S1x128_1),
    StableHlo.unary main_v152 main_v153 (broadcastInDim S65536x128 ![0, 1] bcast_S1x128_S65536x128_0_1),
    StableHlo.binary main_v151 main_v153 main_v154 addf,
    StableHlo.TRef.nullary (.of main_call13_cst) (constant S_ .f32 0x00000000#32),
    StableHlo.TRef.unary (.of main_call13_cst) (.of main_call13_v0) (broadcastInDim S65536x128 ![] bcast_S_S65536x128),
    StableHlo.TRef.binary (.of main_v154) (.of main_call13_v0) (.of main_v155) maximumf ]

set_option maxRecDepth 8192 in
theorem cB2a_sub : (cB2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub ..⟩

set_option maxRecDepth 8192 in
theorem cB2a_fresh : (cB2a : List (HloOp τ sig (Elt F))).Forall fun op => op.fresh = ∅ := by
  simp only [List.Forall]; repeat' constructor

abbrev cB2b : List (HloOp τ sig (Elt F)) :=
  [ StableHlo.binary main_v155 main_arg22 main_v156 (fun l r => Host.dotGeneral dot_S65536x128_S128x128_S65536x128_1_0_0_1_n_n none l r),
    StableHlo.unary main_arg23 main_v157 (broadcastInDim S1x128 ![1] bcast_S128_S1x128_1),
    StableHlo.unary main_v157 main_v158 (broadcastInDim S65536x128 ![0, 1] bcast_S1x128_S65536x128_0_1),
    StableHlo.binary main_v156 main_v158 main_v159 addf,
    StableHlo.nullary main_cst_22 (constant S_ .f32 0x00000000#32),
    StableHlo.binary main_v159 main_cst_22 main_v160 (fun x v => Host.reduceAdd x v reducesTo_S65536x128_S128_d0 h_S_),
    StableHlo.nullary main_cst_23 (constant S_ .f32 0x47800000#32),
    StableHlo.unary main_cst_23 main_v161 (broadcastInDim S128 ![] bcast_S_S128),
    StableHlo.binary main_v160 main_v161 main_v162 Host.divf,
    StableHlo.nullary main_c_24 (constantI S_ 32 0#32),
    StableHlo.TRef.nullary (.of main_call14_cst) (constant S_ .f32 0x00000000#32),
    StableHlo.TRef.binary (.of main_v159) (.of main_call14_cst) (.of main_call14_v0) (fun x v => Host.reduceAdd x v reducesTo_S65536x128_S128_d0 h_S_),
    StableHlo.TRef.unary (.of main_call14_v0 : StableHlo.TRef sig ⟨S128, .f32⟩) (.of main_call14_v1 : StableHlo.TRef sig ⟨S1x128, .f32⟩) (broadcastInDim S1x128 ![1] bcast_S128_S1x128_1),
    StableHlo.TRef.nullary (.of main_call14_cst_0) (constant S_ .f32 0x47800000#32),
    StableHlo.TRef.unary (.of main_call14_cst_0) (.of main_call14_v2) (broadcastInDim S1x128 ![] bcast_S_S1x128),
    StableHlo.TRef.binary (.of main_call14_v1) (.of main_call14_v2) (.of main_call14_v3) Host.divf,
    StableHlo.TRef.unary (.of main_call14_v3 : StableHlo.TRef sig ⟨S1x128, .f32⟩) (.of main_call14_v4 : StableHlo.TRef sig ⟨S65536x128, .f32⟩) (broadcastInDim S65536x128 ![0, 1] bcast_S1x128_S65536x128_0_1),
    StableHlo.TRef.binary (.of main_v159) (.of main_call14_v4) (.of main_call14_v5) subf,
    StableHlo.TRef.binary (.of main_call14_v5) (.of main_call14_v5) (.of main_call14_v6) mulf,
    StableHlo.TRef.unary (.of main_c_24) (.of main_call14_v7) (sitofp .f32),
    StableHlo.TRef.nullary (.of main_call14_cst_1) (constant S_ .f32 0x47800000#32),
    StableHlo.TRef.binary (.of main_call14_cst_1) (.of main_call14_v7) (.of main_call14_v8) subf,
    StableHlo.TRef.nullary (.of main_call14_cst_2) (constant S_ .f32 0x00000000#32),
    StableHlo.TRef.binary (.of main_call14_v6) (.of main_call14_cst_2) (.of main_call14_v9) (fun x v => Host.reduceAdd x v reducesTo_S65536x128_S128_d0 h_S_),
    StableHlo.TRef.unary (.of main_call14_v8) (.of main_call14_v10) (broadcastInDim S128 ![] bcast_S_S128),
    StableHlo.TRef.binary (.of main_call14_v9) (.of main_call14_v10) (.of main_call14_v11) Host.divf,
    StableHlo.TRef.nullary (.of main_call14_cst_3) (constant S_ .f32 0x00000000#32),
    StableHlo.TRef.binary (.of main_call14_v8) (.of main_call14_cst_3) (.of main_call14_v12) (cmpf .ogt),
    StableHlo.TRef.nullary (.of main_call14_cst_4) (constant S_ .f32 0x7FC00000#32),
    StableHlo.TRef.unary (.of main_call14_cst_4) (.of main_call14_call0_v0) id,
    StableHlo.TRef.unary (.of main_call14_call0_v0) (.of main_call14_call0_v1) (broadcastInDim S128 ![] bcast_S_S128),
    StableHlo.TRef.ternary (.of main_call14_v12) (.of main_call14_v11) (.of main_call14_call0_v1) (.of main_v163) (fun p a b => select (broadcastInDim S128 ![] bcast_S_S128 p) a b),
    StableHlo.unary main_v162 main_v164 (broadcastInDim S1x128 ![1] bcast_S128_S1x128_1),
    StableHlo.unary main_v164 main_v165 (broadcastInDim S65536x128 ![0, 1] bcast_S1x128_S65536x128_0_1),
    StableHlo.binary main_v159 main_v165 main_v166 subf,
    StableHlo.nullary main_cst_25 (constant S_ .f32 0x3727C5AC#32),
    StableHlo.unary main_cst_25 main_v167 (broadcastInDim S128 ![] bcast_S_S128),
    StableHlo.binary main_v163 main_v167 main_v168 addf,
    StableHlo.unary main_v168 main_v169 Host.rsqrt,
    StableHlo.unary main_v169 main_v170 (broadcastInDim S1x128 ![1] bcast_S128_S1x128_1),
    StableHlo.unary main_v170 main_v171 (broadcastInDim S65536x128 ![0, 1] bcast_S1x128_S65536x128_0_1),
    StableHlo.binary main_v166 main_v171 main_v172 mulf,
    StableHlo.unary main_arg30 main_v173 (broadcastInDim S1x128 ![1] bcast_S128_S1x128_1),
    StableHlo.unary main_v173 main_v174 (broadcastInDim S65536x128 ![0, 1] bcast_S1x128_S65536x128_0_1),
    StableHlo.binary main_v172 main_v174 main_v175 mulf,
    StableHlo.unary main_arg31 main_v176 (broadcastInDim S1x128 ![1] bcast_S128_S1x128_1),
    StableHlo.unary main_v176 main_v177 (broadcastInDim S65536x128 ![0, 1] bcast_S1x128_S65536x128_0_1),
    StableHlo.binary main_v175 main_v177 main_v178 addf,
    StableHlo.TRef.nullary (.of main_call15_cst) (constant S_ .f32 0x00000000#32),
    StableHlo.TRef.unary (.of main_call15_cst) (.of main_call15_v0) (broadcastInDim S65536x128 ![] bcast_S_S65536x128),
    StableHlo.TRef.binary (.of main_v178) (.of main_call15_v0) (.of main_v179) maximumf ]

set_option maxRecDepth 8192 in
theorem cB2b_sub : (cB2b : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem cB2b_fresh : (cB2b : List (HloOp τ sig (Elt F))).Forall fun op => op.fresh = ∅ := by
  simp only [List.Forall]; repeat' constructor

abbrev cT : List (HloOp τ sig (Elt F)) :=
  [ StableHlo.binary main_v95 main_v179 main_v180 (fun a b => concatenate S65536x256 1 [⟨S65536x128, a⟩, ⟨S65536x128, b⟩] concatenates_S65536x128_S65536x128_S65536x256_d1),
    StableHlo.nullary main_cst_26 (constant S_ .f32 0x00000000#32),
    StableHlo.unary main_cst_26 main_v181 (broadcastInDim S64x256 ![] bcast_S_S64x256),
    StableHlo.unary main_arg3 main_v182 (broadcastInDim S65536x1 ![0] bcast_S65536_S65536x1_0),
    StableHlo.ternary main_v181 main_v182 main_v180 main_v183 (fun x i u => Host.scatterAdd scatter_S64x256_S65536x1_S65536x256_1_0_0_1 x i u),
    StableHlo.binary main_v183 main_arg32 main_v184 (fun l r => Host.dotGeneral dot_S64x256_S256x128_S64x128_1_0_0_1_n_n none l r),
    StableHlo.unary main_arg33 main_v185 (broadcastInDim S1x128 ![1] bcast_S128_S1x128_1),
    StableHlo.unary main_v185 main_v186 (broadcastInDim S64x128 ![0, 1] bcast_S1x128_S64x128_0_1),
    StableHlo.binary main_v184 main_v186 main_v187 addf,
    StableHlo.TRef.nullary (.of main_call16_cst) (constant S_ .f32 0x00000000#32),
    StableHlo.TRef.unary (.of main_call16_cst) (.of main_call16_v0) (broadcastInDim S64x128 ![] bcast_S_S64x128),
    StableHlo.TRef.binary (.of main_v187) (.of main_call16_v0) (.of main_v188) maximumf,
    StableHlo.binary main_v188 main_arg34 main_v189 (fun l r => Host.dotGeneral dot_S64x128_S128x1_S64x1_1_0_0_1_n_n none l r),
    StableHlo.unary main_arg35 main_v190 (broadcastInDim S1x1 ![1] bcast_S1_S1x1_1),
    StableHlo.unary main_v190 main_v191 (broadcastInDim S64x1 ![0, 1] bcast_S1x1_S64x1_0_1),
    StableHlo.binary main_v189 main_v191 main_v192 addf,
    StableHlo.reshape main_v192 main_v193 rfl shapeCasts_S64x1_S64 ]

set_option maxRecDepth 8192 in
theorem cT_sub : (cT : List (HloOp τ sig (Elt F))).Forall fun op => op.bufs ⊆ tcRefs τ sig :=
  ⟨binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

set_option maxRecDepth 8192 in
theorem cT_fresh : (cT : List (HloOp τ sig (Elt F))).Forall fun op => op.fresh = ∅ := by
  simp only [List.Forall]; repeat' constructor

def opsP0 : List (HloOp τ sig (Elt F)) := cC0 ++ cL1a
def opsP1 : List (HloOp τ sig (Elt F)) := cL1b ++ (cL2 ++ cB1a)
def opsP2 : List (HloOp τ sig (Elt F)) := cB1b ++ cB2a
def opsP3 : List (HloOp τ sig (Elt F)) := cB2b ++ cT

def ops : List (HloOp τ sig (Elt F)) := opsP0 ++ opsP1 ++ opsP2 ++ opsP3

end Cert.ReferenceIdeal.Run

end
-- ==== Proof.RefRun.lean ====
import proofs.«426861_j66571993088626_2_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem part0_eq (c : Dev nD) : main_part0 (F := F) c = StableHlo.seq opsP0 := rfl

set_option maxRecDepth 8192 in
theorem part1_eq (c : Dev nD) : main_part1 (F := F) c = StableHlo.seq opsP1 := rfl

set_option maxRecDepth 8192 in
theorem part2_eq (c : Dev nD) : main_part2 (F := F) c = StableHlo.seq opsP2 := rfl

set_option maxRecDepth 8192 in
theorem part3_eq (c : Dev nD) : main_part3 (F := F) c = StableHlo.seq opsP3 := rfl

-- The program runs its four printed parts in order; a sequence of concatenated lists is the sequences in order.
theorem main_eq (c : Dev nD) : main (F := F) c = StableHlo.seq ops := by
  simp only [ops, seq_append, ← part0_eq c, ← part1_eq c, ← part2_eq c, ← part3_eq c, bind_assoc]
  rfl

theorem scopedRefs_eq : (Finset.univ.filter fun b : Ref sig .tc => b.isScoped) = ∅ := by decide
theorem scopedSems_eq : (Finset.univ.filter fun sm : SemLoc sig => sm.isScoped .tc) = ∅ := by decide

-- What holds of every operation of each of the nine pieces holds of every operation of the line.
theorem forall_ops {p : HloOp τ sig (Elt F) → Prop} (h1 : cC0.Forall p) (h2 : cL1a.Forall p) (h3 : cL1b.Forall p)
    (h4 : cL2.Forall p) (h5 : cB1a.Forall p) (h6 : cB1b.Forall p) (h7 : cB2a.Forall p) (h8 : cB2b.Forall p)
    (h9 : cT.Forall p) : (ops : List (HloOp τ sig (Elt F))).Forall p :=
  forall_append (forall_append (forall_append (forall_append h1 h2) (forall_append h3 (forall_append h4 h5)))
    (forall_append h6 h7)) (forall_append h8 h9)

-- Every weakly fair execution of the program ends with each buffer at the fold of the operations over the launch contents.
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  run_seq scopedRefs_eq scopedSems_eq defs main (fun _ => ops) main_eq
    (fun _ => forall_ops cC0_sub cL1a_sub cL1b_sub cL2_sub cB1a_sub cB1b_sub cB2a_sub cB2b_sub cT_sub) m ρ
    (fun _ => List.forall_iff_forall_mem.mp
      (forall_ops cC0_fresh cL1a_fresh cL1b_fresh cL2_fresh cB1a_fresh cB1b_fresh cB2a_fresh cB2b_fresh cT_fresh))

end Cert.ReferenceIdeal.Run

end
-- ==== Proof.RefVal.lean ====
import proofs.«426861_j66571993088626_2_alg».proof.Proof.RefOps
import proofs.«426861_j66571993088626_2_alg».proof.Proof.Spec
import Idealize.ShloMosaic.Lib.StableHlo.Run

noncomputable section

namespace Cert.ReferenceIdeal.RefVal

open Cert.ReferenceIdeal Cert.ReferenceIdeal.Gen Cert.ReferenceIdeal.Run Idealize.ShloMosaic Idealize.ShloMosaic.StableHlo

variable {F : FTy → Type} [FloatOps F]

theorem after_append (A B : List (HloOp τ sig (Elt F))) (V : Valuation τ sig (Elt F)) :
    StableHlo.after (A ++ B) V = StableHlo.after B (StableHlo.after A V) := by
  induction A generalizing V with
  | nil => rfl
  | cons op A ih => simp only [List.cons_append, after_cons, ih]

theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

-- The line of operations, cut where the network's stages end (two stages fall across a cut of the printed program).
theorem ops_eq : (ops : List (HloOp τ sig (Elt F)))
    = cC0 ++ (cL1a ++ (cL1b ++ (cL2 ++ (cB1a ++ (cB1b ++ (cB2a ++ (cB2b ++ cT))))))) := by
  simp only [ops, opsP0, opsP1, opsP2, opsP3, List.append_assoc]

abbrev WC0 : List (Ref sig .tc) :=
  [main_v0, main_v1, main_v2, main_v3, main_v4, main_v5, main_v6, main_v7, main_v8, main_v9, main_v10, main_v11]

set_option maxRecDepth 8192 in
theorem cC0_writes : (cC0 : List (HloOp τ sig (Elt F))).Forall fun op =>
    op.writes ⊆ (WC0.map (Proc.devRef (τ := τ) .tc)).toFinset := by
  simp only [List.Forall]; repeat' apply And.intro
  all_goals exact single_sub (by decide)

abbrev WL1a : List (Ref sig .tc) :=
  [main_c, main_v12, main_v13, main_c_0, main_v14, main_v15, main_v16, main_v17, main_v18, main_v19, main_call0_cst,
   main_call0_v0, main_v20, main_cst, main_v21, main_v22, main_v23, main_v24, main_v25, main_v26, main_v27,
   main_v28, main_call1_cst, main_call1_v0, main_v29, main_v30, main_v31, main_v32, main_v33, main_cst_1, main_v34,
   main_cst_2, main_v35, main_v36, main_c_3, main_call2_cst, main_call2_v0, main_call2_v1, main_call2_cst_0,
   main_call2_v2, main_call2_v3, main_call2_v4, main_call2_v5, main_call2_v6, main_call2_v7, main_call2_cst_1,
   main_call2_v8, main_call2_cst_2, main_call2_v9, main_call2_v10, main_call2_v11, main_call2_cst_3, main_call2_v12,
   main_call2_cst_4, main_call2_call0_v0, main_call2_call0_v1, main_v37, main_v38, main_v39, main_v40, main_cst_4,
   main_v41, main_v42, main_v43, main_v44, main_v45, main_v46, main_v47, main_v48, main_v49, main_v50, main_v51,
   main_v52]

set_option maxRecDepth 8192 in
theorem cL1a_writes : (cL1a : List (HloOp τ sig (Elt F))).Forall fun op =>
    op.writes ⊆ (WL1a.map (Proc.devRef (τ := τ) .tc)).toFinset := by
  simp only [List.Forall]; repeat' apply And.intro
  all_goals exact single_sub (by decide)

abbrev WL1b : List (Ref sig .tc) :=
  [main_call3_cst, main_call3_v0, main_v53]

set_option maxRecDepth 8192 in
theorem cL1b_writes : (cL1b : List (HloOp τ sig (Elt F))).Forall fun op =>
    op.writes ⊆ (WL1b.map (Proc.devRef (τ := τ) .tc)).toFinset := by
  simp only [List.Forall]; repeat' apply And.intro
  all_goals exact single_sub (by decide)

abbrev WL2 : List (Ref sig .tc) :=
  [main_c_5, main_v54, main_v55, main_c_6, main_v56, main_v57, main_v58, main_v59, main_v60, main_v61,
   main_call4_cst, main_call4_v0, main_v62, main_cst_7, main_v63, main_v64, main_v65, main_v66, main_v67, main_v68,
   main_v69, main_v70, main_call5_cst, main_call5_v0, main_v71, main_v72, main_v73, main_v74, main_v75, main_cst_8,
   main_v76, main_cst_9, main_v77, main_v78, main_c_10, main_call6_cst, main_call6_v0, main_call6_v1,
   main_call6_cst_0, main_call6_v2, main_call6_v3, main_call6_v4, main_call6_v5, main_call6_v6, main_call6_v7,
   main_call6_cst_1, main_call6_v8, main_call6_cst_2, main_call6_v9, main_call6_v10, main_call6_v11,
   main_call6_cst_3, main_call6_v12, main_call6_cst_4, main_call6_call0_v0, main_call6_call0_v1, main_v79, main_v80,
   main_v81, main_v82, main_cst_11, main_v83, main_v84, main_v85, main_v86, main_v87, main_v88, main_v89, main_v90,
   main_v91, main_v92, main_v93, main_v94, main_call7_cst, main_call7_v0, main_v95]

set_option maxRecDepth 8192 in
theorem cL2_writes : (cL2 : List (HloOp τ sig (Elt F))).Forall fun op =>
    op.writes ⊆ (WL2.map (Proc.devRef (τ := τ) .tc)).toFinset := by
  simp only [List.Forall]; repeat' apply And.intro
  all_goals exact single_sub (by decide)

abbrev WB1a : List (Ref sig .tc) :=
  [main_c_12, main_v96, main_v97, main_c_13, main_v98, main_v99, main_v100, main_v101, main_v102, main_v103]

set_option maxRecDepth 8192 in
theorem cB1a_writes : (cB1a : List (HloOp τ sig (Elt F))).Forall fun op =>
    op.writes ⊆ (WB1a.map (Proc.devRef (τ := τ) .tc)).toFinset := by
  simp only [List.Forall]; repeat' apply And.intro
  all_goals exact single_sub (by decide)

abbrev WB1b : List (Ref sig .tc) :=
  [main_call8_cst, main_call8_v0, main_v104, main_cst_14, main_v105, main_v106, main_v107, main_v108, main_v109,
   main_v110, main_v111, main_v112, main_call9_cst, main_call9_v0, main_v113, main_v114, main_v115, main_v116,
   main_v117, main_cst_15, main_v118, main_cst_16, main_v119, main_v120, main_c_17, main_call10_cst, main_call10_v0,
   main_call10_v1, main_call10_cst_0, main_call10_v2, main_call10_v3, main_call10_v4, main_call10_v5,
   main_call10_v6, main_call10_v7, main_call10_cst_1, main_call10_v8, main_call10_cst_2, main_call10_v9,
   main_call10_v10, main_call10_v11, main_call10_cst_3, main_call10_v12, main_call10_cst_4, main_call10_call0_v0,
   main_call10_call0_v1, main_v121, main_v122, main_v123, main_v124, main_cst_18, main_v125, main_v126, main_v127,
   main_v128, main_v129, main_v130, main_v131, main_v132, main_v133, main_v134, main_v135, main_v136,
   main_call11_cst, main_call11_v0, main_v137]

set_option maxRecDepth 8192 in
theorem cB1b_writes : (cB1b : List (HloOp τ sig (Elt F))).Forall fun op =>
    op.writes ⊆ (WB1b.map (Proc.devRef (τ := τ) .tc)).toFinset := by
  simp only [List.Forall]; repeat' apply And.intro
  all_goals exact single_sub (by decide)

abbrev WB2a : List (Ref sig .tc) :=
  [main_c_19, main_v138, main_v139, main_c_20, main_v140, main_v141, main_v142, main_v143, main_v144, main_v145,
   main_call12_cst, main_call12_v0, main_v146, main_cst_21, main_v147, main_v148, main_v149, main_v150, main_v151,
   main_v152, main_v153, main_v154, main_call13_cst, main_call13_v0, main_v155]

set_option maxRecDepth 8192 in
theorem cB2a_writes : (cB2a : List (HloOp τ sig (Elt F))).Forall fun op =>
    op.writes ⊆ (WB2a.map (Proc.devRef (τ := τ) .tc)).toFinset := by
  simp only [List.Forall]; repeat' apply And.intro
  all_goals exact single_sub (by decide)

abbrev WB2b : List (Ref sig .tc) :=
  [main_v156, main_v157, main_v158, main_v159, main_cst_22, main_v160, main_cst_23, main_v161, main_v162, main_c_24,
   main_call14_cst, main_call14_v0, main_call14_v1, main_call14_cst_0, main_call14_v2, main_call14_v3,
   main_call14_v4, main_call14_v5, main_call14_v6, main_call14_v7, main_call14_cst_1, main_call14_v8,
   main_call14_cst_2, main_call14_v9, main_call14_v10, main_call14_v11, main_call14_cst_3, main_call14_v12,
   main_call14_cst_4, main_call14_call0_v0, main_call14_call0_v1, main_v163, main_v164, main_v165, main_v166,
   main_cst_25, main_v167, main_v168, main_v169, main_v170, main_v171, main_v172, main_v173, main_v174, main_v175,
   main_v176, main_v177, main_v178, main_call15_cst, main_call15_v0, main_v179]

set_option maxRecDepth 8192 in
theorem cB2b_writes : (cB2b : List (HloOp τ sig (Elt F))).Forall fun op =>
    op.writes ⊆ (WB2b.map (Proc.devRef (τ := τ) .tc)).toFinset := by
  simp only [List.Forall]; repeat' apply And.intro
  all_goals exact single_sub (by decide)

abbrev WT : List (Ref sig .tc) :=
  [main_v180, main_cst_26, main_v181, main_v182, main_v183, main_v184, main_v185, main_v186, main_v187,
   main_call16_cst, main_call16_v0, main_v188, main_v189, main_v190, main_v191, main_v192, main_v193]

set_option maxRecDepth 8192 in
theorem cT_writes : (cT : List (HloOp τ sig (Elt F))).Forall fun op =>
    op.writes ⊆ (WT.map (Proc.devRef (τ := τ) .tc)).toFinset := by
  simp only [List.Forall]; repeat' apply And.intro
  all_goals exact single_sub (by decide)

-- A stretch leaves a buffer it does not write as it found it.
theorem keepC0 (V : Valuation τ sig (Elt F)) {r : Ref sig .tc} (hr : r ∉ WC0) :
    StableHlo.after cC0 V (no_index (Proc.devRef .tc r)) = V (Proc.devRef .tc r) :=
  after_of_writes_sub cC0 V cC0_writes hr

theorem keepL1 (V : Valuation τ sig (Elt F)) {r : Ref sig .tc} (ha : r ∉ WL1a) (hb : r ∉ WL1b) :
    StableHlo.after cL1b (StableHlo.after cL1a V) (no_index (Proc.devRef .tc r)) = V (Proc.devRef .tc r) :=
  (after_of_writes_sub cL1b _ cL1b_writes hb).trans (after_of_writes_sub cL1a V cL1a_writes ha)

theorem keepL2 (V : Valuation τ sig (Elt F)) {r : Ref sig .tc} (hr : r ∉ WL2) :
    StableHlo.after cL2 V (no_index (Proc.devRef .tc r)) = V (Proc.devRef .tc r) :=
  after_of_writes_sub cL2 V cL2_writes hr

theorem keepB1 (V : Valuation τ sig (Elt F)) {r : Ref sig .tc} (ha : r ∉ WB1a) (hb : r ∉ WB1b) :
    StableHlo.after cB1b (StableHlo.after cB1a V) (no_index (Proc.devRef .tc r)) = V (Proc.devRef .tc r) :=
  (after_of_writes_sub cB1b _ cB1b_writes hb).trans (after_of_writes_sub cB1a V cB1a_writes ha)

theorem keepB2 (V : Valuation τ sig (Elt F)) {r : Ref sig .tc} (ha : r ∉ WB2a) (hb : r ∉ WB2b) :
    StableHlo.after cB2b (StableHlo.after cB2a V) (no_index (Proc.devRef .tc r)) = V (Proc.devRef .tc r) :=
  (after_of_writes_sub cB2b _ cB2b_writes hb).trans (after_of_writes_sub cB2a V cB2a_writes ha)

attribute [local irreducible] Host.gather Host.scatterAdd Host.reduceAdd Host.divf Host.rsqrt in
theorem C0_v3 (V : Valuation τ sig (Elt F)) :
    StableHlo.after cC0 V (Proc.devRef .tc main_v3)
      = Cert.Spec.linN (V (Proc.devRef .tc main_arg0)) (V (Proc.devRef .tc main_arg4)) (V (Proc.devRef .tc main_arg5)) := by
  after_results_simp
  rfl

attribute [local irreducible] Host.gather Host.scatterAdd Host.reduceAdd Host.divf Host.rsqrt in
theorem C0_v7 (V : Valuation τ sig (Elt F)) :
    StableHlo.after cC0 V (Proc.devRef .tc main_v7)
      = Cert.Spec.linE (V (Proc.devRef .tc main_arg1)) (V (Proc.devRef .tc main_arg6)) (V (Proc.devRef .tc main_arg7)) := by
  after_results_simp
  rfl

theorem C0_v9 (V : Valuation τ sig (Elt F)) :
    StableHlo.after cC0 V (Proc.devRef .tc main_v9) = Cert.Spec.srcOf (V (Proc.devRef .tc main_arg2)) := by
  after_results_simp
  rfl

theorem C0_v11 (V : Valuation τ sig (Elt F)) :
    StableHlo.after cC0 V (Proc.devRef .tc main_v11) = Cert.Spec.dstOf (V (Proc.devRef .tc main_arg2)) := by
  after_results_simp
  rfl

attribute [local irreducible] Host.gather Host.scatterAdd Host.reduceAdd Host.divf Host.rsqrt in
set_option maxHeartbeats 4000000 in
theorem L1_v53 (V : Valuation τ sig (Elt F)) :
    StableHlo.after cL1b (StableHlo.after cL1a V) (Proc.devRef .tc main_v53)
      = Cert.Spec.layer (V (Proc.devRef .tc main_v3)) (V (Proc.devRef .tc main_v7)) (V (Proc.devRef .tc main_v9)) (V (Proc.devRef .tc main_v11))
          (V (Proc.devRef .tc main_arg8)) (V (Proc.devRef .tc main_arg9)) (V (Proc.devRef .tc main_arg10)) (V (Proc.devRef .tc main_arg11)) (V (Proc.devRef .tc main_arg24)) (V (Proc.devRef .tc main_arg25)) := by
  after_results_simp
  simp only [TRef.ofBuf, TRef.toBuf, cast_eq]
  rfl

attribute [local irreducible] Host.gather Host.scatterAdd Host.reduceAdd Host.divf Host.rsqrt in
set_option maxHeartbeats 4000000 in
theorem L2_v95 (V : Valuation τ sig (Elt F)) :
    StableHlo.after cL2 V (Proc.devRef .tc main_v95)
      = Cert.Spec.layer (V (Proc.devRef .tc main_v53)) (V (Proc.devRef .tc main_v7)) (V (Proc.devRef .tc main_v9)) (V (Proc.devRef .tc main_v11))
          (V (Proc.devRef .tc main_arg12)) (V (Proc.devRef .tc main_arg13)) (V (Proc.devRef .tc main_arg14)) (V (Proc.devRef .tc main_arg15)) (V (Proc.devRef .tc main_arg26)) (V (Proc.devRef .tc main_arg27)) := by
  after_results_simp
  simp only [TRef.ofBuf, TRef.toBuf, cast_eq]
  rfl

attribute [local irreducible] Host.gather Host.scatterAdd Host.reduceAdd Host.divf Host.rsqrt in
set_option maxHeartbeats 4000000 in
theorem B1_v137 (V : Valuation τ sig (Elt F)) :
    StableHlo.after cB1b (StableHlo.after cB1a V) (Proc.devRef .tc main_v137)
      = Cert.Spec.layer (V (Proc.devRef .tc main_v3)) (V (Proc.devRef .tc main_v7)) (V (Proc.devRef .tc main_v11)) (V (Proc.devRef .tc main_v9))
          (V (Proc.devRef .tc main_arg16)) (V (Proc.devRef .tc main_arg17)) (V (Proc.devRef .tc main_arg18)) (V (Proc.devRef .tc main_arg19)) (V (Proc.devRef .tc main_arg28)) (V (Proc.devRef .tc main_arg29)) := by
  after_results_simp
  simp only [TRef.ofBuf, TRef.toBuf, cast_eq]
  rfl

attribute [local irreducible] Host.gather Host.scatterAdd Host.reduceAdd Host.divf Host.rsqrt in
set_option maxHeartbeats 4000000 in
theorem B2_v179 (V : Valuation τ sig (Elt F)) :
    StableHlo.after cB2b (StableHlo.after cB2a V) (Proc.devRef .tc main_v179)
      = Cert.Spec.layer (V (Proc.devRef .tc main_v137)) (V (Proc.devRef .tc main_v7)) (V (Proc.devRef .tc main_v11)) (V (Proc.devRef .tc main_v9))
          (V (Proc.devRef .tc main_arg20)) (V (Proc.devRef .tc main_arg21)) (V (Proc.devRef .tc main_arg22)) (V (Proc.devRef .tc main_arg23)) (V (Proc.devRef .tc main_arg30)) (V (Proc.devRef .tc main_arg31)) := by
  after_results_simp
  simp only [TRef.ofBuf, TRef.toBuf, cast_eq]
  rfl

attribute [local irreducible] Host.gather Host.scatterAdd Host.reduceAdd Host.divf Host.rsqrt in
theorem T_v193 (V : Valuation τ sig (Elt F)) :
    StableHlo.after cT V (Proc.devRef .tc main_v193)
      = Cert.Spec.head (Cert.Spec.pool (V (Proc.devRef .tc main_v95)) (V (Proc.devRef .tc main_v179)) (V (Proc.devRef .tc main_arg3)))
          (V (Proc.devRef .tc main_arg32)) (V (Proc.devRef .tc main_arg33)) (V (Proc.devRef .tc main_arg34)) (V (Proc.devRef .tc main_arg35)) := by
  after_results_simp
  simp only [TRef.ofBuf, TRef.toBuf, cast_eq]
  rfl

-- The network of the 36 argument buffers of some contents.
def GV (V : Valuation τ sig (Elt F)) :=
  Cert.Spec.G (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)) (V (Proc.devRef .tc main_arg33)) (V (Proc.devRef .tc main_arg34)) (V (Proc.devRef .tc main_arg35))

theorem result_gen (V : Valuation τ sig (Elt F)) :
    StableHlo.after ops V (Proc.devRef .tc main_v193) = GV V := by
  rw [ops_eq, after_append, after_append, after_append, after_append, after_append, after_append, after_append,
    after_append, T_v193]
  simp (disch := decide) only [keepB2]
  rw [B2_v179]
  simp (disch := decide) only [keepB1]
  rw [B1_v137]
  simp (disch := decide) only [keepL2]
  rw [L2_v95]
  simp (disch := decide) only [keepL1]
  rw [L1_v53, C0_v3, C0_v7, C0_v9, C0_v11]
  simp (disch := decide) only [keepC0]
  rfl

-- A buffer no operation writes ends the line as it began.
theorem kept (V : Valuation τ sig (Elt F)) {r : Ref sig .tc}
    (h : r ∉ WC0 ++ (WL1a ++ (WL1b ++ (WL2 ++ (WB1a ++ (WB1b ++ (WB2a ++ (WB2b ++ WT)))))))) :
    StableHlo.after ops V (Proc.devRef .tc r) = V (Proc.devRef .tc r) := by
  simp only [List.mem_append, not_or] at h
  obtain ⟨h0, h1, h2, h3, h4, h5, h6, h7, h8⟩ := h
  rw [ops_eq, after_append, after_append, after_append, after_append, after_append, after_append, after_append,
    after_append, after_of_writes_sub cT _ cT_writes h8, after_of_writes_sub cB2b _ cB2b_writes h7,
    after_of_writes_sub cB2a _ cB2a_writes h6, after_of_writes_sub cB1b _ cB1b_writes h5,
    after_of_writes_sub cB1a _ cB1a_writes h4, after_of_writes_sub cL2 _ cL2_writes h3,
    after_of_writes_sub cL1b _ cL1b_writes h2, after_of_writes_sub cL1a _ cL1a_writes h1,
    after_of_writes_sub cC0 _ cC0_writes h0]

end Cert.ReferenceIdeal.RefVal

end
-- ==== Proof.lean ====
import proofs.«426861_j66571993088626_2_alg».proof.Defs
import proofs.«426861_j66571993088626_2_alg».proof.Proof.Gen.Kernel
import proofs.«426861_j66571993088626_2_alg».proof.Proof.Gen.Kernel.Frame
import proofs.«426861_j66571993088626_2_alg».proof.Proof.Gen.KernelIdeal
import proofs.«426861_j66571993088626_2_alg».proof.Proof.Gen.KernelIdeal.Frame
import proofs.«426861_j66571993088626_2_alg».proof.Proof.Gen.ReferenceIdeal
import proofs.«426861_j66571993088626_2_alg».proof.Proof.Gen.Pre_finite_inputs
import proofs.«426861_j66571993088626_2_alg».proof.Proof.Spec
import proofs.«426861_j66571993088626_2_alg».proof.Proof.KRun
import proofs.«426861_j66571993088626_2_alg».proof.Proof.Assemble
import proofs.«426861_j66571993088626_2_alg».proof.Proof.PreFacts
import proofs.«426861_j66571993088626_2_alg».proof.Proof.RefOps
import proofs.«426861_j66571993088626_2_alg».proof.Proof.RefRun
import proofs.«426861_j66571993088626_2_alg».proof.Proof.RefVal
import Idealize.ShloMosaic.Adequacy
import Idealize.ShloMosaic.Init

set_option maxRecDepth 16384

noncomputable section

open Idealize.ShloMosaic Idealize.ShloMosaic.TcCoe Idealize.SL.Sem Cert.Basic

namespace Cert.Proof.Claims

theorem frame_k : Cert.frame_Kernel := fun m ρ _ => Cert.Kernel.Gen.frame m ρ
theorem frame_ki : Cert.frame_KernelIdeal := fun m ρ _ => Cert.KernelIdeal.Gen.frame m ρ

-- The reference's run leaves every buffer at the operations' fold over the launch contents, and no operation writes an argument.
theorem frame_ri : Cert.frame_ReferenceIdeal := fun m ρ _ =>
  (θ_run Cert.ReferenceIdeal.defs _ _).mono (fun r h c => by
    and_intros <;> exact (h c _).trans (Cert.ReferenceIdeal.RefVal.kept _ (by decide)))
    (Cert.ReferenceIdeal.Run.run (F := Ideal) m ρ)

theorem preserves : Cert.preserves_Kernel_KernelIdeal := trivial

set_option maxHeartbeats 4000000 in
-- Both runs end with the network of the inputs in the result buffer, and the inputs agree.
theorem algebraic : Cert.algebraic_KernelIdeal_ReferenceIdeal := by
  intro m g m' g' hpre hagree
  have P := fun c => Cert.PreFacts.decode _ _ _ _ _ _ _ _ _ _ _ _ _ _ _ _ _ _ _ _ _ _ _ _ _ _ _ _ _ _ _ _ _ _ _ _ (hpre c)
  refine ⟨_, (θ_run Cert.KernelIdeal.defs _ _).mono
      (fun r h c => ⟨(h c).1.trans (Cert.KernelIdeal.Assemble.kernel_value m g c (P c)), (h c).2⟩)
      (Cert.KernelIdeal.KRun.run (F := Ideal) m g), ?_⟩
  refine (θ_run Cert.ReferenceIdeal.defs _ _).mono (fun r h c => ?_) (Cert.ReferenceIdeal.Run.run (F := Ideal) m' g')
  refine ⟨?_, by and_intros <;> exact (h c _).trans (Cert.ReferenceIdeal.RefVal.kept _ (by decide))⟩
  rw [h c Cert.ReferenceIdeal.main_v193, Cert.ReferenceIdeal.RefVal.result_gen]
  simp only [Cert.ReferenceIdeal.RefVal.GV, hagree c]

end Cert.Proof.Claims

namespace Cert.Proof
theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩
end Cert.Proof

end
